-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v191)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v191) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v268) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x3 : Shape := ⟨2, ![20000, 3]⟩
abbrev S20000 : Shape := ⟨1, ![20000]⟩
abbrev S2x320000 : Shape := ⟨2, ![2, 320000]⟩
abbrev S320000 : Shape := ⟨1, ![320000]⟩
abbrev S64 : Shape := ⟨1, ![64]⟩
abbrev S320000x1 : Shape := ⟨2, ![320000, 1]⟩
abbrev S100x128 : Shape := ⟨2, ![100, 128]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S4x128x128 : Shape := ⟨3, ![4, 128, 128]⟩
abbrev S4x128 : Shape := ⟨2, ![4, 128]⟩
abbrev S256x128 : Shape := ⟨2, ![256, 128]⟩
abbrev S128x64 : Shape := ⟨2, ![128, 64]⟩
abbrev S64x1 : Shape := ⟨2, ![64, 1]⟩
abbrev S_ : Shape := ⟨0, ![]⟩

class Facts : Prop where
  bcast_S_S20000x3 : S_.BroadcastsInDim S20000x3 (![] : Fin 0 → Fin S20000x3.rank)
  reducesTo_S20000x3_S_d0_1 : S20000x3.ReducesTo [0, 1] S_
  h_S_ : 0 < S_.numel
  bcast_S_S64 : S_.BroadcastsInDim S64 (![] : Fin 0 → Fin S64.rank)
  reducesTo_S64_S_d0 : S64.ReducesTo [0] S_
  bcast_S_S320000x1 : S_.BroadcastsInDim S320000x1 (![] : Fin 0 → Fin S320000x1.rank)
  reducesTo_S320000x1_S_d0_1 : S320000x1.ReducesTo [0, 1] S_
  bcast_S_S100x128 : S_.BroadcastsInDim S100x128 (![] : Fin 0 → Fin S100x128.rank)
  reducesTo_S100x128_S_d0_1 : S100x128.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S20000 : S_.BroadcastsInDim S20000 (![] : Fin 0 → Fin S20000.rank)
  reducesTo_S20000_S_d0 : S20000.ReducesTo [0] S_
  bcast_S_S320000 : S_.BroadcastsInDim S320000 (![] : Fin 0 → Fin S320000.rank)
  reducesTo_S320000_S_d0 : S320000.ReducesTo [0] S_

variable [Facts]

def fn_part7 {F : FTy → Type} [FloatOps F] (main_arg1 : IVec S20000 32) (main_arg3 : IVec S320000 32) (main_v118 : IVec S_ 1) (main_c_46 : IVec S_ 32) : IVec S_ 1 :=
  let main_v119 : IVec S20000 32 := broadcastInDim S20000 ![] bcast_S_S20000 main_c_46
  let main_v120 : IVec S20000 1 := cmpi .sge main_arg1 main_v119
  let main_c_47 : IVec S_ 1 := constantI S_ 1 1#1
  let main_v121 : IVec S_ 1 := (fun x v => Host.reduce IntOp.andi x v reducesTo_S20000_S_d0 h_S_) main_v120 main_c_47
  let main_v122 : IVec S_ 1 := andi main_v118 main_v121
  let main_c_48 : IVec S_ 32 := constantI S_ 32 100#32
  let main_v123 : IVec S20000 32 := broadcastInDim S20000 ![] bcast_S_S20000 main_c_48
  let main_v124 : IVec S20000 1 := cmpi .slt main_arg1 main_v123
  let main_c_49 : IVec S_ 1 := constantI S_ 1 1#1
  let main_v125 : IVec S_ 1 := (fun x v => Host.reduce IntOp.andi x v reducesTo_S20000_S_d0 h_S_) main_v124 main_c_49
  let main_v126 : IVec S_ 1 := andi main_v122 main_v125
  let main_c_50 : IVec S_ 32 := constantI S_ 32 0#32
  let main_v127 : IVec S320000 32 := broadcastInDim S320000 ![] bcast_S_S320000 main_c_50
  let main_v128 : IVec S320000 1 := cmpi .sge main_arg3 main_v127
  let main_c_51 : IVec S_ 1 := constantI S_ 1 1#1
  let main_v129 : IVec S_ 1 := (fun x v => Host.reduce IntOp.andi x v reducesTo_S320000_S_d0 h_S_) main_v128 main_c_51
  let main_v130 : IVec S_ 1 := andi main_v126 main_v129
  let main_c_52 : IVec S_ 32 := constantI S_ 32 100#32
  let main_v131 : IVec S320000 32 := broadcastInDim S320000 ![] bcast_S_S320000 main_c_52
  let main_v132 : IVec S320000 1 := cmpi .slt main_arg3 main_v131
  let main_c_53 : IVec S_ 1 := constantI S_ 1 1#1
  let main_v133 : IVec S_ 1 := (fun x v => Host.reduce IntOp.andi x v reducesTo_S320000_S_d0 h_S_) main_v132 main_c_53
  let main_v134 : IVec S_ 1 := andi main_v130 main_v133
  main_v134

def fn_part6 {F : FTy → Type} [FloatOps F] (main_arg1 : IVec S20000 32) (main_arg3 : IVec S320000 32) (main_arg25 : FVec F S64 .f32) (main_arg26 : FVec F S64x1 .f32) (main_arg27 : FVec F S1 .f32) (main_v98 : IVec S_ 1) (main_v101 : IVec S128x64 1) (main_c_39 : IVec S_ 1) : IVec S_ 1 :=
  let main_v102 : IVec S_ 1 := (fun x v => Host.reduce IntOp.andi x v reducesTo_S128x64_S_d0_1 h_S_) main_v101 main_c_39
  let main_v103 : IVec S_ 1 := andi main_v98 main_v102
  let main_v104 : FVec F S64 .f32 := Host.absf main_arg25
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x1 .f32 := Host.absf main_arg26
  let main_cst_42 : FVec F S_ .f32 := constant S_ .f32 0x7F800000#32
  let main_v110 : FVec F S64x1 .f32 := broadcastInDim S64x1 ![] bcast_S_S64x1 main_cst_42
  let main_v111 : IVec S64x1 1 := cmpf .olt main_v109 main_v110
  let main_c_43 : IVec S_ 1 := constantI S_ 1 1#1
  let main_v112 : IVec S_ 1 := (fun x v => Host.reduce IntOp.andi x v reducesTo_S64x1_S_d0_1 h_S_) main_v111 main_c_43
  let main_v113 : IVec S_ 1 := andi main_v108 main_v112
  let main_v114 : FVec F S1 .f32 := Host.absf main_arg27
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  let main_c_46 : IVec S_ 32 := constantI S_ 32 0#32
  fn_part7 (F := F) main_arg1 main_arg3 main_v118 main_c_46

def fn_part5 {F : FTy → Type} [FloatOps F] (main_arg1 : IVec S20000 32) (main_arg3 : IVec S320000 32) (main_arg22 : FVec F S256x128 .f32) (main_arg23 : FVec F S128 .f32) (main_arg24 : FVec F S128x64 .f32) (main_arg25 : FVec F S64 .f32) (main_arg26 : FVec F S64x1 .f32) (main_arg27 : FVec F S1 .f32) (main_v83 : IVec S_ 1) (main_v84 : FVec F S4x128 .f32) (main_cst_32 : FVec F S_ .f32) : IVec S_ 1 :=
  let main_v85 : FVec F S4x128 .f32 := broadcastInDim S4x128 ![] bcast_S_S4x128 main_cst_32
  let main_v86 : IVec S4x128 1 := cmpf .olt main_v84 main_v85
  let main_c_33 : IVec S_ 1 := constantI S_ 1 1#1
  let main_v87 : IVec S_ 1 := (fun x v => Host.reduce IntOp.andi x v reducesTo_S4x128_S_d0_1 h_S_) main_v86 main_c_33
  let main_v88 : IVec S_ 1 := andi main_v83 main_v87
  let main_v89 : FVec F S256x128 .f32 := Host.absf main_arg22
  let main_cst_34 : FVec F S_ .f32 := constant S_ .f32 0x7F800000#32
  let main_v90 : FVec F S256x128 .f32 := broadcastInDim S256x128 ![] bcast_S_S256x128 main_cst_34
  let main_v91 : IVec S256x128 1 := cmpf .olt main_v89 main_v90
  let main_c_35 : IVec S_ 1 := constantI S_ 1 1#1
  let main_v92 : IVec S_ 1 := (fun x v => Host.reduce IntOp.andi x v reducesTo_S256x128_S_d0_1 h_S_) main_v91 main_c_35
  let main_v93 : IVec S_ 1 := andi main_v88 main_v92
  let main_v94 : FVec F S128 .f32 := Host.absf main_arg23
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x64 .f32 := Host.absf main_arg24
  let main_cst_38 : FVec F S_ .f32 := constant S_ .f32 0x7F800000#32
  let main_v100 : FVec F S128x64 .f32 := broadcastInDim S128x64 ![] bcast_S_S128x64 main_cst_38
  let main_v101 : IVec S128x64 1 := cmpf .olt main_v99 main_v100
  let main_c_39 : IVec S_ 1 := constantI S_ 1 1#1
  fn_part6 (F := F) main_arg1 main_arg3 main_arg25 main_arg26 main_arg27 main_v98 main_v101 main_c_39

def fn_part4 {F : FTy → Type} [FloatOps F] (main_arg1 : IVec S20000 32) (main_arg3 : IVec S320000 32) (main_arg18 : FVec F S4x128x128 .f32) (main_arg19 : FVec F S4x128 .f32) (main_arg20 : FVec F S4x128x128 .f32) (main_arg21 : FVec F S4x128 .f32) (main_arg22 : FVec F S256x128 .f32) (main_arg23 : FVec F S128 .f32) (main_arg24 : FVec F S128x64 .f32) (main_arg25 : FVec F S64 .f32) (main_arg26 : FVec F S64x1 .f32) (main_arg27 : FVec F S1 .f32) (main_v63 : IVec S_ 1) (main_v67 : IVec S_ 1) : IVec S_ 1 :=
  let main_v68 : IVec S_ 1 := andi main_v63 main_v67
  let main_v69 : FVec F S4x128x128 .f32 := Host.absf main_arg18
  let main_cst_26 : FVec F S_ .f32 := constant S_ .f32 0x7F800000#32
  let main_v70 : FVec F S4x128x128 .f32 := broadcastInDim S4x128x128 ![] bcast_S_S4x128x128 main_cst_26
  let main_v71 : IVec S4x128x128 1 := cmpf .olt main_v69 main_v70
  let main_c_27 : IVec S_ 1 := constantI S_ 1 1#1
  let main_v72 : IVec S_ 1 := (fun x v => Host.reduce IntOp.andi x v reducesTo_S4x128x128_S_d0_1_2 h_S_) main_v71 main_c_27
  let main_v73 : IVec S_ 1 := andi main_v68 main_v72
  let main_v74 : FVec F S4x128 .f32 := Host.absf main_arg19
  let main_cst_28 : FVec F S_ .f32 := constant S_ .f32 0x7F800000#32
  let main_v75 : FVec F S4x128 .f32 := broadcastInDim S4x128 ![] bcast_S_S4x128 main_cst_28
  let main_v76 : IVec S4x128 1 := cmpf .olt main_v74 main_v75
  let main_c_29 : IVec S_ 1 := constantI S_ 1 1#1
  let main_v77 : IVec S_ 1 := (fun x v => Host.reduce IntOp.andi x v reducesTo_S4x128_S_d0_1 h_S_) main_v76 main_c_29
  let main_v78 : IVec S_ 1 := andi main_v73 main_v77
  let main_v79 : FVec F S4x128x128 .f32 := Host.absf main_arg20
  let main_cst_30 : FVec F S_ .f32 := constant S_ .f32 0x7F800000#32
  let main_v80 : FVec F S4x128x128 .f32 := broadcastInDim S4x128x128 ![] bcast_S_S4x128x128 main_cst_30
  let main_v81 : IVec S4x128x128 1 := cmpf .olt main_v79 main_v80
  let main_c_31 : IVec S_ 1 := constantI S_ 1 1#1
  let main_v82 : IVec S_ 1 := (fun x v => Host.reduce IntOp.andi x v reducesTo_S4x128x128_S_d0_1_2 h_S_) main_v81 main_c_31
  let main_v83 : IVec S_ 1 := andi main_v78 main_v82
  let main_v84 : FVec F S4x128 .f32 := Host.absf main_arg21
  let main_cst_32 : FVec F S_ .f32 := constant S_ .f32 0x7F800000#32
  fn_part5 (F := F) main_arg1 main_arg3 main_arg22 main_arg23 main_arg24 main_arg25 main_arg26 main_arg27 main_v83 main_v84 main_cst_32

def fn_part3 {F : FTy → Type} [FloatOps F] (main_arg1 : IVec S20000 32) (main_arg3 : IVec S320000 32) (main_arg15 : FVec F S128 .f32) (main_arg16 : FVec F S128x1 .f32) (main_arg17 : FVec F S1 .f32) (main_arg18 : FVec F S4x128x128 .f32) (main_arg19 : FVec F S4x128 .f32) (main_arg20 : FVec F S4x128x128 .f32) (main_arg21 : FVec F S4x128 .f32) (main_arg22 : FVec F S256x128 .f32) (main_arg23 : FVec F S128 .f32) (main_arg24 : FVec F S128x64 .f32) (main_arg25 : FVec F S64 .f32) (main_arg26 : FVec F S64x1 .f32) (main_arg27 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg16
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg17
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg1 main_arg3 main_arg18 main_arg19 main_arg20 main_arg21 main_arg22 main_arg23 main_arg24 main_arg25 main_arg26 main_arg27 main_v63 main_v67

def fn_part2 {F : FTy → Type} [FloatOps F] (main_arg1 : IVec S20000 32) (main_arg3 : IVec S320000 32) (main_arg11 : FVec F S128x128 .f32) (main_arg12 : FVec F S128 .f32) (main_arg13 : FVec F S64 .f32) (main_arg14 : FVec F S128x128 .f32) (main_arg15 : FVec F S128 .f32) (main_arg16 : FVec F S128x1 .f32) (main_arg17 : FVec F S1 .f32) (main_arg18 : FVec F S4x128x128 .f32) (main_arg19 : FVec F S4x128 .f32) (main_arg20 : FVec F S4x128x128 .f32) (main_arg21 : FVec F S4x128 .f32) (main_arg22 : FVec F S256x128 .f32) (main_arg23 : FVec F S128 .f32) (main_arg24 : FVec F S128x64 .f32) (main_arg25 : FVec F S64 .f32) (main_arg26 : FVec F S64x1 .f32) (main_arg27 : FVec F S1 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x128 .f32 := Host.absf main_arg14
  let main_cst_18 : FVec F S_ .f32 := constant S_ .f32 0x7F800000#32
  let main_v50 : FVec F S128x128 .f32 := broadcastInDim S128x128 ![] bcast_S_S128x128 main_cst_18
  fn_part3 (F := F) main_arg1 main_arg3 main_arg15 main_arg16 main_arg17 main_arg18 main_arg19 main_arg20 main_arg21 main_arg22 main_arg23 main_arg24 main_arg25 main_arg26 main_arg27 main_v48 main_v49 main_v50

def fn_part1 {F : FTy → Type} [FloatOps F] (main_arg1 : IVec S20000 32) (main_arg3 : IVec S320000 32) (main_arg8 : FVec F S100x128 .f32) (main_arg9 : FVec F S1x128 .f32) (main_arg10 : FVec F S128 .f32) (main_arg11 : FVec F S128x128 .f32) (main_arg12 : FVec F S128 .f32) (main_arg13 : FVec F S64 .f32) (main_arg14 : FVec F S128x128 .f32) (main_arg15 : FVec F S128 .f32) (main_arg16 : FVec F S128x1 .f32) (main_arg17 : FVec F S1 .f32) (main_arg18 : FVec F S4x128x128 .f32) (main_arg19 : FVec F S4x128 .f32) (main_arg20 : FVec F S4x128x128 .f32) (main_arg21 : FVec F S4x128 .f32) (main_arg22 : FVec F S256x128 .f32) (main_arg23 : FVec F S128 .f32) (main_arg24 : FVec F S128x64 .f32) (main_arg25 : FVec F S64 .f32) (main_arg26 : FVec F S64x1 .f32) (main_arg27 : FVec F S1 .f32) (main_v13 : IVec S_ 1) (main_v16 : IVec S100x128 1) : IVec S_ 1 :=
  let main_c_5 : IVec S_ 1 := constantI S_ 1 1#1
  let main_v17 : IVec S_ 1 := (fun x v => Host.reduce IntOp.andi x v reducesTo_S100x128_S_d0_1 h_S_) main_v16 main_c_5
  let main_v18 : IVec S_ 1 := andi main_v13 main_v17
  let main_v19 : FVec F S100x128 .f32 := Host.absf main_arg8
  let main_cst_6 : FVec F S_ .f32 := constant S_ .f32 0x7F800000#32
  let main_v20 : FVec F S100x128 .f32 := broadcastInDim S100x128 ![] bcast_S_S100x128 main_cst_6
  let main_v21 : IVec S100x128 1 := cmpf .olt main_v19 main_v20
  let main_c_7 : IVec S_ 1 := constantI S_ 1 1#1
  let main_v22 : IVec S_ 1 := (fun x v => Host.reduce IntOp.andi x v reducesTo_S100x128_S_d0_1 h_S_) main_v21 main_c_7
  let main_v23 : IVec S_ 1 := andi main_v18 main_v22
  let main_v24 : FVec F S1x128 .f32 := Host.absf main_arg9
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg3 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S20000x3 .f32) (main_arg1 : IVec S20000 32) (main_arg2 : IVec S2x320000 32) (main_arg3 : IVec S320000 32) (main_arg4 : IVec S20000 32) (main_arg5 : FVec F S64 .f32) (main_arg6 : FVec F S320000x1 .f32) (main_arg7 : FVec F S100x128 .f32) (main_arg8 : FVec F S100x128 .f32) (main_arg9 : FVec F S1x128 .f32) (main_arg10 : FVec F S128 .f32) (main_arg11 : FVec F S128x128 .f32) (main_arg12 : FVec F S128 .f32) (main_arg13 : FVec F S64 .f32) (main_arg14 : FVec F S128x128 .f32) (main_arg15 : FVec F S128 .f32) (main_arg16 : FVec F S128x1 .f32) (main_arg17 : FVec F S1 .f32) (main_arg18 : FVec F S4x128x128 .f32) (main_arg19 : FVec F S4x128 .f32) (main_arg20 : FVec F S4x128x128 .f32) (main_arg21 : FVec F S4x128 .f32) (main_arg22 : FVec F S256x128 .f32) (main_arg23 : FVec F S128 .f32) (main_arg24 : FVec F S128x64 .f32) (main_arg25 : FVec F S64 .f32) (main_arg26 : FVec F S64x1 .f32) (main_arg27 : FVec F S1 .f32) : IVec S_ 1 :=
  let main_v0 : FVec F S20000x3 .f32 := Host.absf main_arg0
  let main_cst : FVec F S_ .f32 := constant S_ .f32 0x7F800000#32
  let main_v1 : FVec F S20000x3 .f32 := broadcastInDim S20000x3 ![] bcast_S_S20000x3 main_cst
  let main_v2 : IVec S20000x3 1 := cmpf .olt main_v0 main_v1
  let main_c : IVec S_ 1 := constantI S_ 1 1#1
  let main_v3 : IVec S_ 1 := (fun x v => Host.reduce IntOp.andi x v reducesTo_S20000x3_S_d0_1 h_S_) main_v2 main_c
  let main_v4 : FVec F S64 .f32 := Host.absf main_arg5
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S320000x1 .f32 := Host.absf main_arg6
  let main_cst_2 : FVec F S_ .f32 := constant S_ .f32 0x7F800000#32
  let main_v10 : FVec F S320000x1 .f32 := broadcastInDim S320000x1 ![] bcast_S_S320000x1 main_cst_2
  let main_v11 : IVec S320000x1 1 := cmpf .olt main_v9 main_v10
  let main_c_3 : IVec S_ 1 := constantI S_ 1 1#1
  let main_v12 : IVec S_ 1 := (fun x v => Host.reduce IntOp.andi x v reducesTo_S320000x1_S_d0_1 h_S_) main_v11 main_c_3
  let main_v13 : IVec S_ 1 := andi main_v8 main_v12
  let main_v14 : FVec F S100x128 .f32 := Host.absf main_arg7
  let main_cst_4 : FVec F S_ .f32 := constant S_ .f32 0x7F800000#32
  let main_v15 : FVec F S100x128 .f32 := broadcastInDim S100x128 ![] bcast_S_S100x128 main_cst_4
  let main_v16 : IVec S100x128 1 := cmpf .olt main_v14 main_v15
  fn_part1 (F := F) main_arg1 main_arg3 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S20000x3 : Shape := ⟨2, ![20000, 3]⟩
abbrev S20000 : Shape := ⟨1, ![20000]⟩
abbrev S2x320000 : Shape := ⟨2, ![2, 320000]⟩
abbrev S320000 : Shape := ⟨1, ![320000]⟩
abbrev S64 : Shape := ⟨1, ![64]⟩
abbrev S320000x1 : Shape := ⟨2, ![320000, 1]⟩
abbrev S100x128 : Shape := ⟨2, ![100, 128]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S4x128x128 : Shape := ⟨3, ![4, 128, 128]⟩
abbrev S4x128 : Shape := ⟨2, ![4, 128]⟩
abbrev S256x128 : Shape := ⟨2, ![256, 128]⟩
abbrev S128x64 : Shape := ⟨2, ![128, 64]⟩
abbrev S64x1 : Shape := ⟨2, ![64, 1]⟩
abbrev S1x320000 : Shape := ⟨2, ![1, 320000]⟩
abbrev S_ : Shape := ⟨0, ![]⟩
abbrev S320000x3 : Shape := ⟨2, ![320000, 3]⟩
abbrev S1x64 : Shape := ⟨2, ![1, 64]⟩
abbrev S64x64 : Shape := ⟨2, ![64, 64]⟩
abbrev S64x128 : Shape := ⟨2, ![64, 128]⟩
abbrev S1x1 : Shape := ⟨2, ![1, 1]⟩
abbrev S320000x128 : Shape := ⟨2, ![320000, 128]⟩
abbrev S2000x1 : Shape := ⟨2, ![2000, 1]⟩
abbrev S2000x128 : Shape := ⟨2, ![2000, 128]⟩
abbrev S2000x100 : Shape := ⟨2, ![2000, 100]⟩
abbrev S20000x1 : Shape := ⟨2, ![20000, 1]⟩
abbrev S20000x128 : Shape := ⟨2, ![20000, 128]⟩
abbrev S1x128x128 : Shape := ⟨3, ![1, 128, 128]⟩
abbrev S2000x256 : Shape := ⟨2, ![2000, 256]⟩
abbrev S2000x64 : Shape := ⟨2, ![2000, 64]⟩

abbrev nBuf : Space → Nat
  | .hbm => 258
  | .vmem => 100
  | .smem => 0
  | _ => 0

abbrev hbmTy0_0 (i : Nat) : BufTy := match i % 128 with
  | 0 => ⟨S20000x3, .f32⟩
  | 1 => ⟨S20000, .i32⟩
  | 2 => ⟨S2x320000, .i32⟩
  | 3 => ⟨S320000, .i32⟩
  | 4 => ⟨S20000, .i32⟩
  | 5 => ⟨S64, .f32⟩
  | 6 => ⟨S320000x1, .f32⟩
  | 7 => ⟨S100x128, .f32⟩
  | 8 => ⟨S100x128, .f32⟩
  | 9 => ⟨S1x128, .f32⟩
  | 10 => ⟨S128, .f32⟩
  | 11 => ⟨S128x128, .f32⟩
  | 12 => ⟨S128, .f32⟩
  | 13 => ⟨S64, .f32⟩
  | 14 => ⟨S128x128, .f32⟩
  | 15 => ⟨S128, .f32⟩
  | 16 => ⟨S128x1, .f32⟩
  | 17 => ⟨S1, .f32⟩
  | 18 => ⟨S4x128x128, .f32⟩
  | 19 => ⟨S4x128, .f32⟩
  | 20 => ⟨S4x128x128, .f32⟩
  | 21 => ⟨S4x128, .f32⟩
  | 22 => ⟨S256x128, .f32⟩
  | 23 => ⟨S128, .f32⟩
  | 24 => ⟨S128x64, .f32⟩
  | 25 => ⟨S64, .f32⟩
  | 26 => ⟨S64x1, .f32⟩
  | 27 => ⟨S1, .f32⟩
  | 28 => ⟨S1x320000, .i32⟩
  | 29 => ⟨S320000, .i32⟩
  | 30 => ⟨S1x320000, .i32⟩
  | 31 => ⟨S320000, .i32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000, .i32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000x3, .f32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S320000x3, .f32⟩
  | 59 => ⟨S320000x3, .f32⟩
  | 60 => ⟨S320000x3, .f32⟩
  | 61 => ⟨S_, .f32⟩
  | 62 => ⟨S320000, .f32⟩
  | 63 => ⟨S320000x1, .f32⟩
  | 64 => ⟨S320000x1, .f32⟩
  | 65 => ⟨S_, .f32⟩
  | 66 => ⟨S64, .f32⟩
  | 67 => ⟨S64, .f32⟩
  | 68 => ⟨S_, .f32⟩
  | 69 => ⟨S64, .f32⟩
  | 70 => ⟨S64, .f32⟩
  | 71 => ⟨S_, .f32⟩
  | 72 => ⟨S64, .f32⟩
  | 73 => ⟨S64, .f32⟩
  | 74 => ⟨S_, .f32⟩
  | 75 => ⟨S64, .f32⟩
  | 76 => ⟨S64, .f32⟩
  | 77 => ⟨S_, .f32⟩
  | 78 => ⟨S64, .f32⟩
  | 79 => ⟨S64, .f32⟩
  | 80 => ⟨S_, .f32⟩
  | 81 => ⟨S64, .f32⟩
  | 82 => ⟨S64, .f32⟩
  | 83 => ⟨S64, .f32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S320000, .f32⟩
  | 93 => ⟨S320000x1, .f32⟩
  | 94 => ⟨S320000x1, .f32⟩
  | 95 => ⟨S320000x1, .f32⟩
  | 96 => ⟨S64x1, .f32⟩
  | 97 => ⟨S1x64, .f32⟩
  | 98 => ⟨S64x64, .f32⟩
  | 99 => ⟨S64x64, .f32⟩
  | 100 => ⟨S64x64, .f32⟩
  | 101 => ⟨S_, .f32⟩
  | 102 => ⟨S64x64, .f32⟩
  | 103 => ⟨S64x64, .f32⟩
  | 104 => ⟨S64x64, .f32⟩
  | 105 => ⟨S64x64, .f32⟩
  | 106 => ⟨S64x128, .f32⟩
  | 107 => ⟨S64x128, .f32⟩
  | 108 => ⟨S1x128, .f32⟩
  | 109 => ⟨S64x128, .f32⟩
  | 110 => ⟨S64x128, .f32⟩
  | 111 => ⟨S64x1, .f32⟩
  | 112 => ⟨S1x1, .f32⟩
  | 113 => ⟨S64x1, .f32⟩
  | 114 => ⟨S64x1, .f32⟩
  | 115 => ⟨S_, .i32⟩
  | 116 => ⟨S320000, .i32⟩
  | 117 => ⟨S320000, .i1⟩
  | 118 => ⟨S_, .i32⟩
  | 119 => ⟨S320000, .i32⟩
  | 120 => ⟨S320000, .i32⟩
  | 121 => ⟨S320000, .i32⟩
  | 122 => ⟨S320000x1, .i32⟩
  | 123 => ⟨S320000x1, .f32⟩
  | 124 => ⟨S320000x1, .i32⟩
  | 125 => ⟨S1x128, .f32⟩
  | 126 => ⟨S1x128, .f32⟩
  | 127 => ⟨S320000x128, .f32⟩
  | _ => ⟨S20000x3, .f32⟩

abbrev hbmTy0_1 (i : Nat) : BufTy := match i % 128 with
  | 0 => ⟨S20000x1, .i32⟩
  | 1 => ⟨S20000x128, .f32⟩
  | 2 => ⟨S_, .i32⟩
  | 3 => ⟨S320000, .i32⟩
  | 4 => ⟨S320000, .i1⟩
  | 5 => ⟨S_, .i32⟩
  | 6 => ⟨S320000, .i32⟩
  | 7 => ⟨S320000, .i32⟩
  | 8 => ⟨S320000, .i32⟩
  | 9 => ⟨S320000x1, .i32⟩
  | 10 => ⟨S320000x128, .f32⟩
  | 11 => ⟨S320000x128, .f32⟩
  | 12 => ⟨S_, .f32⟩
  | 13 => ⟨S20000x128, .f32⟩
  | 14 => ⟨S320000x1, .i32⟩
  | 15 => ⟨S20000x128, .f32⟩
  | 16 => ⟨S1x128x128, .f32⟩
  | 17 => ⟨S128x128, .f32⟩
  | 18 => ⟨S1x128, .f32⟩
  | 19 => ⟨S128, .f32⟩
  | 20 => ⟨S1x128, .f32⟩
  | 21 => ⟨S1x128x128, .f32⟩
  | 22 => ⟨S128x128, .f32⟩
  | 23 => ⟨S1x128, .f32⟩
  | 24 => ⟨S128, .f32⟩
  | 25 => ⟨S1x128, .f32⟩
  | 26 => ⟨S20000x128, .f32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x128, .f32⟩
  | 36 => ⟨S320000x128, .f32⟩
  | 37 => ⟨S_, .f32⟩
  | 38 => ⟨S20000x128, .f32⟩
  | 39 => ⟨S320000x1, .i32⟩
  | 40 => ⟨S20000x128, .f32⟩
  | 41 => ⟨S1x128x128, .f32⟩
  | 42 => ⟨S128x128, .f32⟩
  | 43 => ⟨S1x128, .f32⟩
  | 44 => ⟨S128, .f32⟩
  | 45 => ⟨S1x128, .f32⟩
  | 46 => ⟨S1x128x128, .f32⟩
  | 47 => ⟨S128x128, .f32⟩
  | 48 => ⟨S1x128, .f32⟩
  | 49 => ⟨S128, .f32⟩
  | 50 => ⟨S1x128, .f32⟩
  | 51 => ⟨S20000x128, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S320000x128, .f32⟩
  | 61 => ⟨S320000x128, .f32⟩
  | 62 => ⟨S_, .f32⟩
  | 63 => ⟨S20000x128, .f32⟩
  | 64 => ⟨S320000x1, .i32⟩
  | 65 => ⟨S20000x128, .f32⟩
  | 66 => ⟨S1x128x128, .f32⟩
  | 67 => ⟨S128x128, .f32⟩
  | 68 => ⟨S1x128, .f32⟩
  | 69 => ⟨S128, .f32⟩
  | 70 => ⟨S1x128, .f32⟩
  | 71 => ⟨S1x128x128, .f32⟩
  | 72 => ⟨S128x128, .f32⟩
  | 73 => ⟨S1x128, .f32⟩
  | 74 => ⟨S128, .f32⟩
  | 75 => ⟨S1x128, .f32⟩
  | 76 => ⟨S20000x128, .f32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S320000x128, .f32⟩
  | 86 => ⟨S320000x128, .f32⟩
  | 87 => ⟨S_, .f32⟩
  | 88 => ⟨S20000x128, .f32⟩
  | 89 => ⟨S320000x1, .i32⟩
  | 90 => ⟨S20000x128, .f32⟩
  | 91 => ⟨S1x128x128, .f32⟩
  | 92 => ⟨S128x128, .f32⟩
  | 93 => ⟨S1x128, .f32⟩
  | 94 => ⟨S128, .f32⟩
  | 95 => ⟨S1x128, .f32⟩
  | 96 => ⟨S1x128x128, .f32⟩
  | 97 => ⟨S128x128, .f32⟩
  | 98 => ⟨S1x128, .f32⟩
  | 99 => ⟨S128, .f32⟩
  | 100 => ⟨S1x128, .f32⟩
  | 101 => ⟨S20000x128, .f32⟩
  | 102 => ⟨S_, .i32⟩
  | 103 => ⟨S320000, .i32⟩
  | 104 => ⟨S320000, .i1⟩
  | 105 => ⟨S_, .i32⟩
  | 106 => ⟨S320000, .i32⟩
  | 107 => ⟨S320000, .i32⟩
  | 108 => ⟨S320000, .i32⟩
  | 109 => ⟨S320000x1, .i32⟩
  | 110 => ⟨S320000x128, .f32⟩
  | 111 => ⟨S_, .i32⟩
  | 112 => ⟨S320000, .i32⟩
  | 113 => ⟨S320000, .i1⟩
  | 114 => ⟨S_, .i32⟩
  | 115 => ⟨S320000, .i32⟩
  | 116 => ⟨S320000, .i32⟩
  | 117 => ⟨S320000, .i32⟩
  | 118 => ⟨S320000x1, .i32⟩
  | 119 => ⟨S320000x128, .f32⟩
  | 120 => ⟨S1x128, .f32⟩
  | 121 => ⟨S1x64, .f32⟩
  | 122 => ⟨S1x1, .f32⟩
  | 123 => ⟨S320000x1, .f32⟩
  | 124 => ⟨S320000x1, .f32⟩
  | 125 => ⟨S320000, .f32⟩
  | 126 => ⟨S_, .f32⟩
  | 127 => ⟨S64, .f32⟩
  | _ => ⟨S20000x3, .f32⟩

abbrev hbmTy0_2 (i : Nat) : BufTy := match i % 128 with
  | 0 => ⟨S320000x1, .i32⟩
  | 1 => ⟨S64, .f32⟩
  | _ => ⟨S20000x3, .f32⟩

abbrev hbmTy (i : Nat) : BufTy := match i / 128 with
  | 0 => hbmTy0_0 i
  | 1 => hbmTy0_1 i
  | 2 => hbmTy0_2 i
  | _ => ⟨S20000x3, .f32⟩

abbrev bufTy : (tb : Table) → Fin (tcTables nBuf tb) → BufTy
  | .hbm, ⟨i, _⟩ => hbmTy i
  | .local _ .vmem, ⟨0, _⟩ => ⟨S2000x1, .f32⟩
  | .local _ .vmem, ⟨1, _⟩ => ⟨S2000x1, .f32⟩
  | .local _ .vmem, ⟨2, _⟩ => ⟨S2000x1, .f32⟩
  | .local _ .vmem, ⟨3, _⟩ => ⟨S2000x1, .f32⟩
  | .local _ .vmem, ⟨4, _⟩ => ⟨S2000x1, .i32⟩
  | .local _ .vmem, ⟨5, _⟩ => ⟨S2000x1, .i32⟩
  | .local _ .vmem, ⟨6, _⟩ => ⟨S100x128, .f32⟩
  | .local _ .vmem, ⟨7, _⟩ => ⟨S1x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S2000x1, .i32⟩
  | .local _ .vmem, ⟨14, _⟩ => ⟨S2000x1, .i32⟩
  | .local _ .vmem, ⟨15, _⟩ => ⟨S100x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S2000x128, .f32⟩
  | .local _ .vmem, ⟨60, _⟩ => ⟨S128x128, .f32⟩
  | .local _ .vmem, ⟨61, _⟩ => ⟨S1x128, .f32⟩
  | .local _ .vmem, ⟨62, _⟩ => ⟨S128x128, .f32⟩
  | .local _ .vmem, ⟨63, _⟩ => ⟨S1x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S2000x128, .f32⟩
  | .local _ .vmem, ⟨69, _⟩ => ⟨S2000x128, .f32⟩
  | .local _ .vmem, ⟨70, _⟩ => ⟨S2000x128, .f32⟩
  | .local _ .vmem, ⟨71, _⟩ => ⟨S2000x128, .f32⟩
  | .local _ .vmem, ⟨72, _⟩ => ⟨S2000x128, .f32⟩
  | .local _ .vmem, ⟨73, _⟩ => ⟨S2000x128, .f32⟩
  | .local _ .vmem, ⟨74, _⟩ => ⟨S2000x128, .f32⟩
  | .local _ .vmem, ⟨75, _⟩ => ⟨S2000x128, .f32⟩
  | .local _ .vmem, ⟨76, _⟩ => ⟨S128x128, .f32⟩
  | .local _ .vmem, ⟨77, _⟩ => ⟨S1x128, .f32⟩
  | .local _ .vmem, ⟨78, _⟩ => ⟨S128x128, .f32⟩
  | .local _ .vmem, ⟨79, _⟩ => ⟨S1x128, .f32⟩
  | .local _ .vmem, ⟨80, _⟩ => ⟨S2000x128, .f32⟩
  | .local _ .vmem, ⟨81, _⟩ => ⟨S2000x128, .f32⟩
  | .local _ .vmem, ⟨82, _⟩ => ⟨S2000x128, .f32⟩
  | .local _ .vmem, ⟨83, _⟩ => ⟨S2000x128, .f32⟩
  | .local _ .vmem, ⟨84, _⟩ => ⟨S2000x128, .f32⟩
  | .local _ .vmem, ⟨85, _⟩ => ⟨S2000x128, .f32⟩
  | .local _ .vmem, ⟨86, _⟩ => ⟨S2000x128, .f32⟩
  | .local _ .vmem, ⟨87, _⟩ => ⟨S2000x128, .f32⟩
  | .local _ .vmem, ⟨88, _⟩ => ⟨S2000x1, .f32⟩
  | .local _ .vmem, ⟨89, _⟩ => ⟨S2000x1, .f32⟩
  | .local _ .vmem, ⟨90, _⟩ => ⟨S2000x1, .f32⟩
  | .local _ .vmem, ⟨91, _⟩ => ⟨S2000x1, .f32⟩
  | .local _ .vmem, ⟨92, _⟩ => ⟨S256x128, .f32⟩
  | .local _ .vmem, ⟨93, _⟩ => ⟨S1x128, .f32⟩
  | .local _ .vmem, ⟨94, _⟩ => ⟨S128x64, .f32⟩
  | .local _ .vmem, ⟨95, _⟩ => ⟨S1x64, .f32⟩
  | .local _ .vmem, ⟨96, _⟩ => ⟨S64x1, .f32⟩
  | .local _ .vmem, ⟨97, _⟩ => ⟨S1x1, .f32⟩
  | .local _ .vmem, ⟨98, _⟩ => ⟨S2000x1, .f32⟩
  | .local _ .vmem, ⟨99, _⟩ => ⟨S2000x1, .f32⟩
  | _, _ => ⟨S20000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  ofTc nBuf bufTy 0 100 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_1 : Ref sig .tc := ⟨.hbm, 41, rfl⟩
abbrev main_v11 : Ref sig .tc := ⟨.hbm, 42, rfl⟩
abbrev main_v12 : Ref sig .tc := ⟨.hbm, 43, rfl⟩
abbrev main_c_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_c_3 : Ref sig .tc := ⟨.hbm, 50, rfl⟩
abbrev main_v18 : Ref sig .tc := ⟨.hbm, 51, rfl⟩
abbrev main_v19 : Ref sig .tc := ⟨.hbm, 52, rfl⟩
abbrev main_c_4 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_call0_v0 : Ref sig .tc := ⟨.hbm, 60, rfl⟩
abbrev main_call0_cst : Ref sig .tc := ⟨.hbm, 61, rfl⟩
abbrev main_call0_v1 : Ref sig .tc := ⟨.hbm, 62, rfl⟩
abbrev main_call0_v2 : Ref sig .tc := ⟨.hbm, 63, rfl⟩
abbrev main_v26 : Ref sig .tc := ⟨.hbm, 64, rfl⟩
abbrev main_cst : Ref sig .tc := ⟨.hbm, 65, rfl⟩
abbrev main_v27 : Ref sig .tc := ⟨.hbm, 66, rfl⟩
abbrev main_v28 : Ref sig .tc := ⟨.hbm, 67, rfl⟩
abbrev main_cst_5 : Ref sig .tc := ⟨.hbm, 68, rfl⟩
abbrev main_v29 : Ref sig .tc := ⟨.hbm, 69, rfl⟩
abbrev main_v30 : Ref sig .tc := ⟨.hbm, 70, rfl⟩
abbrev main_cst_6 : Ref sig .tc := ⟨.hbm, 71, rfl⟩
abbrev main_v31 : Ref sig .tc := ⟨.hbm, 72, rfl⟩
abbrev main_v32 : Ref sig .tc := ⟨.hbm, 73, rfl⟩
abbrev main_cst_7 : Ref sig .tc := ⟨.hbm, 74, rfl⟩
abbrev main_v33 : Ref sig .tc := ⟨.hbm, 75, rfl⟩
abbrev main_v34 : Ref sig .tc := ⟨.hbm, 76, rfl⟩
abbrev main_cst_8 : Ref sig .tc := ⟨.hbm, 77, rfl⟩
abbrev main_v35 : Ref sig .tc := ⟨.hbm, 78, rfl⟩
abbrev main_v36 : Ref sig .tc := ⟨.hbm, 79, rfl⟩
abbrev main_cst_9 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_c_10 : Ref sig .tc := ⟨.hbm, 84, rfl⟩
abbrev main_v40 : Ref sig .tc := ⟨.hbm, 85, rfl⟩
abbrev main_v41 : Ref sig .tc := ⟨.hbm, 86, rfl⟩
abbrev main_c_11 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_12 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_c_13 : Ref sig .tc := ⟨.hbm, 115, rfl⟩
abbrev main_v68 : Ref sig .tc := ⟨.hbm, 116, rfl⟩
abbrev main_v69 : Ref sig .tc := ⟨.hbm, 117, rfl⟩
abbrev main_c_14 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_c_15 : Ref sig .tc := ⟨.hbm, 130, rfl⟩
abbrev main_v81 : Ref sig .tc := ⟨.hbm, 131, rfl⟩
abbrev main_v82 : Ref sig .tc := ⟨.hbm, 132, rfl⟩
abbrev main_c_16 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_cst_17 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_c_18 : Ref sig .tc := ⟨.hbm, 155, rfl⟩
abbrev main_v103 : Ref sig .tc := ⟨.hbm, 156, rfl⟩
abbrev main_v104 : Ref sig .tc := ⟨.hbm, 157, rfl⟩
abbrev main_c_19 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_cst_20 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_c_21 : Ref sig .tc := ⟨.hbm, 180, rfl⟩
abbrev main_v125 : Ref sig .tc := ⟨.hbm, 181, rfl⟩
abbrev main_v126 : Ref sig .tc := ⟨.hbm, 182, rfl⟩
abbrev main_c_22 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_cst_23 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_c_24 : Ref sig .tc := ⟨.hbm, 205, rfl⟩
abbrev main_v147 : Ref sig .tc := ⟨.hbm, 206, rfl⟩
abbrev main_v148 : Ref sig .tc := ⟨.hbm, 207, rfl⟩
abbrev main_c_25 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_cst_26 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_c_27 : Ref sig .tc := ⟨.hbm, 230, rfl⟩
abbrev main_v169 : Ref sig .tc := ⟨.hbm, 231, rfl⟩
abbrev main_v170 : Ref sig .tc := ⟨.hbm, 232, rfl⟩
abbrev main_c_28 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_c_29 : Ref sig .tc := ⟨.hbm, 239, rfl⟩
abbrev main_v176 : Ref sig .tc := ⟨.hbm, 240, rfl⟩
abbrev main_v177 : Ref sig .tc := ⟨.hbm, 241, rfl⟩
abbrev main_c_30 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_cst_31 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg5_0 : Ref sig .tc := ⟨.vmem, 47, rfl⟩
abbrev cc5_stg6_0 : Ref sig .tc := ⟨.vmem, 48, rfl⟩
abbrev cc5_stg6_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg2_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg5_0 : Ref sig .tc := ⟨.vmem, 63, rfl⟩
abbrev cc7_stg6_0 : Ref sig .tc := ⟨.vmem, 64, rfl⟩
abbrev cc7_stg6_1 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg1_1 : Ref sig .tc := ⟨.vmem, 69, rfl⟩
abbrev cc8_stg2_0 : Ref sig .tc := ⟨.vmem, 70, rfl⟩
abbrev cc8_stg2_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg1_1 : Ref sig .tc := ⟨.vmem, 75, rfl⟩
abbrev cc9_stg2_0 : Ref sig .tc := ⟨.vmem, 76, rfl⟩
abbrev cc9_stg3_0 : Ref sig .tc := ⟨.vmem, 77, rfl⟩
abbrev cc9_stg4_0 : Ref sig .tc := ⟨.vmem, 78, rfl⟩
abbrev cc9_stg5_0 : Ref sig .tc := ⟨.vmem, 79, rfl⟩
abbrev cc9_stg6_0 : Ref sig .tc := ⟨.vmem, 80, rfl⟩
abbrev cc9_stg6_1 : Ref sig .tc := ⟨.vmem, 81, rfl⟩
abbrev cc10_stg0_0 : Ref sig .tc := ⟨.vmem, 82, rfl⟩
abbrev cc10_stg0_1 : Ref sig .tc := ⟨.vmem, 83, rfl⟩
abbrev cc10_stg1_0 : Ref sig .tc := ⟨.vmem, 84, rfl⟩
abbrev cc10_stg1_1 : Ref sig .tc := ⟨.vmem, 85, rfl⟩
abbrev cc10_stg2_0 : Ref sig .tc := ⟨.vmem, 86, rfl⟩
abbrev cc10_stg2_1 : Ref sig .tc := ⟨.vmem, 87, rfl⟩
abbrev cc10_stg3_0 : Ref sig .tc := ⟨.vmem, 88, rfl⟩
abbrev cc10_stg3_1 : Ref sig .tc := ⟨.vmem, 89, rfl⟩
abbrev cc10_stg4_0 : Ref sig .tc := ⟨.vmem, 90, rfl⟩
abbrev cc10_stg4_1 : Ref sig .tc := ⟨.vmem, 91, rfl⟩
abbrev cc10_stg5_0 : Ref sig .tc := ⟨.vmem, 92, rfl⟩
abbrev cc10_stg6_0 : Ref sig .tc := ⟨.vmem, 93, rfl⟩
abbrev cc10_stg7_0 : Ref sig .tc := ⟨.vmem, 94, rfl⟩
abbrev cc10_stg8_0 : Ref sig .tc := ⟨.vmem, 95, rfl⟩
abbrev cc10_stg9_0 : Ref sig .tc := ⟨.vmem, 96, rfl⟩
abbrev cc10_stg10_0 : Ref sig .tc := ⟨.vmem, 97, rfl⟩
abbrev cc10_stg11_0 : Ref sig .tc := ⟨.vmem, 98, rfl⟩
abbrev cc10_stg11_1 : Ref sig .tc := ⟨.vmem, 99, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem5_0 : DmaSem sig := 47
abbrev cc5_sem6_0 : DmaSem sig := 48
abbrev cc5_sem6_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem2_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem3_0 : DmaSem sig := 61
abbrev cc7_sem4_0 : DmaSem sig := 62
abbrev cc7_sem5_0 : DmaSem sig := 63
abbrev cc7_sem6_0 : DmaSem sig := 64
abbrev cc7_sem6_1 : DmaSem sig := 65
abbrev cc8_sem0_0 : DmaSem sig := 66
abbrev cc8_sem0_1 : DmaSem sig := 67
abbrev cc8_sem1_0 : DmaSem sig := 68
abbrev cc8_sem1_1 : DmaSem sig := 69
abbrev cc8_sem2_0 : DmaSem sig := 70
abbrev cc8_sem2_1 : DmaSem sig := 71
abbrev cc9_sem0_0 : DmaSem sig := 72
abbrev cc9_sem0_1 : DmaSem sig := 73
abbrev cc9_sem1_0 : DmaSem sig := 74
abbrev cc9_sem1_1 : DmaSem sig := 75
abbrev cc9_sem2_0 : DmaSem sig := 76
abbrev cc9_sem3_0 : DmaSem sig := 77
abbrev cc9_sem4_0 : DmaSem sig := 78
abbrev cc9_sem5_0 : DmaSem sig := 79
abbrev cc9_sem6_0 : DmaSem sig := 80
abbrev cc9_sem6_1 : DmaSem sig := 81
abbrev cc10_sem0_0 : DmaSem sig := 82
abbrev cc10_sem0_1 : DmaSem sig := 83
abbrev cc10_sem1_0 : DmaSem sig := 84
abbrev cc10_sem1_1 : DmaSem sig := 85
abbrev cc10_sem2_0 : DmaSem sig := 86
abbrev cc10_sem2_1 : DmaSem sig := 87
abbrev cc10_sem3_0 : DmaSem sig := 88
abbrev cc10_sem3_1 : DmaSem sig := 89
abbrev cc10_sem4_0 : DmaSem sig := 90
abbrev cc10_sem4_1 : DmaSem sig := 91
abbrev cc10_sem5_0 : DmaSem sig := 92
abbrev cc10_sem6_0 : DmaSem sig := 93
abbrev cc10_sem7_0 : DmaSem sig := 94
abbrev cc10_sem8_0 : DmaSem sig := 95
abbrev cc10_sem9_0 : DmaSem sig := 96
abbrev cc10_sem10_0 : DmaSem sig := 97
abbrev cc10_sem11_0 : DmaSem sig := 98
abbrev cc10_sem11_1 : DmaSem sig := 99

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S100x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S100x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![160], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![160], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S2000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![160], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S128x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S2000x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![160], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_10 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_11 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S2000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S2000x1 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S2000x1 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 1 → Memref sig .tc .vmem S256x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S128x64 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S1x64 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 1 → Memref sig .tc .vmem S64x1 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))
abbrev reads10_9 : Fin grid10.rank → Bool := ![false]

abbrev stage10_10 : Fin 1 → Memref sig .tc .vmem S1x1 .f32 := fun | 0 => Memref.whole cc10_stg10_0 | ⟨_ + 1, h⟩ => absurd h (Nat.not_lt.2 (Nat.le_add_left _ _))
abbrev sem10_10 : Fin 1 → DmaSem sig := fun | 0 => cc10_sem10_0 | ⟨_ + 1, h⟩ => absurd h (Nat.not_lt.2 (Nat.le_add_left _ _))
abbrev reads10_10 : Fin grid10.rank → Bool := ![false]

abbrev stage10_11 : Fin 2 → Memref sig .tc .vmem S2000x1 .f32 := fun | 0 => Memref.whole cc10_stg11_0 | 1 => Memref.whole cc10_stg11_1 | ⟨_ + 2, h⟩ => absurd h (Nat.not_lt.2 (Nat.le_add_left _ _))
abbrev sem10_11 : Fin 2 → DmaSem sig := fun | 0 => cc10_sem11_0 | 1 => cc10_sem11_1 | ⟨_ + 2, h⟩ => absurd h (Nat.not_lt.2 (Nat.le_add_left _ _))
abbrev reads10_11 : Fin grid10.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  reducesTo_S320000x3_S320000_d1 : S320000x3.ReducesTo [1] S320000
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  concatenates_S64x64_S64x64_S64x128_d1 : Shape.Concatenates [S64x64, S64x64] S64x128 1
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S320000_S320000x1 : S320000.ShapeCasts S320000x1
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  broadcasts_S2000x1_S2000x128 : S2000x1.Broadcasts S2000x128
  broadcasts_S1x128_S2000x128 : S1x128.Broadcasts S2000x128
  shapeCasts_S1x128_S1x128 : S1x128.ShapeCasts S1x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  iota_S2000x100_d1_w32 : S2000x100.Iotas .tc 32 [1]
  broadcasts_S2000x1_S2000x100 : S2000x1.Broadcasts S2000x100
  inb_S100x128_S100x128_0_0 : ∀ a, (![0, 0] : Fin 2 → Nat) a + S100x128.size a ≤ S100x128.size a
  h_S100x128 : 0 < S100x128.numel
  inb_S2000x128_S2000x128_0_0 : ∀ a, (![0, 0] : Fin 2 → Nat) a + S2000x128.size a ≤ S2000x128.size a
  h_S2000x128 : 0 < S2000x128.numel
  shapeCasts_S20000_S20000x1 : S20000.ShapeCasts S20000x1
  shapeCasts_S2000x128_S2000x128 : S2000x128.ShapeCasts S2000x128
  bcast_S_S20000x128 : S_.BroadcastsInDim S20000x128 (![] : Fin 0 → Fin S20000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128x128_S128x128 : S128x128.ShapeCasts S128x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  shapeCasts_S64_S1x64 : S64.ShapeCasts S1x64
  shapeCasts_S1_S1x1 : S1.ShapeCasts S1x1
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  shapeCasts_S320000x1_S320000 : S320000x1.ShapeCasts S320000
  gather_S20000_S320000x1_S320000_n_0_n_n_0_1_1_wf : GatherDims.WF S20000 S320000x1 S320000 [] [0] [] [0] [] 1 ![1]
  gather_S20000x3_S320000x1_S320000x3_1_0_n_n_0_1_13_wf : GatherDims.WF S20000x3 S320000x1 S320000x3 [1] [0] [] [0] [] 1 ![1, 3]
  gather_S64_S320000x1_S320000_n_0_n_n_0_1_1_wf : GatherDims.WF S64 S320000x1 S320000 [] [0] [] [0] [] 1 ![1]
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []
  gather_S64x1_S320000x1_S320000x1_1_0_n_n_0_1_11_wf : GatherDims.WF S64x1 S320000x1 S320000x1 [1] [0] [] [0] [] 1 ![1, 1]
  dot_S2000x128_S128x128_S2000x128_1_0_0_1_n_n_wf : DotDims.WF S2000x128 S128x128 S2000x128 [1] [0] [0] [1] [] []
  dot_S2000x100_S100x128_S2000x128_1_0_0_1_n_n_wf : DotDims.WF S2000x100 S100x128 S2000x128 [1] [0] [0] [1] [] []
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  dot_S2000x256_S256x128_S2000x128_1_0_0_1_n_n_wf : DotDims.WF S2000x256 S256x128 S2000x128 [1] [0] [0] [1] [] []
  dot_S2000x128_S128x64_S2000x64_1_0_0_1_n_n_wf : DotDims.WF S2000x128 S128x64 S2000x64 [1] [0] [0] [1] [] []
  dot_S2000x64_S64x1_S2000x1_1_0_0_1_n_n_wf : DotDims.WF S2000x64 S64x1 S2000x1 [1] [0] [0] [1] [] []
  scatter_S64_S320000x1_S320000_n_0_0_1_wf : ScatterDims.WF S64 S320000x1 S320000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S320000x1.size a
  hwx0_0 : ∀ i : grid0.Coords, EltTy.bits .f32 = 32 ∨ (Rect.block (s := S320000x1) S2000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S320000x1.size a
  hwx0_1 : ∀ i : grid0.Coords, EltTy.bits .f32 = 32 ∨ (Rect.block (s := S320000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S320000x1.size a
  hwx0_2 : ∀ i : grid0.Coords, EltTy.bits .i32 = 32 ∨ (Rect.block (s := S320000x1) S2000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x128.size a ≤ S100x128.size a
  hwx0_3 : ∀ i : grid0.Coords, EltTy.bits .f32 = 32 ∨ (Rect.block (s := S100x128) S100x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S320000x128.size a
  hwx0_8 : ∀ i : grid0.Coords, EltTy.bits .f32 = 32 ∨ (Rect.block (s := S320000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1.size a ≤ S20000x1.size a
  hwx1_0 : ∀ i : grid1.Coords, EltTy.bits .i32 = 32 ∨ (Rect.block (s := S20000x1) S2000x1.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S100x128.size a ≤ S100x128.size a
  hwx1_1 : ∀ i : grid1.Coords, EltTy.bits .f32 = 32 ∨ (Rect.block (s := S100x128) S100x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S20000x128.size a
  hwx1_2 : ∀ i : grid1.Coords, EltTy.bits .f32 = 32 ∨ (Rect.block (s := S20000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S320000x128.size a
  hwx2_0 : ∀ i : grid2.Coords, EltTy.bits .f32 = 32 ∨ (Rect.block (s := S320000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S320000x128.size a
  hwx2_1 : ∀ i : grid2.Coords, EltTy.bits .f32 = 32 ∨ (Rect.block (s := S320000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S320000x128.size a
  hwx2_2 : ∀ i : grid2.Coords, EltTy.bits .f32 = 32 ∨ (Rect.block (s := S320000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S20000x128.size a
  hwx3_0 : ∀ i : grid3.Coords, EltTy.bits .f32 = 32 ∨ (Rect.block (s := S20000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S20000x128.size a
  hwx3_1 : ∀ i : grid3.Coords, EltTy.bits .f32 = 32 ∨ (Rect.block (s := S20000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S20000x128.size a
  hwx3_6 : ∀ i : grid3.Coords, EltTy.bits .f32 = 32 ∨ (Rect.block (s := S20000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S320000x128.size a
  hwx4_0 : ∀ i : grid4.Coords, EltTy.bits .f32 = 32 ∨ (Rect.block (s := S320000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S320000x128.size a
  hwx4_1 : ∀ i : grid4.Coords, EltTy.bits .f32 = 32 ∨ (Rect.block (s := S320000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S320000x128.size a
  hwx4_2 : ∀ i : grid4.Coords, EltTy.bits .f32 = 32 ∨ (Rect.block (s := S320000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S20000x128.size a
  hwx5_0 : ∀ i : grid5.Coords, EltTy.bits .f32 = 32 ∨ (Rect.block (s := S20000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S20000x128.size a
  hwx5_1 : ∀ i : grid5.Coords, EltTy.bits .f32 = 32 ∨ (Rect.block (s := S20000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S20000x128.size a
  hwx5_6 : ∀ i : grid5.Coords, EltTy.bits .f32 = 32 ∨ (Rect.block (s := S20000x128) S2000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S320000x128.size a
  hwx6_0 : ∀ i : grid6.Coords, EltTy.bits .f32 = 32 ∨ (Rect.block (s := S320000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S320000x128.size a
  hwx6_1 : ∀ i : grid6.Coords, EltTy.bits .f32 = 32 ∨ (Rect.block (s := S320000x128) S2000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S320000x128.size a
  hwx6_2 : ∀ i : grid6.Coords, EltTy.bits .f32 = 32 ∨ (Rect.block (s := S320000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S20000x128.size a
  hwx7_0 : ∀ i : grid7.Coords, EltTy.bits .f32 = 32 ∨ (Rect.block (s := S20000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S20000x128.size a
  hwx7_1 : ∀ i : grid7.Coords, EltTy.bits .f32 = 32 ∨ (Rect.block (s := S20000x128) S2000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x128.size a ≤ S20000x128.size a
  hwx7_6 : ∀ i : grid7.Coords, EltTy.bits .f32 = 32 ∨ (Rect.block (s := S20000x128) S2000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S320000x128.size a
  hwx8_0 : ∀ i : grid8.Coords, EltTy.bits .f32 = 32 ∨ (Rect.block (s := S320000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S320000x128.size a
  hwx8_1 : ∀ i : grid8.Coords, EltTy.bits .f32 = 32 ∨ (Rect.block (s := S320000x128) S2000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S320000x128.size a
  hwx8_2 : ∀ i : grid8.Coords, EltTy.bits .f32 = 32 ∨ (Rect.block (s := S320000x128) S2000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S20000x128.size a
  hwx9_0 : ∀ i : grid9.Coords, EltTy.bits .f32 = 32 ∨ (Rect.block (s := S20000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S20000x128.size a
  hwx9_1 : ∀ i : grid9.Coords, EltTy.bits .f32 = 32 ∨ (Rect.block (s := S20000x128) S2000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S128x128.size a ≤ S128x128.size a
  hwx9_4 : ∀ i : grid9.Coords, EltTy.bits .f32 = 32 ∨ (Rect.block (s := S128x128) S128x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S2000x128.size a ≤ S20000x128.size a
  hwx9_6 : ∀ i : grid9.Coords, EltTy.bits .f32 = 32 ∨ (Rect.block (s := S20000x128) S2000x128.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S320000x128.size a
  hwx10_0 : ∀ i : grid10.Coords, EltTy.bits .f32 = 32 ∨ (Rect.block (s := S320000x128) S2000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x128.size a ≤ S320000x128.size a
  hwx10_1 : ∀ i : grid10.Coords, EltTy.bits .f32 = 32 ∨ (Rect.block (s := S320000x128) S2000x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x128.size a ≤ S320000x128.size a
  hwx10_2 : ∀ i : grid10.Coords, EltTy.bits .f32 = 32 ∨ (Rect.block (s := S320000x128) S2000x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x1.size a ≤ S320000x1.size a
  hwx10_3 : ∀ i : grid10.Coords, EltTy.bits .f32 = 32 ∨ (Rect.block (s := S320000x1) S2000x1.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S2000x1.size a ≤ S320000x1.size a
  hwx10_4 : ∀ i : grid10.Coords, EltTy.bits .f32 = 32 ∨ (Rect.block (s := S320000x1) S2000x1.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S256x128.size a ≤ S256x128.size a
  hwx10_5 : ∀ i : grid10.Coords, EltTy.bits .f32 = 32 ∨ (Rect.block (s := S256x128) S256x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S128x64.size a ≤ S128x64.size a
  hwx10_7 : ∀ i : grid10.Coords, EltTy.bits .f32 = 32 ∨ (Rect.block (s := S128x64) S128x64.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x64.size a ≤ S1x64.size a
  hwx10_8 : ∀ i : grid10.Coords, EltTy.bits .f32 = 32 ∨ (Rect.block (s := S1x64) S1x64.size (cc10_transform_8 i) (hinb10_8 i)).WholeWords (EltTy.packing .f32)
  hstage10_9 : ∀ j, (stage10_9 j).IsWhole
  nbuf10_9 : grid10.bufCount reads10_9 true = 1
  hreads10_9 : ∀ i i' : grid10.Coords, (∀ a, reads10_9 a = true → i a = i' a) → cc10_transform_9 i = cc10_transform_9 i'
  hinb10_9 : ∀ (i : grid10.Coords) a, (cc10_transform_9 i a + 1) * S64x1.size a ≤ S64x1.size a
  hwx10_9 : ∀ i : grid10.Coords, EltTy.bits .f32 = 32 ∨ (Rect.block (s := S64x1) S64x1.size (cc10_transform_9 i) (hinb10_9 i)).WholeWords (EltTy.packing .f32)
  hstage10_10 : ∀ j, (stage10_10 j).IsWhole
  nbuf10_10 : grid10.bufCount reads10_10 true = 1
  hreads10_10 : ∀ i i' : grid10.Coords, (∀ a, reads10_10 a = true → i a = i' a) → cc10_transform_10 i = cc10_transform_10 i'
  hinb10_10 : ∀ (i : grid10.Coords) a, (cc10_transform_10 i a + 1) * S1x1.size a ≤ S1x1.size a
  hwx10_10 : ∀ i : grid10.Coords, EltTy.bits .f32 = 32 ∨ (Rect.block (s := S1x1) S1x1.size (cc10_transform_10 i) (hinb10_10 i)).WholeWords (EltTy.packing .f32)
  hstage10_11 : ∀ j, (stage10_11 j).IsWhole
  nbuf10_11 : grid10.bufCount reads10_11 false = 2
  hreads10_11 : ∀ i i' : grid10.Coords, (∀ a, reads10_11 a = true → i a = i' a) → cc10_transform_11 i = cc10_transform_11 i'
  hinb10_11 : ∀ (i : grid10.Coords) a, (cc10_transform_11 i a + 1) * S2000x1.size a ≤ S320000x1.size a
  hwx10_11 : ∀ i : grid10.Coords, EltTy.bits .f32 = 32 ∨ (Rect.block (s := S320000x1) S2000x1.size (cc10_transform_11 i) (hinb10_11 i)).WholeWords (EltTy.packing .f32)

variable [Facts₀]

def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S20000x3_S320000x1_S320000x3_1_0_n_n_0_1_13 : GatherDims S20000x3 S320000x1 S320000x3 where
  offsetDims := [1]
  collapsedSliceDims := [0]
  operandBatchingDims := []
  startIndicesBatchingDims := []
  startIndexMap := [0]
  indexVectorDim := 1
  sliceSizes := ![1, 3]
  wf := gather_S20000x3_S320000x1_S320000x3_1_0_n_n_0_1_13_wf
def gather_S64_S320000x1_S320000_n_0_n_n_0_1_1 : GatherDims S64 S320000x1 S320000 where
  offsetDims := []
  collapsedSliceDims := [0]
  operandBatchingDims := []
  startIndicesBatchingDims := []
  startIndexMap := [0]
  indexVectorDim := 1
  sliceSizes := ![1]
  wf := gather_S64_S320000x1_S320000_n_0_n_n_0_1_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf
def gather_S64x1_S320000x1_S320000x1_1_0_n_n_0_1_11 : GatherDims S64x1 S320000x1 S320000x1 where
  offsetDims := [1]
  collapsedSliceDims := [0]
  operandBatchingDims := []
  startIndicesBatchingDims := []
  startIndexMap := [0]
  indexVectorDim := 1
  sliceSizes := ![1, 1]
  wf := gather_S64x1_S320000x1_S320000x1_1_0_n_n_0_1_11_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x100_S100x128_S2000x128_1_0_0_1_n_n : DotDims S2000x100 S100x128 S2000x128 where
  lhsContracting := [1]
  rhsContracting := [0]
  lhsNonContracting := [0]
  rhsNonContracting := [1]
  lhsBatch := []
  rhsBatch := []
  wf := dot_S2000x100_S100x128_S2000x128_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def scatter_S64_S320000x1_S320000_n_0_0_1 : ScatterDims S64 S320000x1 S320000 where
  updateWindowDims := []
  insertedWindowDims := [0]
  scatterDimsToOperandDims := [0]
  indexVectorDim := 1
  wf := scatter_S64_S320000x1_S320000_n_0_0_1_wf

abbrev win0_0 : Pipeline.Window sig grid0 :=
  Pipeline.Window.ofSpec (Memref.whole main_v49) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v74) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v75) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S100x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v76) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v77) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v78) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v79) S2000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S100x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v80) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v87) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v88) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v80) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v91) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v93) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v96) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v98) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v101) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v102) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v109) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v110) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v102) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v113) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v115) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v118) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v120) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v123) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v124) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v131) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v132) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v124) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v135) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v137) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v140) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v142) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v145) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v146) S2000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v153) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v78) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v154) S2000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v146) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v157) S2000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v159) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v162) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v164) S128x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v167) S1x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v168) S2000x128.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v175) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v182) S2000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v78) S2000x128.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v186) S2000x1.size cc10_transform_3 reads10_3 false false 2 stage10_3 sem10_3
    hrank10 hreads10_3 hinb10_3 nbuf10_3 (Memref.isWhole_whole _) hwx10_3 hstage10_3

abbrev win10_4 : Pipeline.Window sig grid10 :=
  Pipeline.Window.ofSpec (Memref.whole main_arg6) S2000x1.size cc10_transform_4 reads10_4 false false 2 stage10_4 sem10_4
    hrank10 hreads10_4 hinb10_4 nbuf10_4 (Memref.isWhole_whole _) hwx10_4 hstage10_4

abbrev win10_5 : Pipeline.Window sig grid10 :=
  Pipeline.Window.ofSpec (Memref.whole main_arg22) S256x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v183) S1x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_arg24) S128x64.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_v184) S1x64.size cc10_transform_8 reads10_8 false true 1 stage10_8 sem10_8
    hrank10 hreads10_8 hinb10_8 nbuf10_8 (Memref.isWhole_whole _) hwx10_8 hstage10_8

abbrev win10_9 : Pipeline.Window sig grid10 :=
  Pipeline.Window.ofSpec (Memref.whole main_arg26) S64x1.size cc10_transform_9 reads10_9 false true 1 stage10_9 sem10_9
    hrank10 hreads10_9 hinb10_9 nbuf10_9 (Memref.isWhole_whole _) hwx10_9 hstage10_9

abbrev win10_10 : Pipeline.Window sig grid10 :=
  Pipeline.Window.ofSpec (Memref.whole main_v185) S1x1.size cc10_transform_10 reads10_10 false true 1 stage10_10 sem10_10
    hrank10 hreads10_10 hinb10_10 nbuf10_10 (Memref.isWhole_whole _) hwx10_10 hstage10_10

abbrev win10_11 : Pipeline.Window sig grid10 :=
  Pipeline.Window.ofSpec (Memref.whole main_v187) S2000x1.size cc10_transform_11 reads10_11 true false 2 stage10_11 sem10_11
    hrank10 hreads10_11 hinb10_11 nbuf10_11 (Memref.isWhole_whole _) hwx10_11 hstage10_11

abbrev win10 : Fin 12 → Pipeline.Window sig grid10 := fun | 0 => win10_0 | 1 => win10_1 | 2 => win10_2 | 3 => win10_3 | 4 => win10_4 | 5 => win10_5 | 6 => win10_6 | 7 => win10_7 | 8 => win10_8 | 9 => win10_9 | 10 => win10_10 | 11 => win10_11 | ⟨_ + 12, h⟩ => absurd h (Nat.not_lt.2 (Nat.le_add_left _ _))
abbrev spec10 : Fin 12 → Pipeline.WinSpec sig grid10.rank := fun w => (win10 w).toWinSpec

class Facts : Prop extends Facts₀ where

variable [Facts]
-- ==== ReferenceIdeal.lean ====
abbrev S20000x3 : Shape := ⟨2, ![20000, 3]⟩
abbrev S20000 : Shape := ⟨1, ![20000]⟩
abbrev S2x320000 : Shape := ⟨2, ![2, 320000]⟩
abbrev S320000 : Shape := ⟨1, ![320000]⟩
abbrev S64 : Shape := ⟨1, ![64]⟩
abbrev S320000x1 : Shape := ⟨2, ![320000, 1]⟩
abbrev S100x128 : Shape := ⟨2, ![100, 128]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S4x128x128 : Shape := ⟨3, ![4, 128, 128]⟩
abbrev S4x128 : Shape := ⟨2, ![4, 128]⟩
abbrev S256x128 : Shape := ⟨2, ![256, 128]⟩
abbrev S128x64 : Shape := ⟨2, ![128, 64]⟩
abbrev S64x1 : Shape := ⟨2, ![64, 1]⟩
abbrev S1x320000 : Shape := ⟨2, ![1, 320000]⟩
abbrev S_ : Shape := ⟨0, ![]⟩
abbrev S320000x3 : Shape := ⟨2, ![320000, 3]⟩
abbrev S20000x1 : Shape := ⟨2, ![20000, 1]⟩
abbrev S20000x128 : Shape := ⟨2, ![20000, 128]⟩
abbrev S320000x128 : Shape := ⟨2, ![320000, 128]⟩
abbrev S1x64 : Shape := ⟨2, ![1, 64]⟩
abbrev S64x64 : Shape := ⟨2, ![64, 64]⟩
abbrev S64x128 : Shape := ⟨2, ![64, 128]⟩
abbrev S1x1 : Shape := ⟨2, ![1, 1]⟩
abbrev S1x128x128 : Shape := ⟨3, ![1, 128, 128]⟩
abbrev S320000x256 : Shape := ⟨2, ![320000, 256]⟩
abbrev S320000x64 : Shape := ⟨2, ![320000, 64]⟩

abbrev nBuf : Space → Nat
  | .hbm => 368
  | .vmem => 0
  | .smem => 0
  | _ => 0

abbrev hbmTy0_0 (i : Nat) : BufTy := match i % 128 with
  | 0 => ⟨S20000x3, .f32⟩
  | 1 => ⟨S20000, .i32⟩
  | 2 => ⟨S2x320000, .i32⟩
  | 3 => ⟨S320000, .i32⟩
  | 4 => ⟨S20000, .i32⟩
  | 5 => ⟨S64, .f32⟩
  | 6 => ⟨S320000x1, .f32⟩
  | 7 => ⟨S100x128, .f32⟩
  | 8 => ⟨S100x128, .f32⟩
  | 9 => ⟨S1x128, .f32⟩
  | 10 => ⟨S128, .f32⟩
  | 11 => ⟨S128x128, .f32⟩
  | 12 => ⟨S128, .f32⟩
  | 13 => ⟨S64, .f32⟩
  | 14 => ⟨S128x128, .f32⟩
  | 15 => ⟨S128, .f32⟩
  | 16 => ⟨S128x1, .f32⟩
  | 17 => ⟨S1, .f32⟩
  | 18 => ⟨S4x128x128, .f32⟩
  | 19 => ⟨S4x128, .f32⟩
  | 20 => ⟨S4x128x128, .f32⟩
  | 21 => ⟨S4x128, .f32⟩
  | 22 => ⟨S256x128, .f32⟩
  | 23 => ⟨S128, .f32⟩
  | 24 => ⟨S128x64, .f32⟩
  | 25 => ⟨S64, .f32⟩
  | 26 => ⟨S64x1, .f32⟩
  | 27 => ⟨S1, .f32⟩
  | 28 => ⟨S1x320000, .i32⟩
  | 29 => ⟨S320000, .i32⟩
  | 30 => ⟨S1x320000, .i32⟩
  | 31 => ⟨S320000, .i32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000, .i32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000x3, .f32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S320000x3, .f32⟩
  | 59 => ⟨S320000x3, .f32⟩
  | 60 => ⟨S320000x3, .f32⟩
  | 61 => ⟨S_, .f32⟩
  | 62 => ⟨S320000, .f32⟩
  | 63 => ⟨S320000x1, .f32⟩
  | 64 => ⟨S320000x1, .f32⟩
  | 65 => ⟨S_, .f32⟩
  | 66 => ⟨S64, .f32⟩
  | 67 => ⟨S64, .f32⟩
  | 68 => ⟨S_, .f32⟩
  | 69 => ⟨S64, .f32⟩
  | 70 => ⟨S64, .f32⟩
  | 71 => ⟨S_, .f32⟩
  | 72 => ⟨S64, .f32⟩
  | 73 => ⟨S64, .f32⟩
  | 74 => ⟨S_, .f32⟩
  | 75 => ⟨S64, .f32⟩
  | 76 => ⟨S64, .f32⟩
  | 77 => ⟨S_, .f32⟩
  | 78 => ⟨S64, .f32⟩
  | 79 => ⟨S64, .f32⟩
  | 80 => ⟨S_, .f32⟩
  | 81 => ⟨S64, .f32⟩
  | 82 => ⟨S64, .f32⟩
  | 83 => ⟨S64, .f32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S320000, .f32⟩
  | 93 => ⟨S320000x1, .f32⟩
  | 94 => ⟨S320000x1, .f32⟩
  | 95 => ⟨S320000x1, .f32⟩
  | 96 => ⟨S_, .i32⟩
  | 97 => ⟨S20000, .i32⟩
  | 98 => ⟨S20000, .i1⟩
  | 99 => ⟨S_, .i32⟩
  | 100 => ⟨S20000, .i32⟩
  | 101 => ⟨S20000, .i32⟩
  | 102 => ⟨S20000, .i32⟩
  | 103 => ⟨S20000x1, .i32⟩
  | 104 => ⟨S20000x128, .f32⟩
  | 105 => ⟨S_, .i32⟩
  | 106 => ⟨S320000, .i32⟩
  | 107 => ⟨S320000, .i1⟩
  | 108 => ⟨S_, .i32⟩
  | 109 => ⟨S320000, .i32⟩
  | 110 => ⟨S320000, .i32⟩
  | 111 => ⟨S320000, .i32⟩
  | 112 => ⟨S320000x1, .i32⟩
  | 113 => ⟨S320000x128, .f32⟩
  | 114 => ⟨S320000x128, .f32⟩
  | 115 => ⟨S1x128, .f32⟩
  | 116 => ⟨S320000x128, .f32⟩
  | 117 => ⟨S320000x128, .f32⟩
  | 118 => ⟨S_, .f32⟩
  | 119 => ⟨S320000x128, .f32⟩
  | 120 => ⟨S320000x128, .f32⟩
  | 121 => ⟨S320000x128, .f32⟩
  | 122 => ⟨S1x128, .f32⟩
  | 123 => ⟨S320000x128, .f32⟩
  | 124 => ⟨S320000x128, .f32⟩
  | 125 => ⟨S64x1, .f32⟩
  | 126 => ⟨S1x64, .f32⟩
  | 127 => ⟨S64x64, .f32⟩
  | _ => ⟨S20000x3, .f32⟩

abbrev hbmTy0_1 (i : Nat) : BufTy := match i % 128 with
  | 0 => ⟨S64x64, .f32⟩
  | 1 => ⟨S64x64, .f32⟩
  | 2 => ⟨S_, .f32⟩
  | 3 => ⟨S64x64, .f32⟩
  | 4 => ⟨S64x64, .f32⟩
  | 5 => ⟨S64x64, .f32⟩
  | 6 => ⟨S64x64, .f32⟩
  | 7 => ⟨S64x128, .f32⟩
  | 8 => ⟨S64x128, .f32⟩
  | 9 => ⟨S1x128, .f32⟩
  | 10 => ⟨S64x128, .f32⟩
  | 11 => ⟨S64x128, .f32⟩
  | 12 => ⟨S64x1, .f32⟩
  | 13 => ⟨S1x1, .f32⟩
  | 14 => ⟨S64x1, .f32⟩
  | 15 => ⟨S64x1, .f32⟩
  | 16 => ⟨S_, .i32⟩
  | 17 => ⟨S320000, .i32⟩
  | 18 => ⟨S320000, .i1⟩
  | 19 => ⟨S_, .i32⟩
  | 20 => ⟨S320000, .i32⟩
  | 21 => ⟨S320000, .i32⟩
  | 22 => ⟨S320000, .i32⟩
  | 23 => ⟨S320000x1, .i32⟩
  | 24 => ⟨S320000x1, .f32⟩
  | 25 => ⟨S320000x128, .f32⟩
  | 26 => ⟨S320000x128, .f32⟩
  | 27 => ⟨S320000x128, .f32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S320000x128, .f32⟩
  | 37 => ⟨S320000x128, .f32⟩
  | 38 => ⟨S_, .f32⟩
  | 39 => ⟨S320000x128, .f32⟩
  | 40 => ⟨S320000x128, .f32⟩
  | 41 => ⟨S_, .f32⟩
  | 42 => ⟨S20000x128, .f32⟩
  | 43 => ⟨S320000x1, .i32⟩
  | 44 => ⟨S20000x128, .f32⟩
  | 45 => ⟨S20000x128, .f32⟩
  | 46 => ⟨S1x128x128, .f32⟩
  | 47 => ⟨S128x128, .f32⟩
  | 48 => ⟨S20000x128, .f32⟩
  | 49 => ⟨S1x128, .f32⟩
  | 50 => ⟨S128, .f32⟩
  | 51 => ⟨S1x128, .f32⟩
  | 52 => ⟨S20000x128, .f32⟩
  | 53 => ⟨S20000x128, .f32⟩
  | 54 => ⟨S_, .f32⟩
  | 55 => ⟨S20000x128, .f32⟩
  | 56 => ⟨S20000x128, .f32⟩
  | 57 => ⟨S1x128x128, .f32⟩
  | 58 => ⟨S128x128, .f32⟩
  | 59 => ⟨S20000x128, .f32⟩
  | 60 => ⟨S1x128, .f32⟩
  | 61 => ⟨S128, .f32⟩
  | 62 => ⟨S1x128, .f32⟩
  | 63 => ⟨S20000x128, .f32⟩
  | 64 => ⟨S20000x128, .f32⟩
  | 65 => ⟨S_, .f32⟩
  | 66 => ⟨S20000x128, .f32⟩
  | 67 => ⟨S20000x128, .f32⟩
  | 68 => ⟨S20000x128, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S320000x128, .f32⟩
  | 78 => ⟨S320000x128, .f32⟩
  | 79 => ⟨S_, .f32⟩
  | 80 => ⟨S320000x128, .f32⟩
  | 81 => ⟨S320000x128, .f32⟩
  | 82 => ⟨S_, .f32⟩
  | 83 => ⟨S20000x128, .f32⟩
  | 84 => ⟨S320000x1, .i32⟩
  | 85 => ⟨S20000x128, .f32⟩
  | 86 => ⟨S20000x128, .f32⟩
  | 87 => ⟨S1x128x128, .f32⟩
  | 88 => ⟨S128x128, .f32⟩
  | 89 => ⟨S20000x128, .f32⟩
  | 90 => ⟨S1x128, .f32⟩
  | 91 => ⟨S128, .f32⟩
  | 92 => ⟨S1x128, .f32⟩
  | 93 => ⟨S20000x128, .f32⟩
  | 94 => ⟨S20000x128, .f32⟩
  | 95 => ⟨S_, .f32⟩
  | 96 => ⟨S20000x128, .f32⟩
  | 97 => ⟨S20000x128, .f32⟩
  | 98 => ⟨S1x128x128, .f32⟩
  | 99 => ⟨S128x128, .f32⟩
  | 100 => ⟨S20000x128, .f32⟩
  | 101 => ⟨S1x128, .f32⟩
  | 102 => ⟨S128, .f32⟩
  | 103 => ⟨S1x128, .f32⟩
  | 104 => ⟨S20000x128, .f32⟩
  | 105 => ⟨S20000x128, .f32⟩
  | 106 => ⟨S_, .f32⟩
  | 107 => ⟨S20000x128, .f32⟩
  | 108 => ⟨S20000x128, .f32⟩
  | 109 => ⟨S20000x128, .f32⟩
  | 110 => ⟨S_, .i32⟩
  | 111 => ⟨S320000, .i32⟩
  | 112 => ⟨S320000, .i1⟩
  | 113 => ⟨S_, .i32⟩
  | 114 => ⟨S320000, .i32⟩
  | 115 => ⟨S320000, .i32⟩
  | 116 => ⟨S320000, .i32⟩
  | 117 => ⟨S320000x1, .i32⟩
  | 118 => ⟨S320000x128, .f32⟩
  | 119 => ⟨S320000x128, .f32⟩
  | 120 => ⟨S_, .f32⟩
  | 121 => ⟨S320000x128, .f32⟩
  | 122 => ⟨S320000x128, .f32⟩
  | 123 => ⟨S_, .f32⟩
  | 124 => ⟨S20000x128, .f32⟩
  | 125 => ⟨S320000x1, .i32⟩
  | 126 => ⟨S20000x128, .f32⟩
  | 127 => ⟨S20000x128, .f32⟩
  | _ => ⟨S20000x3, .f32⟩

abbrev hbmTy0_2 (i : Nat) : BufTy := match i % 128 with
  | 0 => ⟨S1x128x128, .f32⟩
  | 1 => ⟨S128x128, .f32⟩
  | 2 => ⟨S20000x128, .f32⟩
  | 3 => ⟨S1x128, .f32⟩
  | 4 => ⟨S128, .f32⟩
  | 5 => ⟨S1x128, .f32⟩
  | 6 => ⟨S20000x128, .f32⟩
  | 7 => ⟨S20000x128, .f32⟩
  | 8 => ⟨S_, .f32⟩
  | 9 => ⟨S20000x128, .f32⟩
  | 10 => ⟨S20000x128, .f32⟩
  | 11 => ⟨S1x128x128, .f32⟩
  | 12 => ⟨S128x128, .f32⟩
  | 13 => ⟨S20000x128, .f32⟩
  | 14 => ⟨S1x128, .f32⟩
  | 15 => ⟨S128, .f32⟩
  | 16 => ⟨S1x128, .f32⟩
  | 17 => ⟨S20000x128, .f32⟩
  | 18 => ⟨S20000x128, .f32⟩
  | 19 => ⟨S_, .f32⟩
  | 20 => ⟨S20000x128, .f32⟩
  | 21 => ⟨S20000x128, .f32⟩
  | 22 => ⟨S20000x128, .f32⟩
  | 23 => ⟨S_, .i32⟩
  | 24 => ⟨S320000, .i32⟩
  | 25 => ⟨S320000, .i1⟩
  | 26 => ⟨S_, .i32⟩
  | 27 => ⟨S320000, .i32⟩
  | 28 => ⟨S320000, .i32⟩
  | 29 => ⟨S320000, .i32⟩
  | 30 => ⟨S320000x1, .i32⟩
  | 31 => ⟨S320000x128, .f32⟩
  | 32 => ⟨S320000x128, .f32⟩
  | 33 => ⟨S_, .f32⟩
  | 34 => ⟨S320000x128, .f32⟩
  | 35 => ⟨S320000x128, .f32⟩
  | 36 => ⟨S_, .f32⟩
  | 37 => ⟨S20000x128, .f32⟩
  | 38 => ⟨S320000x1, .i32⟩
  | 39 => ⟨S20000x128, .f32⟩
  | 40 => ⟨S20000x128, .f32⟩
  | 41 => ⟨S1x128x128, .f32⟩
  | 42 => ⟨S128x128, .f32⟩
  | 43 => ⟨S20000x128, .f32⟩
  | 44 => ⟨S1x128, .f32⟩
  | 45 => ⟨S128, .f32⟩
  | 46 => ⟨S1x128, .f32⟩
  | 47 => ⟨S20000x128, .f32⟩
  | 48 => ⟨S20000x128, .f32⟩
  | 49 => ⟨S_, .f32⟩
  | 50 => ⟨S20000x128, .f32⟩
  | 51 => ⟨S20000x128, .f32⟩
  | 52 => ⟨S1x128x128, .f32⟩
  | 53 => ⟨S128x128, .f32⟩
  | 54 => ⟨S20000x128, .f32⟩
  | 55 => ⟨S1x128, .f32⟩
  | 56 => ⟨S128, .f32⟩
  | 57 => ⟨S1x128, .f32⟩
  | 58 => ⟨S20000x128, .f32⟩
  | 59 => ⟨S20000x128, .f32⟩
  | 60 => ⟨S20000x128, .f32⟩
  | 61 => ⟨S_, .i32⟩
  | 62 => ⟨S320000, .i32⟩
  | 63 => ⟨S320000, .i1⟩
  | 64 => ⟨S_, .i32⟩
  | 65 => ⟨S320000, .i32⟩
  | 66 => ⟨S320000, .i32⟩
  | 67 => ⟨S320000, .i32⟩
  | 68 => ⟨S320000x1, .i32⟩
  | 69 => ⟨S320000x128, .f32⟩
  | 70 => ⟨S_, .i32⟩
  | 71 => ⟨S320000, .i32⟩
  | 72 => ⟨S320000, .i1⟩
  | 73 => ⟨S_, .i32⟩
  | 74 => ⟨S320000, .i32⟩
  | 75 => ⟨S320000, .i32⟩
  | 76 => ⟨S320000, .i32⟩
  | 77 => ⟨S320000x1, .i32⟩
  | 78 => ⟨S320000x128, .f32⟩
  | 79 => ⟨S320000x128, .f32⟩
  | 80 => ⟨S320000x256, .f32⟩
  | 81 => ⟨S320000x128, .f32⟩
  | 82 => ⟨S1x128, .f32⟩
  | 83 => ⟨S320000x128, .f32⟩
  | 84 => ⟨S320000x128, .f32⟩
  | 85 => ⟨S_, .f32⟩
  | 86 => ⟨S320000x128, .f32⟩
  | 87 => ⟨S320000x128, .f32⟩
  | 88 => ⟨S320000x64, .f32⟩
  | 89 => ⟨S1x64, .f32⟩
  | 90 => ⟨S320000x64, .f32⟩
  | 91 => ⟨S320000x64, .f32⟩
  | 92 => ⟨S_, .f32⟩
  | 93 => ⟨S320000x64, .f32⟩
  | 94 => ⟨S320000x64, .f32⟩
  | 95 => ⟨S320000x1, .f32⟩
  | 96 => ⟨S1x1, .f32⟩
  | 97 => ⟨S320000x1, .f32⟩
  | 98 => ⟨S320000x1, .f32⟩
  | 99 => ⟨S320000, .f32⟩
  | 100 => ⟨S320000, .f32⟩
  | 101 => ⟨S320000, .f32⟩
  | 102 => ⟨S320000, .f32⟩
  | 103 => ⟨S320000, .f32⟩
  | 104 => ⟨S320000, .f32⟩
  | 105 => ⟨S_, .f32⟩
  | 106 => ⟨S320000, .f32⟩
  | 107 => ⟨S320000, .f32⟩
  | 108 => ⟨S_, .f32⟩
  | 109 => ⟨S64, .f32⟩
  | 110 => ⟨S320000x1, .i32⟩
  | 111 => ⟨S64, .f32⟩
  | _ => ⟨S20000x3, .f32⟩

abbrev hbmTy (i : Nat) : BufTy := match i / 128 with
  | 0 => hbmTy0_0 i
  | 1 => hbmTy0_1 i
  | 2 => hbmTy0_2 i
  | _ => ⟨S20000x3, .f32⟩

abbrev bufTy : (tb : Table) → Fin (tcTables nBuf tb) → BufTy
  | .hbm, ⟨i, _⟩ => hbmTy i
  | _, _ => ⟨S20000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_1 : Ref sig .tc := ⟨.hbm, 41, rfl⟩
abbrev main_v11 : Ref sig .tc := ⟨.hbm, 42, rfl⟩
abbrev main_v12 : Ref sig .tc := ⟨.hbm, 43, rfl⟩
abbrev main_c_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_c_3 : Ref sig .tc := ⟨.hbm, 50, rfl⟩
abbrev main_v18 : Ref sig .tc := ⟨.hbm, 51, rfl⟩
abbrev main_v19 : Ref sig .tc := ⟨.hbm, 52, rfl⟩
abbrev main_c_4 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_call0_v0 : Ref sig .tc := ⟨.hbm, 60, rfl⟩
abbrev main_call0_cst : Ref sig .tc := ⟨.hbm, 61, rfl⟩
abbrev main_call0_v1 : Ref sig .tc := ⟨.hbm, 62, rfl⟩
abbrev main_call0_v2 : Ref sig .tc := ⟨.hbm, 63, rfl⟩
abbrev main_v26 : Ref sig .tc := ⟨.hbm, 64, rfl⟩
abbrev main_cst : Ref sig .tc := ⟨.hbm, 65, rfl⟩
abbrev main_v27 : Ref sig .tc := ⟨.hbm, 66, rfl⟩
abbrev main_v28 : Ref sig .tc := ⟨.hbm, 67, rfl⟩
abbrev main_cst_5 : Ref sig .tc := ⟨.hbm, 68, rfl⟩
abbrev main_v29 : Ref sig .tc := ⟨.hbm, 69, rfl⟩
abbrev main_v30 : Ref sig .tc := ⟨.hbm, 70, rfl⟩
abbrev main_cst_6 : Ref sig .tc := ⟨.hbm, 71, rfl⟩
abbrev main_v31 : Ref sig .tc := ⟨.hbm, 72, rfl⟩
abbrev main_v32 : Ref sig .tc := ⟨.hbm, 73, rfl⟩
abbrev main_cst_7 : Ref sig .tc := ⟨.hbm, 74, rfl⟩
abbrev main_v33 : Ref sig .tc := ⟨.hbm, 75, rfl⟩
abbrev main_v34 : Ref sig .tc := ⟨.hbm, 76, rfl⟩
abbrev main_cst_8 : Ref sig .tc := ⟨.hbm, 77, rfl⟩
abbrev main_v35 : Ref sig .tc := ⟨.hbm, 78, rfl⟩
abbrev main_v36 : Ref sig .tc := ⟨.hbm, 79, rfl⟩
abbrev main_cst_9 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_c_10 : Ref sig .tc := ⟨.hbm, 84, rfl⟩
abbrev main_v40 : Ref sig .tc := ⟨.hbm, 85, rfl⟩
abbrev main_v41 : Ref sig .tc := ⟨.hbm, 86, rfl⟩
abbrev main_c_11 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_c_12 : Ref sig .tc := ⟨.hbm, 96, rfl⟩
abbrev main_v50 : Ref sig .tc := ⟨.hbm, 97, rfl⟩
abbrev main_v51 : Ref sig .tc := ⟨.hbm, 98, rfl⟩
abbrev main_c_13 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_c_14 : Ref sig .tc := ⟨.hbm, 105, rfl⟩
abbrev main_v57 : Ref sig .tc := ⟨.hbm, 106, rfl⟩
abbrev main_v58 : Ref sig .tc := ⟨.hbm, 107, rfl⟩
abbrev main_c_15 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_call1_cst : Ref sig .tc := ⟨.hbm, 118, rfl⟩
abbrev main_call1_v0 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_cst_16 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_c_17 : Ref sig .tc := ⟨.hbm, 144, rfl⟩
abbrev main_v91 : Ref sig .tc := ⟨.hbm, 145, rfl⟩
abbrev main_v92 : Ref sig .tc := ⟨.hbm, 146, rfl⟩
abbrev main_c_18 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_c_19 : Ref sig .tc := ⟨.hbm, 156, rfl⟩
abbrev main_v101 : Ref sig .tc := ⟨.hbm, 157, rfl⟩
abbrev main_v102 : Ref sig .tc := ⟨.hbm, 158, rfl⟩
abbrev main_c_20 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_call2_cst : Ref sig .tc := ⟨.hbm, 166, rfl⟩
abbrev main_call2_v0 : Ref sig .tc := ⟨.hbm, 167, rfl⟩
abbrev main_v109 : Ref sig .tc := ⟨.hbm, 168, rfl⟩
abbrev main_cst_21 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_call3_cst : Ref sig .tc := ⟨.hbm, 182, rfl⟩
abbrev main_call3_v0 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_call4_cst : Ref sig .tc := ⟨.hbm, 193, rfl⟩
abbrev main_call4_v0 : Ref sig .tc := ⟨.hbm, 194, rfl⟩
abbrev main_v131 : Ref sig .tc := ⟨.hbm, 195, rfl⟩
abbrev main_v132 : Ref sig .tc := ⟨.hbm, 196, rfl⟩
abbrev main_c_22 : Ref sig .tc := ⟨.hbm, 197, rfl⟩
abbrev main_v133 : Ref sig .tc := ⟨.hbm, 198, rfl⟩
abbrev main_v134 : Ref sig .tc := ⟨.hbm, 199, rfl⟩
abbrev main_c_23 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_call5_cst : Ref sig .tc := ⟨.hbm, 207, rfl⟩
abbrev main_call5_v0 : Ref sig .tc := ⟨.hbm, 208, rfl⟩
abbrev main_v141 : Ref sig .tc := ⟨.hbm, 209, rfl⟩
abbrev main_cst_24 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_call6_cst : Ref sig .tc := ⟨.hbm, 223, rfl⟩
abbrev main_call6_v0 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_call7_cst : Ref sig .tc := ⟨.hbm, 234, rfl⟩
abbrev main_call7_v0 : Ref sig .tc := ⟨.hbm, 235, rfl⟩
abbrev main_v163 : Ref sig .tc := ⟨.hbm, 236, rfl⟩
abbrev main_v164 : Ref sig .tc := ⟨.hbm, 237, rfl⟩
abbrev main_c_25 : Ref sig .tc := ⟨.hbm, 238, rfl⟩
abbrev main_v165 : Ref sig .tc := ⟨.hbm, 239, rfl⟩
abbrev main_v166 : Ref sig .tc := ⟨.hbm, 240, rfl⟩
abbrev main_c_26 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_call8_cst : Ref sig .tc := ⟨.hbm, 248, rfl⟩
abbrev main_call8_v0 : Ref sig .tc := ⟨.hbm, 249, rfl⟩
abbrev main_v173 : Ref sig .tc := ⟨.hbm, 250, rfl⟩
abbrev main_cst_27 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_v185 : Ref sig .tc := ⟨.hbm, 263, rfl⟩
abbrev main_call9_cst : Ref sig .tc := ⟨.hbm, 264, rfl⟩
abbrev main_call9_v0 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_call10_cst : Ref sig .tc := ⟨.hbm, 275, rfl⟩
abbrev main_call10_v0 : Ref sig .tc := ⟨.hbm, 276, rfl⟩
abbrev main_v195 : Ref sig .tc := ⟨.hbm, 277, rfl⟩
abbrev main_v196 : Ref sig .tc := ⟨.hbm, 278, rfl⟩
abbrev main_c_28 : Ref sig .tc := ⟨.hbm, 279, rfl⟩
abbrev main_v197 : Ref sig .tc := ⟨.hbm, 280, rfl⟩
abbrev main_v198 : Ref sig .tc := ⟨.hbm, 281, rfl⟩
abbrev main_c_29 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_v203 : Ref sig .tc := ⟨.hbm, 287, rfl⟩
abbrev main_v204 : Ref sig .tc := ⟨.hbm, 288, rfl⟩
abbrev main_call11_cst : Ref sig .tc := ⟨.hbm, 289, rfl⟩
abbrev main_call11_v0 : Ref sig .tc := ⟨.hbm, 290, rfl⟩
abbrev main_v205 : Ref sig .tc := ⟨.hbm, 291, rfl⟩
abbrev main_cst_30 : Ref sig .tc := ⟨.hbm, 292, rfl⟩
abbrev main_v206 : Ref sig .tc := ⟨.hbm, 293, rfl⟩
abbrev main_v207 : Ref sig .tc := ⟨.hbm, 294, rfl⟩
abbrev main_v208 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩
abbrev main_v212 : Ref sig .tc := ⟨.hbm, 299, rfl⟩
abbrev main_v213 : Ref sig .tc := ⟨.hbm, 300, rfl⟩
abbrev main_v214 : Ref sig .tc := ⟨.hbm, 301, rfl⟩
abbrev main_v215 : Ref sig .tc := ⟨.hbm, 302, rfl⟩
abbrev main_v216 : Ref sig .tc := ⟨.hbm, 303, rfl⟩
abbrev main_v217 : Ref sig .tc := ⟨.hbm, 304, rfl⟩
abbrev main_call12_cst : Ref sig .tc := ⟨.hbm, 305, rfl⟩
abbrev main_call12_v0 : Ref sig .tc := ⟨.hbm, 306, rfl⟩
abbrev main_v218 : Ref sig .tc := ⟨.hbm, 307, rfl⟩
abbrev main_v219 : Ref sig .tc := ⟨.hbm, 308, rfl⟩
abbrev main_v220 : Ref sig .tc := ⟨.hbm, 309, rfl⟩
abbrev main_v221 : Ref sig .tc := ⟨.hbm, 310, rfl⟩
abbrev main_v222 : Ref sig .tc := ⟨.hbm, 311, rfl⟩
abbrev main_v223 : Ref sig .tc := ⟨.hbm, 312, rfl⟩
abbrev main_v224 : Ref sig .tc := ⟨.hbm, 313, rfl⟩
abbrev main_v225 : Ref sig .tc := ⟨.hbm, 314, rfl⟩
abbrev main_v226 : Ref sig .tc := ⟨.hbm, 315, rfl⟩
abbrev main_v227 : Ref sig .tc := ⟨.hbm, 316, rfl⟩
abbrev main_c_31 : Ref sig .tc := ⟨.hbm, 317, rfl⟩
abbrev main_v228 : Ref sig .tc := ⟨.hbm, 318, rfl⟩
abbrev main_v229 : Ref sig .tc := ⟨.hbm, 319, rfl⟩
abbrev main_c_32 : Ref sig .tc := ⟨.hbm, 320, rfl⟩
abbrev main_v230 : Ref sig .tc := ⟨.hbm, 321, rfl⟩
abbrev main_v231 : Ref sig .tc := ⟨.hbm, 322, rfl⟩
abbrev main_v232 : Ref sig .tc := ⟨.hbm, 323, rfl⟩
abbrev main_v233 : Ref sig .tc := ⟨.hbm, 324, rfl⟩
abbrev main_v234 : Ref sig .tc := ⟨.hbm, 325, rfl⟩
abbrev main_c_33 : Ref sig .tc := ⟨.hbm, 326, rfl⟩
abbrev main_v235 : Ref sig .tc := ⟨.hbm, 327, rfl⟩
abbrev main_v236 : Ref sig .tc := ⟨.hbm, 328, rfl⟩
abbrev main_c_34 : Ref sig .tc := ⟨.hbm, 329, rfl⟩
abbrev main_v237 : Ref sig .tc := ⟨.hbm, 330, rfl⟩
abbrev main_v238 : Ref sig .tc := ⟨.hbm, 331, rfl⟩
abbrev main_v239 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_v243 : Ref sig .tc := ⟨.hbm, 336, rfl⟩
abbrev main_v244 : Ref sig .tc := ⟨.hbm, 337, rfl⟩
abbrev main_v245 : Ref sig .tc := ⟨.hbm, 338, rfl⟩
abbrev main_v246 : Ref sig .tc := ⟨.hbm, 339, rfl⟩
abbrev main_v247 : Ref sig .tc := ⟨.hbm, 340, rfl⟩
abbrev main_call13_cst : Ref sig .tc := ⟨.hbm, 341, rfl⟩
abbrev main_call13_v0 : Ref sig .tc := ⟨.hbm, 342, rfl⟩
abbrev main_v248 : Ref sig .tc := ⟨.hbm, 343, rfl⟩
abbrev main_v249 : Ref sig .tc := ⟨.hbm, 344, rfl⟩
abbrev main_v250 : Ref sig .tc := ⟨.hbm, 345, rfl⟩
abbrev main_v251 : Ref sig .tc := ⟨.hbm, 346, rfl⟩
abbrev main_v252 : Ref sig .tc := ⟨.hbm, 347, rfl⟩
abbrev main_call14_cst : Ref sig .tc := ⟨.hbm, 348, rfl⟩
abbrev main_call14_v0 : Ref sig .tc := ⟨.hbm, 349, rfl⟩
abbrev main_v253 : Ref sig .tc := ⟨.hbm, 350, rfl⟩
abbrev main_v254 : Ref sig .tc := ⟨.hbm, 351, rfl⟩
abbrev main_v255 : Ref sig .tc := ⟨.hbm, 352, rfl⟩
abbrev main_v256 : Ref sig .tc := ⟨.hbm, 353, rfl⟩
abbrev main_v257 : Ref sig .tc := ⟨.hbm, 354, rfl⟩
abbrev main_v258 : Ref sig .tc := ⟨.hbm, 355, rfl⟩
abbrev main_v259 : Ref sig .tc := ⟨.hbm, 356, rfl⟩
abbrev main_v260 : Ref sig .tc := ⟨.hbm, 357, rfl⟩
abbrev main_v261 : Ref sig .tc := ⟨.hbm, 358, rfl⟩
abbrev main_v262 : Ref sig .tc := ⟨.hbm, 359, rfl⟩
abbrev main_v263 : Ref sig .tc := ⟨.hbm, 360, rfl⟩
abbrev main_cst_35 : Ref sig .tc := ⟨.hbm, 361, rfl⟩
abbrev main_v264 : Ref sig .tc := ⟨.hbm, 362, rfl⟩
abbrev main_v265 : Ref sig .tc := ⟨.hbm, 363, rfl⟩
abbrev main_cst_36 : Ref sig .tc := ⟨.hbm, 364, rfl⟩
abbrev main_v266 : Ref sig .tc := ⟨.hbm, 365, rfl⟩
abbrev main_v267 : Ref sig .tc := ⟨.hbm, 366, rfl⟩
abbrev main_v268 : Ref sig .tc := ⟨.hbm, 367, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  reducesTo_S320000x3_S320000_d1 : S320000x3.ReducesTo [1] S320000
  h_S_ : 0 < S_.numel
  bcast_S_S64 : S_.BroadcastsInDim S64 (![] : Fin 0 → Fin S64.rank)
  bcast_S_S20000 : S_.BroadcastsInDim S20000 (![] : Fin 0 → Fin S20000.rank)
  bcast_S20000_S20000x1_0 : S20000.BroadcastsInDim S20000x1 (![0] : Fin 1 → Fin S20000x1.rank)
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  concatenates_S64x64_S64x64_S64x128_d1 : Shape.Concatenates [S64x64, S64x64] S64x128 1
  bcast_S1x128_S64x128_0_1 : S1x128.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S320000x1_S320000x128_0_1 : S320000x1.BroadcastsInDim S320000x128 (![0, 1] : Fin 2 → Fin S320000x128.rank)
  bcast_S_S20000x128 : S_.BroadcastsInDim S20000x128 (![] : Fin 0 → Fin S20000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S1x128_S20000x128_0_1 : S1x128.BroadcastsInDim S20000x128 (![0, 1] : Fin 2 → Fin S20000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  concatenates_S320000x128_S320000x128_S320000x256_d1 : Shape.Concatenates [S320000x128, S320000x128] S320000x256 1
  bcast_S1x64_S320000x64_0_1 : S1x64.BroadcastsInDim S320000x64 (![0, 1] : Fin 2 → Fin S320000x64.rank)
  bcast_S_S320000x64 : S_.BroadcastsInDim S320000x64 (![] : Fin 0 → Fin S320000x64.rank)
  bcast_S1x1_S320000x1_0_1 : S1x1.BroadcastsInDim S320000x1 (![0, 1] : Fin 2 → Fin S320000x1.rank)
  shapeCasts_S320000x1_S320000 : S320000x1.ShapeCasts S320000
  gather_S20000_S320000x1_S320000_n_0_n_n_0_1_1_wf : GatherDims.WF S20000 S320000x1 S320000 [] [0] [] [0] [] 1 ![1]
  gather_S20000x3_S320000x1_S320000x3_1_0_n_n_0_1_13_wf : GatherDims.WF S20000x3 S320000x1 S320000x3 [1] [0] [] [0] [] 1 ![1, 3]
  gather_S64_S320000x1_S320000_n_0_n_n_0_1_1_wf : GatherDims.WF S64 S320000x1 S320000 [] [0] [] [0] [] 1 ![1]
  gather_S100x128_S20000x1_S20000x128_1_0_n_n_0_1_1128_wf : GatherDims.WF S100x128 S20000x1 S20000x128 [1] [0] [] [0] [] 1 ![1, 128]
  gather_S100x128_S320000x1_S320000x128_1_0_n_n_0_1_1128_wf : GatherDims.WF S100x128 S320000x1 S320000x128 [1] [0] [] [0] [] 1 ![1, 128]
  dot_S320000x1_S1x128_S320000x128_1_0_0_1_n_n_wf : DotDims.WF S320000x1 S1x128 S320000x128 [1] [0] [0] [1] [] []
  dot_S320000x128_S128x128_S320000x128_1_0_0_1_n_n_wf : DotDims.WF S320000x128 S128x128 S320000x128 [1] [0] [0] [1] [] []
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []
  gather_S64x1_S320000x1_S320000x1_1_0_n_n_0_1_11_wf : GatherDims.WF S64x1 S320000x1 S320000x1 [1] [0] [] [0] [] 1 ![1, 1]
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  dot_S20000x128_S128x128_S20000x128_1_0_0_1_n_n_wf : DotDims.WF S20000x128 S128x128 S20000x128 [1] [0] [0] [1] [] []
  dot_S320000x256_S256x128_S320000x128_1_0_0_1_n_n_wf : DotDims.WF S320000x256 S256x128 S320000x128 [1] [0] [0] [1] [] []
  dot_S320000x128_S128x64_S320000x64_1_0_0_1_n_n_wf : DotDims.WF S320000x128 S128x64 S320000x64 [1] [0] [0] [1] [] []
  dot_S320000x64_S64x1_S320000x1_1_0_0_1_n_n_wf : DotDims.WF S320000x64 S64x1 S320000x1 [1] [0] [0] [1] [] []
  scatter_S64_S320000x1_S320000_n_0_0_1_wf : ScatterDims.WF S64 S320000x1 S320000 [] [0] [0] 1

variable [Facts₀]

def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S20000x3_S320000x1_S320000x3_1_0_n_n_0_1_13 : GatherDims S20000x3 S320000x1 S320000x3 where
  offsetDims := [1]
  collapsedSliceDims := [0]
  operandBatchingDims := []
  startIndicesBatchingDims := []
  startIndexMap := [0]
  indexVectorDim := 1
  sliceSizes := ![1, 3]
  wf := gather_S20000x3_S320000x1_S320000x3_1_0_n_n_0_1_13_wf
def gather_S64_S320000x1_S320000_n_0_n_n_0_1_1 : GatherDims S64 S320000x1 S320000 where
  offsetDims := []
  collapsedSliceDims := [0]
  operandBatchingDims := []
  startIndicesBatchingDims := []
  startIndexMap := [0]
  indexVectorDim := 1
  sliceSizes := ![1]
  wf := gather_S64_S320000x1_S320000_n_0_n_n_0_1_1_wf
def gather_S100x128_S20000x1_S20000x128_1_0_n_n_0_1_1128 : GatherDims S100x128 S20000x1 S20000x128 where
  offsetDims := [1]
  collapsedSliceDims := [0]
  operandBatchingDims := []
  startIndicesBatchingDims := []
  startIndexMap := [0]
  indexVectorDim := 1
  sliceSizes := ![1, 128]
  wf := gather_S100x128_S20000x1_S20000x128_1_0_n_n_0_1_1128_wf
def gather_S100x128_S320000x1_S320000x128_1_0_n_n_0_1_1128 : GatherDims S100x128 S320000x1 S320000x128 where
  offsetDims := [1]
  collapsedSliceDims := [0]
  operandBatchingDims := []
  startIndicesBatchingDims := []
  startIndexMap := [0]
  indexVectorDim := 1
  sliceSizes := ![1, 128]
  wf := gather_S100x128_S320000x1_S320000x128_1_0_n_n_0_1_1128_wf
def dot_S320000x1_S1x128_S320000x128_1_0_0_1_n_n : DotDims S320000x1 S1x128 S320000x128 where
  lhsContracting := [1]
  rhsContracting := [0]
  lhsNonContracting := [0]
  rhsNonContracting := [1]
  lhsBatch := []
  rhsBatch := []
  wf := dot_S320000x1_S1x128_S320000x128_1_0_0_1_n_n_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf
def gather_S64x1_S320000x1_S320000x1_1_0_n_n_0_1_11 : GatherDims S64x1 S320000x1 S320000x1 where
  offsetDims := [1]
  collapsedSliceDims := [0]
  operandBatchingDims := []
  startIndicesBatchingDims := []
  startIndexMap := [0]
  indexVectorDim := 1
  sliceSizes := ![1, 1]
  wf := gather_S64x1_S320000x1_S320000x1_1_0_n_n_0_1_11_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S320000x256_S256x128_S320000x128_1_0_0_1_n_n : DotDims S320000x256 S256x128 S320000x128 where
  lhsContracting := [1]
  rhsContracting := [0]
  lhsNonContracting := [0]
  rhsNonContracting := [1]
  lhsBatch := []
  rhsBatch := []
  wf := dot_S320000x256_S256x128_S320000x128_1_0_0_1_n_n_wf
def dot_S320000x128_S128x64_S320000x64_1_0_0_1_n_n : DotDims S320000x128 S128x64 S320000x64 where
  lhsContracting := [1]
  rhsContracting := [0]
  lhsNonContracting := [0]
  rhsNonContracting := [1]
  lhsBatch := []
  rhsBatch := []
  wf := dot_S320000x128_S128x64_S320000x64_1_0_0_1_n_n_wf
def dot_S320000x64_S64x1_S320000x1_1_0_0_1_n_n : DotDims S320000x64 S64x1 S320000x1 where
  lhsContracting := [1]
  rhsContracting := [0]
  lhsNonContracting := [0]
  rhsNonContracting := [1]
  lhsBatch := []
  rhsBatch := []
  wf := dot_S320000x64_S64x1_S320000x1_1_0_0_1_n_n_wf
def scatter_S64_S320000x1_S320000_n_0_0_1 : ScatterDims S64 S320000x1 S320000 where
  updateWindowDims := []
  insertedWindowDims := [0]
  scatterDimsToOperandDims := [0]
  indexVectorDim := 1
  wf := scatter_S64_S320000x1_S320000_n_0_0_1_wf

class Facts : Prop extends Facts₀ where

variable [Facts]
-- ==== Proof.RefRun.lean ====
import proofs.«404108_j19344532701343_1_alg».proof.Proof.RefOps0
import proofs.«404108_j19344532701343_1_alg».proof.Proof.RefOps1
import proofs.«404108_j19344532701343_1_alg».proof.Proof.RefOps2
import proofs.«404108_j19344532701343_1_alg».proof.Proof.RefOps3
import proofs.«404108_j19344532701343_1_alg».proof.Proof.RefOps4
import proofs.«404108_j19344532701343_1_alg».proof.Proof.RefOps5
import Idealize.ShloMosaic.Lib.StableHlo.Run

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

theorem bind_seq {Λ : Labels} (l₁ l₂ : List (HloOp τ sig (Elt F)))
    (p₁ p₂ : Prog (TpuEff nD τ sig (Elt F) Λ .tc) PUnit) (h₁ : p₁ = seq l₁) (h₂ : p₂ = seq l₂) :
    (p₁ >>= fun _ => p₂) = seq (l₁ ++ l₂) := by
  subst h₁ h₂; exact (seq_append l₁ l₂).symm

abbrev opsAll : List (HloOp τ sig (Elt F)) := ops0 ++ (ops1 ++ (ops2 ++ (ops3 ++ (ops4 ++ ops5))))

theorem main_eq (c : Dev nD) : main (F := F) c = seq opsAll :=
  show (main_part0 (F := F) c >>= fun _ => main_part1 c >>= fun _ => main_part2 c >>= fun _ => main_part3 c >>= fun _ =>
      main_part4 c >>= fun _ => main_part5 c) = _ from
    bind_seq _ _ _ _ (main_part0_eq c) (bind_seq _ _ _ _ (main_part1_eq c) (bind_seq _ _ _ _ (main_part2_eq c)
      (bind_seq _ _ _ _ (main_part3_eq c) (bind_seq _ _ _ _ (main_part4_eq c) (main_part5_eq c)))))

theorem opsAll_sub : (opsAll : List (HloOp τ sig (Elt F))).Forall fun op => op.bufs ⊆ tcRefs τ sig :=
  List.forall_append.mpr ⟨ops0_sub, List.forall_append.mpr ⟨ops1_sub, List.forall_append.mpr ⟨ops2_sub,
    List.forall_append.mpr ⟨ops3_sub, List.forall_append.mpr ⟨ops4_sub, ops5_sub⟩⟩⟩⟩⟩

theorem opsAll_fresh : (opsAll : List (HloOp τ sig (Elt F))).Forall fun op => op.fresh = ∅ :=
  List.forall_append.mpr ⟨ops0_fresh, List.forall_append.mpr ⟨ops1_fresh, List.forall_append.mpr ⟨ops2_fresh,
    List.forall_append.mpr ⟨ops3_fresh, List.forall_append.mpr ⟨ops4_fresh, ops5_fresh⟩⟩⟩⟩⟩

theorem scopedRefs_eq : (Finset.univ.filter fun b : Ref sig .tc => b.isScoped) = ∅ := by decide
theorem scopedSems_eq : (Finset.univ.filter fun sm : SemLoc sig => sm.isScoped .tc) = ∅ := by decide

variable (m : (ℓ : Loc nD τ sig) → Buf (Elt F) ℓ)

abbrev R0 (d : Dev nD) : Valuation τ sig (Elt F) := launchContents m d

abbrev R1 (d : Dev nD) : Valuation τ sig (Elt F) := after ops0 (R0 m d)

abbrev R2 (d : Dev nD) : Valuation τ sig (Elt F) := after ops1 (R1 m d)

abbrev R3 (d : Dev nD) : Valuation τ sig (Elt F) := after ops2 (R2 m d)

abbrev R4 (d : Dev nD) : Valuation τ sig (Elt F) := after ops3 (R3 m d)

abbrev R5 (d : Dev nD) : Valuation τ sig (Elt F) := after ops4 (R4 m d)

abbrev R6 (d : Dev nD) : Valuation τ sig (Elt F) := after ops5 (R5 m d)

theorem fold_eq (d : Dev nD) : after opsAll (launchContents m d) = R6 m d := by
  show after (ops0 ++ (ops1 ++ (ops2 ++ (ops3 ++ (ops4 ++ ops5))))) _ = _
  rw [after_append, after_append, after_append, after_append, after_append]

theorem run_fold (ρ : Dev nD → PrngReg) :
    θ_run defs (onTc (τ := τ) (main (F := F))) ⟨m, fun _ => 0, ρ⟩ fun r =>
      ∀ (d : Dev nD) (b : Ref sig .tc), r.2.mem ((d.tc : Thread nD τ).loc b) = R6 m d (Proc.devRef .tc b) :=
  (θ_run defs _ _).mono (fun _ h d b => (h d b).trans (congrFun (fold_eq m d) _))
    (run_seq scopedRefs_eq scopedSems_eq defs main (fun _ => opsAll) main_eq (fun _ => opsAll_sub) m ρ
      (fun _ => List.forall_iff_forall_mem.mp opsAll_fresh))

end Cert.ReferenceIdeal.RefRun

end
-- ==== Proof.RStep.lean ====
import proofs.«404108_j19344532701343_1_alg».proof.Proof.RefOps0
import proofs.«404108_j19344532701343_1_alg».proof.Proof.RefOps1
import proofs.«404108_j19344532701343_1_alg».proof.Proof.RefOps2
import proofs.«404108_j19344532701343_1_alg».proof.Proof.RefOps3
import proofs.«404108_j19344532701343_1_alg».proof.Proof.RefOps4
import proofs.«404108_j19344532701343_1_alg».proof.Proof.RefOps5
import proofs.«404108_j19344532701343_1_alg».proof.Proof.RefRun

set_option maxRecDepth 16384

noncomputable section

namespace Cert.ReferenceIdeal.RStep

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo

variable {F : FTy → Type} [FloatOps F]
variable (m : (ℓ : Loc nD τ sig) → Buf (Elt F) ℓ)

/-- The references the operations of window 0 write, in order. -/
abbrev wr0 : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_c_3, main_v18, main_v19, main_c_4, main_v20, main_v21, main_v22, main_v23, main_v24, main_v25, main_call0_v0, main_call0_cst, main_call0_v1, main_call0_v2, main_v26, main_cst, main_v27, main_v28, main_cst_5, main_v29, main_v30, main_cst_6, main_v31, main_v32, main_cst_7, main_v33, main_v34, main_cst_8, main_v35, main_v36, main_cst_9, main_v37, main_v38, main_v39, main_c_10, main_v40, main_v41, main_c_11, main_v42, main_v43, main_v44, main_v45]
theorem wr0_sub : (ops0 : List (HloOp τ sig (Elt F))).Forall fun op => op.writes ⊆ ((wr0).map (Proc.devRef (τ := τ) .tc)).toFinset := by
  simp only [ops0, List.Forall, nullary_writes, unary_writes, binary_writes, ternary_writes, quaternary_writes, reshape_writes, Finset.singleton_subset_iff, List.mem_toFinset]
  repeat' apply And.intro
  all_goals exact List.mem_map_of_mem (by decide)
/-- A reference window 0 does not write holds after it what it held before. -/
theorem keep0 (d : Dev nD) (r : Ref sig .tc) (hr : r ∉ wr0) : R1 m d (Proc.devRef .tc r) = R0 m d (Proc.devRef .tc r) :=
  after_of_writes_sub ops0 _ (wr0_sub (F := F)) hr

/-- The references the operations of window 1 write, in order. -/
abbrev wr1 : List (Ref sig .tc) := [main_v46, main_v47, main_v48, main_v49, main_c_12, main_v50, main_v51, main_c_13, main_v52, main_v53, main_v54, main_v55, main_v56, main_c_14, main_v57, main_v58, main_c_15, main_v59, main_v60, main_v61, main_v62, main_v63, main_v64, main_v65, main_v66, main_v67, main_call1_cst, main_call1_v0, main_v68, main_v69, main_v70, main_v71, main_v72, main_v73, main_v74, main_v75, main_v76, main_v77, main_cst_16, main_v78, main_v79, main_v80, main_v81, main_v82, main_v83, main_v84, main_v85, main_v86, main_v87, main_v88, main_v89, main_v90, main_c_17, main_v91, main_v92, main_c_18, main_v93, main_v94, main_v95, main_v96, main_v97, main_v98]
theorem wr1_sub : (ops1 : List (HloOp τ sig (Elt F))).Forall fun op => op.writes ⊆ ((wr1).map (Proc.devRef (τ := τ) .tc)).toFinset := by
  simp only [ops1, List.Forall, nullary_writes, unary_writes, binary_writes, ternary_writes, quaternary_writes, reshape_writes, Finset.singleton_subset_iff, List.mem_toFinset]
  repeat' apply And.intro
  all_goals exact List.mem_map_of_mem (by decide)
/-- A reference window 1 does not write holds after it what it held before. -/
theorem keep1 (d : Dev nD) (r : Ref sig .tc) (hr : r ∉ wr1) : R2 m d (Proc.devRef .tc r) = R1 m d (Proc.devRef .tc r) :=
  after_of_writes_sub ops1 _ (wr1_sub (F := F)) hr

/-- The references the operations of window 2 write, in order. -/
abbrev wr2 : List (Ref sig .tc) := [main_v99, main_v100, main_c_19, main_v101, main_v102, main_c_20, main_v103, main_v104, main_v105, main_v106, main_v107, main_v108, main_call2_cst, main_call2_v0, main_v109, main_cst_21, main_v110, main_v111, main_v112, main_v113, main_v114, main_v115, main_v116, main_v117, main_v118, main_v119, main_v120, main_v121, main_call3_cst, main_call3_v0, main_v122, main_v123, main_v124, main_v125, main_v126, main_v127, main_v128, main_v129, main_v130, main_call4_cst, main_call4_v0, main_v131, main_v132, main_c_22, main_v133, main_v134, main_c_23, main_v135, main_v136, main_v137, main_v138, main_v139, main_v140, main_call5_cst, main_call5_v0, main_v141, main_cst_24, main_v142, main_v143, main_v144, main_v145, main_v146, main_v147, main_v148, main_v149, main_v150, main_v151, main_v152]
theorem wr2_sub : (ops2 : List (HloOp τ sig (Elt F))).Forall fun op => op.writes ⊆ ((wr2).map (Proc.devRef (τ := τ) .tc)).toFinset := by
  simp only [ops2, List.Forall, nullary_writes, unary_writes, binary_writes, ternary_writes, quaternary_writes, reshape_writes, Finset.singleton_subset_iff, List.mem_toFinset]
  repeat' apply And.intro
  all_goals exact List.mem_map_of_mem (by decide)
/-- A reference window 2 does not write holds after it what it held before. -/
theorem keep2 (d : Dev nD) (r : Ref sig .tc) (hr : r ∉ wr2) : R3 m d (Proc.devRef .tc r) = R2 m d (Proc.devRef .tc r) :=
  after_of_writes_sub ops2 _ (wr2_sub (F := F)) hr

/-- The references the operations of window 3 write, in order. -/
abbrev wr3 : List (Ref sig .tc) := [main_v153, main_call6_cst, main_call6_v0, main_v154, main_v155, main_v156, main_v157, main_v158, main_v159, main_v160, main_v161, main_v162, main_call7_cst, main_call7_v0, main_v163, main_v164, main_c_25, main_v165, main_v166, main_c_26, main_v167, main_v168, main_v169, main_v170, main_v171, main_v172, main_call8_cst, main_call8_v0, main_v173, main_cst_27, main_v174, main_v175, main_v176, main_v177, main_v178, main_v179, main_v180, main_v181, main_v182, main_v183, main_v184, main_v185, main_call9_cst, main_call9_v0, main_v186, main_v187, main_v188, main_v189, main_v190, main_v191, main_v192, main_v193, main_v194, main_call10_cst, main_call10_v0, main_v195, main_v196, main_c_28, main_v197, main_v198, main_c_29, main_v199, main_v200, main_v201, main_v202, main_v203, main_v204, main_call11_cst, main_call11_v0, main_v205, main_cst_30, main_v206]
theorem wr3_sub : (ops3 : List (HloOp τ sig (Elt F))).Forall fun op => op.writes ⊆ ((wr3).map (Proc.devRef (τ := τ) .tc)).toFinset := by
  simp only [ops3, List.Forall, nullary_writes, unary_writes, binary_writes, ternary_writes, quaternary_writes, reshape_writes, Finset.singleton_subset_iff, List.mem_toFinset]
  repeat' apply And.intro
  all_goals exact List.mem_map_of_mem (by decide)
/-- A reference window 3 does not write holds after it what it held before. -/
theorem keep3 (d : Dev nD) (r : Ref sig .tc) (hr : r ∉ wr3) : R4 m d (Proc.devRef .tc r) = R3 m d (Proc.devRef .tc r) :=
  after_of_writes_sub ops3 _ (wr3_sub (F := F)) hr

/-- The references the operations of window 4 write, in order. -/
abbrev wr4 : List (Ref sig .tc) := [main_v207, main_v208, main_v209, main_v210, main_v211, main_v212, main_v213, main_v214, main_v215, main_v216, main_v217, main_call12_cst, main_call12_v0, main_v218, main_v219, main_v220, main_v221, main_v222, main_v223, main_v224, main_v225, main_v226, main_v227, main_c_31, main_v228, main_v229, main_c_32, main_v230, main_v231, main_v232, main_v233, main_v234, main_c_33, main_v235, main_v236, main_c_34, main_v237, main_v238, main_v239, main_v240, main_v241, main_v242, main_v243, main_v244, main_v245, main_v246, main_v247, main_call13_cst, main_call13_v0, main_v248, main_v249, main_v250, main_v251, main_v252, main_call14_cst, main_call14_v0, main_v253, main_v254, main_v255, main_v256, main_v257, main_v258, main_v259, main_v260, main_v261, main_v262]
theorem wr4_sub : (ops4 : List (HloOp τ sig (Elt F))).Forall fun op => op.writes ⊆ ((wr4).map (Proc.devRef (τ := τ) .tc)).toFinset := by
  simp only [ops4, List.Forall, nullary_writes, unary_writes, binary_writes, ternary_writes, quaternary_writes, reshape_writes, Finset.singleton_subset_iff, List.mem_toFinset]
  repeat' apply And.intro
  all_goals exact List.mem_map_of_mem (by decide)
/-- A reference window 4 does not write holds after it what it held before. -/
theorem keep4 (d : Dev nD) (r : Ref sig .tc) (hr : r ∉ wr4) : R5 m d (Proc.devRef .tc r) = R4 m d (Proc.devRef .tc r) :=
  after_of_writes_sub ops4 _ (wr4_sub (F := F)) hr

/-- The references the operations of window 5 write, in order. -/
abbrev wr5 : List (Ref sig .tc) := [main_v263, main_cst_35, main_v264, main_v265, main_cst_36, main_v266, main_v267, main_v268]
theorem wr5_sub : (ops5 : List (HloOp τ sig (Elt F))).Forall fun op => op.writes ⊆ ((wr5).map (Proc.devRef (τ := τ) .tc)).toFinset := by
  simp only [ops5, List.Forall, nullary_writes, unary_writes, binary_writes, ternary_writes, quaternary_writes, reshape_writes, Finset.singleton_subset_iff, List.mem_toFinset]
  repeat' apply And.intro
  all_goals exact List.mem_map_of_mem (by decide)
/-- A reference window 5 does not write holds after it what it held before. -/
theorem keep5 (d : Dev nD) (r : Ref sig .tc) (hr : r ∉ wr5) : R6 m d (Proc.devRef .tc r) = R5 m d (Proc.devRef .tc r) :=
  after_of_writes_sub ops5 _ (wr5_sub (F := F)) hr

end Cert.ReferenceIdeal.RStep

end
-- ==== Proof.RefArgs.lean ====
import proofs.«404108_j19344532701343_1_alg».proof.Proof.RStep

set_option maxRecDepth 16384

noncomputable section

namespace Cert.ReferenceIdeal.RefArgs

open Cert.ReferenceIdeal Cert.ReferenceIdeal.Gen Cert.ReferenceIdeal.RefOps Cert.ReferenceIdeal.RefRun Cert.ReferenceIdeal.RStep
open Idealize.ShloMosaic Idealize.ShloMosaic.TcCoe Idealize.SL.Sem Idealize.ShloMosaic.StableHlo

variable {F : FTy → Type} [FloatOps F]
variable (m : (ℓ : Loc nD τ sig) → Buf (Elt F) ℓ)

/-- A buffer that no window writes ends as launched: each window's fold leaves it alone. -/
theorem kept (d : Dev nD) (r : Ref sig .tc)
    (h : r ∉ wr5 ∧ r ∉ wr4 ∧ r ∉ wr3 ∧ r ∉ wr2 ∧ r ∉ wr1 ∧ r ∉ wr0) :
    R6 m d (Proc.devRef .tc r) = m ((d.tc : Thread nD τ).loc r) :=
  (keep5 m d r h.1).trans ((keep4 m d r h.2.1).trans ((keep3 m d r h.2.2.1).trans
    ((keep2 m d r h.2.2.2.1).trans ((keep1 m d r h.2.2.2.2.1).trans ((keep0 m d r h.2.2.2.2.2).trans rfl)))))

/-- The right-nested conjunction `p₀ ∧ p₁ ∧ … ∧ pₙ` of a list of propositions. -/
def Conj : List Prop → Prop
  | [] => True
  | [p] => p
  | p :: q :: ps => p ∧ Conj (q :: ps)

/-- A property of every member of a list gives the conjunction of its instances. -/
theorem conj_of_forall {α : Type} (P : α → Prop) : ∀ l : List α, (∀ a ∈ l, P a) → Conj (l.map P)
  | [], _ => trivial
  | [a], h => h a (List.mem_singleton_self a)
  | a :: b :: l, h => ⟨h a (List.mem_cons_self ..), conj_of_forall P (b :: l) fun x hx => h x (List.mem_cons_of_mem _ hx)⟩

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27]

/-- Every argument ends as launched, in a memory that ends at the last window's fold. -/
theorem keptAll (d : Dev nD) (mem : (ℓ : Loc nD τ sig) → Buf (Elt F) ℓ)
    (h : ∀ b : Ref sig .tc, mem ((d.tc : Thread nD τ).loc b) = R6 m d (Proc.devRef .tc b)) :
    Conj (args.map fun r => mem ((d.tc : Thread nD τ).loc r) = m ((d.tc : Thread nD τ).loc r)) :=
  conj_of_forall _ args fun r hr => (h r).trans (kept m d r
    ((by decide : ∀ r ∈ args, r ∉ wr5 ∧ r ∉ wr4 ∧ r ∉ wr3 ∧ r ∉ wr2 ∧ r ∉ wr1 ∧ r ∉ wr0) r hr))

end Cert.ReferenceIdeal.RefArgs

end
-- ==== Proof.PreFacts.lean ====
import proofs.«404108_j19344532701343_1_alg».proof.Defs
import Idealize.ShloMosaic.Lib.ReduceAll
import Idealize.ShloMosaic.Lib.StableHlo.Predicate

noncomputable section

namespace Cert.PreFacts

open Idealize.ShloMosaic Idealize.SL.Sem
open Cert.Pre_finite_inputs

instance subsingleton_S_ : Subsingleton S_.Idx := ⟨fun a b => funext fun d => d.elim0⟩

theorem toNat_lt_100 (w : BitVec 32) (h0 : IntOp.cmpi .sge w 0#32 = 1#1) (h1 : IntOp.cmpi .slt w 100#32 = 1#1) :
    w.toNat < 100 := by
  rw [IntOp.cmpi_sge, show (0#32 : BitVec 32).toInt = 0 from by decide] at h0
  rw [IntOp.cmpi_slt, show (100#32 : BitVec 32).toInt = 100 from by decide] at h1
  have hw : w.toInt = w.toNat := BitVec.toInt_eq_toNat_of_lt (BitVec.toInt_pos_iff.1 h0)
  omega

theorem part7_ranges {F : FTy → Type} [FloatOps F] [Facts] (a1 : IVec S20000 32) (a3 : IVec S320000 32) (v : IVec S_ 1)
    (j : S_.Idx) (e : fn_part7 (F := F) a1 a3 v (constantI S_ 32 0#32) j = 1#1) :
    (∀ i, (a1 i).toNat < 100) ∧ (∀ i, (a3 i).toNat < 100) := by
  unfold fn_part7 at e
  simp only [andi, IntOp.andi_eq_one] at e
  obtain ⟨⟨⟨⟨-, g1⟩, l1⟩, g3⟩, l3⟩ := e
  have G1 := Host.reduce_andi_all _ _ _ _ j g1
  have L1 := Host.reduce_andi_all _ _ _ _ j l1
  have G3 := Host.reduce_andi_all _ _ _ _ j g3
  have L3 := Host.reduce_andi_all _ _ _ _ j l3
  refine ⟨fun i => ?_, fun i => ?_⟩
  · have p := G1 i
    have q := L1 i
    simp only [cmpi, StableHlo.Predicate.bcast_scalar _ Facts.h_S_, constantI] at p q
    exact toNat_lt_100 _ p q
  · have p := G3 i
    have q := L3 i
    simp only [cmpi, StableHlo.Predicate.bcast_scalar _ Facts.h_S_, constantI] at p q
    exact toNat_lt_100 _ p q

theorem ranges [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, (m ((c.tc : Thread Cert.KernelIdeal.nD Cert.KernelIdeal.τ).loc Cert.KernelIdeal.main_arg1) i).toNat < 100)
    ∧ (∀ i, (m ((c.tc : Thread Cert.KernelIdeal.nD Cert.KernelIdeal.τ).loc Cert.KernelIdeal.main_arg3) i).toNat < 100) := by
  have e := congrFun (h c) (fun a => a.elim0)
  exact part7_ranges (F := Ideal) _ _ _ _ e

end Cert.PreFacts

end
-- ==== Proof.KStep.lean ====
import proofs.«404108_j19344532701343_1_alg».proof.Proof.Gen.KernelIdeal.Frame

set_option maxRecDepth 16384

noncomputable section

namespace Cert.KernelIdeal.KStep

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The references the operations of `hostOps0` write, in order. -/
abbrev wrH0 : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_c_3, main_v18, main_v19, main_c_4, main_v20, main_v21, main_v22, main_v23, main_v24, main_v25]
theorem wrH0_sub : (hostOps0 : List (HloOp τ sig (Elt F))).Forall fun op => op.writes ⊆ ((wrH0).map (Proc.devRef (τ := τ) .tc)).toFinset := by
  simp only [hostOps0, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A reference `hostOps0` does not write holds after it what it held before. -/
theorem keepH0 (c : Dev nD) (r : Ref sig .tc) (hr : r ∉ wrH0) : W1 m ρ c (Proc.devRef .tc r) = W0 m ρ c (Proc.devRef .tc r) :=
  StableHlo.after_of_writes_sub hostOps0 _ (wrH0_sub (F := F)) hr

/-- The references the operations of `hostOps0_1` write, in order. -/
abbrev wrH0_1 : List (Ref sig .tc) := [main_call0_v0, main_call0_cst, main_call0_v1, main_call0_v2, main_v26]
theorem wrH0_1_sub : (hostOps0_1 : List (HloOp τ sig (Elt F))).Forall fun op => op.writes ⊆ ((wrH0_1).map (Proc.devRef (τ := τ) .tc)).toFinset := by
  simp only [hostOps0_1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A reference `hostOps0_1` does not write holds after it what it held before. -/
theorem keepH0_1 (c : Dev nD) (r : Ref sig .tc) (hr : r ∉ wrH0_1) : W2 m ρ c (Proc.devRef .tc r) = W1 m ρ c (Proc.devRef .tc r) :=
  StableHlo.after_of_writes_sub hostOps0_1 _ (wrH0_1_sub (F := F)) hr

/-- The references the operations of `hostOps0_2` write, in order. -/
abbrev wrH0_2 : List (Ref sig .tc) := [main_cst, main_v27, main_v28, main_cst_5, main_v29, main_v30, main_cst_6, main_v31, main_v32, main_cst_7, main_v33, main_v34, main_cst_8, main_v35, main_v36, main_cst_9, main_v37, main_v38, main_v39, main_c_10, main_v40, main_v41, main_c_11, main_v42, main_v43, main_v44, main_v45, main_v46, main_v47, main_v48, main_v49, main_v50, main_v51, main_v52, main_v53, main_v54, main_cst_12, main_v55, main_v56, main_v57, main_v58, main_v59, main_v60, main_v61, main_v62, main_v63, main_v64, main_v65, main_v66, main_v67, main_c_13, main_v68, main_v69, main_c_14, main_v70, main_v71, main_v72, main_v73, main_v74, main_v75, main_v76, main_v77]
theorem wrH0_2_sub : (hostOps0_2 : List (HloOp τ sig (Elt F))).Forall fun op => op.writes ⊆ ((wrH0_2).map (Proc.devRef (τ := τ) .tc)).toFinset := by
  simp only [hostOps0_2, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A reference `hostOps0_2` does not write holds after it what it held before. -/
theorem keepH0_2 (c : Dev nD) (r : Ref sig .tc) (hr : r ∉ wrH0_2) : W3 m ρ c (Proc.devRef .tc r) = W2 m ρ c (Proc.devRef .tc r) :=
  StableHlo.after_of_writes_sub hostOps0_2 _ (wrH0_2_sub (F := F)) hr

/-- The references the operations of `hostOps1` write, in order. -/
abbrev wrH1 : List (Ref sig .tc) := [main_v79]
theorem wrH1_sub : (hostOps1 : List (HloOp τ sig (Elt F))).Forall fun op => op.writes ⊆ ((wrH1).map (Proc.devRef (τ := τ) .tc)).toFinset := by
  simp only [hostOps1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A reference `hostOps1` does not write holds after it what it held before. -/
theorem keepH1 (c : Dev nD) (r : Ref sig .tc) (hr : r ∉ wrH1) : W5 m ρ c (Proc.devRef .tc r) = W4 m ρ c (Proc.devRef .tc r) :=
  StableHlo.after_of_writes_sub hostOps1 _ (wrH1_sub (F := F)) hr

/-- The references the operations of `hostOps2` write, in order. -/
abbrev wrH2 : List (Ref sig .tc) := [main_c_15, main_v81, main_v82, main_c_16, main_v83, main_v84, main_v85, main_v86, main_v87]
theorem wrH2_sub : (hostOps2 : List (HloOp τ sig (Elt F))).Forall fun op => op.writes ⊆ ((wrH2).map (Proc.devRef (τ := τ) .tc)).toFinset := by
  simp only [hostOps2, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A reference `hostOps2` does not write holds after it what it held before. -/
theorem keepH2 (c : Dev nD) (r : Ref sig .tc) (hr : r ∉ wrH2) : W7 m ρ c (Proc.devRef .tc r) = W6 m ρ c (Proc.devRef .tc r) :=
  StableHlo.after_of_writes_sub hostOps2 _ (wrH2_sub (F := F)) hr

/-- The references the operations of `hostOps3` write, in order. -/
abbrev wrH3 : List (Ref sig .tc) := [main_cst_17, main_v89, main_v90, main_v91, main_v92, main_v93, main_v94, main_v95, main_v96, main_v97, main_v98, main_v99, main_v100, main_v101]
theorem wrH3_sub : (hostOps3 : List (HloOp τ sig (Elt F))).Forall fun op => op.writes ⊆ ((wrH3).map (Proc.devRef (τ := τ) .tc)).toFinset := by
  simp only [hostOps3, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A reference `hostOps3` does not write holds after it what it held before. -/
theorem keepH3 (c : Dev nD) (r : Ref sig .tc) (hr : r ∉ wrH3) : W9 m ρ c (Proc.devRef .tc r) = W8 m ρ c (Proc.devRef .tc r) :=
  StableHlo.after_of_writes_sub hostOps3 _ (wrH3_sub (F := F)) hr

/-- The references the operations of `hostOps4` write, in order. -/
abbrev wrH4 : List (Ref sig .tc) := [main_c_18, main_v103, main_v104, main_c_19, main_v105, main_v106, main_v107, main_v108, main_v109]
theorem wrH4_sub : (hostOps4 : List (HloOp τ sig (Elt F))).Forall fun op => op.writes ⊆ ((wrH4).map (Proc.devRef (τ := τ) .tc)).toFinset := by
  simp only [hostOps4, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A reference `hostOps4` does not write holds after it what it held before. -/
theorem keepH4 (c : Dev nD) (r : Ref sig .tc) (hr : r ∉ wrH4) : W11 m ρ c (Proc.devRef .tc r) = W10 m ρ c (Proc.devRef .tc r) :=
  StableHlo.after_of_writes_sub hostOps4 _ (wrH4_sub (F := F)) hr

/-- The references the operations of `hostOps5` write, in order. -/
abbrev wrH5 : List (Ref sig .tc) := [main_cst_20, main_v111, main_v112, main_v113, main_v114, main_v115, main_v116, main_v117, main_v118, main_v119, main_v120, main_v121, main_v122, main_v123]
theorem wrH5_sub : (hostOps5 : List (HloOp τ sig (Elt F))).Forall fun op => op.writes ⊆ ((wrH5).map (Proc.devRef (τ := τ) .tc)).toFinset := by
  simp only [hostOps5, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A reference `hostOps5` does not write holds after it what it held before. -/
theorem keepH5 (c : Dev nD) (r : Ref sig .tc) (hr : r ∉ wrH5) : W13 m ρ c (Proc.devRef .tc r) = W12 m ρ c (Proc.devRef .tc r) :=
  StableHlo.after_of_writes_sub hostOps5 _ (wrH5_sub (F := F)) hr

/-- The references the operations of `hostOps6` write, in order. -/
abbrev wrH6 : List (Ref sig .tc) := [main_c_21, main_v125, main_v126, main_c_22, main_v127, main_v128, main_v129, main_v130, main_v131]
theorem wrH6_sub : (hostOps6 : List (HloOp τ sig (Elt F))).Forall fun op => op.writes ⊆ ((wrH6).map (Proc.devRef (τ := τ) .tc)).toFinset := by
  simp only [hostOps6, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A reference `hostOps6` does not write holds after it what it held before. -/
theorem keepH6 (c : Dev nD) (r : Ref sig .tc) (hr : r ∉ wrH6) : W15 m ρ c (Proc.devRef .tc r) = W14 m ρ c (Proc.devRef .tc r) :=
  StableHlo.after_of_writes_sub hostOps6 _ (wrH6_sub (F := F)) hr

/-- The references the operations of `hostOps7` write, in order. -/
abbrev wrH7 : List (Ref sig .tc) := [main_cst_23, main_v133, main_v134, main_v135, main_v136, main_v137, main_v138, main_v139, main_v140, main_v141, main_v142, main_v143, main_v144, main_v145]
theorem wrH7_sub : (hostOps7 : List (HloOp τ sig (Elt F))).Forall fun op => op.writes ⊆ ((wrH7).map (Proc.devRef (τ := τ) .tc)).toFinset := by
  simp only [hostOps7, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A reference `hostOps7` does not write holds after it what it held before. -/
theorem keepH7 (c : Dev nD) (r : Ref sig .tc) (hr : r ∉ wrH7) : W17 m ρ c (Proc.devRef .tc r) = W16 m ρ c (Proc.devRef .tc r) :=
  StableHlo.after_of_writes_sub hostOps7 _ (wrH7_sub (F := F)) hr

/-- The references the operations of `hostOps8` write, in order. -/
abbrev wrH8 : List (Ref sig .tc) := [main_c_24, main_v147, main_v148, main_c_25, main_v149, main_v150, main_v151, main_v152, main_v153]
theorem wrH8_sub : (hostOps8 : List (HloOp τ sig (Elt F))).Forall fun op => op.writes ⊆ ((wrH8).map (Proc.devRef (τ := τ) .tc)).toFinset := by
  simp only [hostOps8, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A reference `hostOps8` does not write holds after it what it held before. -/
theorem keepH8 (c : Dev nD) (r : Ref sig .tc) (hr : r ∉ wrH8) : W19 m ρ c (Proc.devRef .tc r) = W18 m ρ c (Proc.devRef .tc r) :=
  StableHlo.after_of_writes_sub hostOps8 _ (wrH8_sub (F := F)) hr

/-- The references the operations of `hostOps9` write, in order. -/
abbrev wrH9 : List (Ref sig .tc) := [main_cst_26, main_v155, main_v156, main_v157, main_v158, main_v159, main_v160, main_v161, main_v162, main_v163, main_v164, main_v165, main_v166, main_v167]
theorem wrH9_sub : (hostOps9 : List (HloOp τ sig (Elt F))).Forall fun op => op.writes ⊆ ((wrH9).map (Proc.devRef (τ := τ) .tc)).toFinset := by
  simp only [hostOps9, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A reference `hostOps9` does not write holds after it what it held before. -/
theorem keepH9 (c : Dev nD) (r : Ref sig .tc) (hr : r ∉ wrH9) : W21 m ρ c (Proc.devRef .tc r) = W20 m ρ c (Proc.devRef .tc r) :=
  StableHlo.after_of_writes_sub hostOps9 _ (wrH9_sub (F := F)) hr

/-- The references the operations of `hostOps10` write, in order. -/
abbrev wrH10 : List (Ref sig .tc) := [main_c_27, main_v169, main_v170, main_c_28, main_v171, main_v172, main_v173, main_v174, main_v175, main_c_29, main_v176, main_v177, main_c_30, main_v178, main_v179, main_v180, main_v181, main_v182, main_v183, main_v184, main_v185, main_v186]
theorem wrH10_sub : (hostOps10 : List (HloOp τ sig (Elt F))).Forall fun op => op.writes ⊆ ((wrH10).map (Proc.devRef (τ := τ) .tc)).toFinset := by
  simp only [hostOps10, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A reference `hostOps10` does not write holds after it what it held before. -/
theorem keepH10 (c : Dev nD) (r : Ref sig .tc) (hr : r ∉ wrH10) : W23 m ρ c (Proc.devRef .tc r) = W22 m ρ c (Proc.devRef .tc r) :=
  StableHlo.after_of_writes_sub hostOps10 _ (wrH10_sub (F := F)) hr

/-- The references the operations of `hostOps11` write, in order. -/
abbrev wrH11 : List (Ref sig .tc) := [main_v188, main_cst_31, main_v189, main_v190, main_v191]
theorem wrH11_sub : (hostOps11 : List (HloOp τ sig (Elt F))).Forall fun op => op.writes ⊆ ((wrH11).map (Proc.devRef (τ := τ) .tc)).toFinset := by
  simp only [hostOps11, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A reference `hostOps11` does not write holds after it what it held before. -/
theorem keepH11 (c : Dev nD) (r : Ref sig .tc) (hr : r ∉ wrH11) : W25 m ρ c (Proc.devRef .tc r) = W24 m ρ c (Proc.devRef .tc r) :=
  StableHlo.after_of_writes_sub hostOps11 _ (wrH11_sub (F := F)) hr

end Cert.KernelIdeal.KStep

end
-- ==== Proof.SimPreA.lean ====
import proofs.«404108_j19344532701343_1_alg».proof.Proof.Gen.KernelIdeal.Frame
import proofs.«404108_j19344532701343_1_alg».proof.Proof.KStep
import proofs.«404108_j19344532701343_1_alg».proof.Proof.RefRun
import proofs.«404108_j19344532701343_1_alg».proof.Proof.RStep

noncomputable section

namespace Cert.SimPreA

open Idealize.ShloMosaic Idealize.ShloMosaic.TcCoe Idealize.SL.Sem Idealize.ShloMosaic.StableHlo
open Cert.KernelIdeal.Gen Cert.KernelIdeal.KStep

variable {F : FTy → Type} [FloatOps F] (m : (ℓ : Loc Cert.KernelIdeal.nD Cert.KernelIdeal.τ Cert.KernelIdeal.sig) → Buf (Elt F) ℓ) (ρ : Dev Cert.KernelIdeal.nD → PrngReg)
  (m' : (ℓ : Loc Cert.ReferenceIdeal.nD Cert.ReferenceIdeal.τ Cert.ReferenceIdeal.sig) → Buf (Elt F) ℓ) (c : Dev Cert.KernelIdeal.nD)

theorem k_launch (r : Ref Cert.KernelIdeal.sig .tc) :
    W0 m ρ c (Proc.devRef .tc r) = m ((c.tc : Thread Cert.KernelIdeal.nD Cert.KernelIdeal.τ).loc r) := rfl

/-- Neither of the first two operation lists writes `r`, so it still holds its launch contents. -/
theorem k_arg (r : Ref Cert.KernelIdeal.sig .tc) (h1 : r ∉ wrH0_1) (h0 : r ∉ wrH0) :
    W2 m ρ c (Proc.devRef .tc r) = m ((c.tc : Thread Cert.KernelIdeal.nD Cert.KernelIdeal.τ).loc r) :=
  (keepH0_1 m ρ c r h1).trans (keepH0 m ρ c r h0)

/-- Both programs take row 0 of edge_index, flattened. -/
theorem sim_v1
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.RefRun.R1 m' c (Proc.devRef .tc Cert.ReferenceIdeal.main_v1) = Cert.KernelIdeal.Gen.W1 m ρ c (Proc.devRef .tc Cert.KernelIdeal.main_v1) := by
  after_results_simp
  rw [k_launch, ← h2] <;> rfl

/-- Both programs take row 1 of edge_index, flattened. -/
theorem sim_v3
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.RefRun.R1 m' c (Proc.devRef .tc Cert.ReferenceIdeal.main_v3) = Cert.KernelIdeal.Gen.W1 m ρ c (Proc.devRef .tc Cert.KernelIdeal.main_v3) := by
  after_results_simp
  rw [k_launch, ← h2] <;> rfl

/-- Both programs read batch at the wrapped edge sources. -/
theorem sim_v10
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.RefRun.R1 m' c (Proc.devRef .tc Cert.ReferenceIdeal.main_v10) = Cert.KernelIdeal.Gen.W1 m ρ c (Proc.devRef .tc Cert.KernelIdeal.main_v10) := by
  after_results_simp
  rw [k_launch, k_launch, ← h2, ← h4] <;> rfl

/-- Both programs take the norm of pos[source] − pos[target]. -/
theorem sim_v26
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.RefRun.R1 m' c (Proc.devRef .tc Cert.ReferenceIdeal.main_v26) = Cert.KernelIdeal.Gen.W2 m ρ c (Proc.devRef .tc Cert.KernelIdeal.main_v26) := by
  after_results_simp
  rw [k_launch, k_launch, ← h0, ← h2] <;> rfl

/-- The third operation list reshapes argument 3, which the first two leave alone. -/
theorem k_v75 :
    Cert.KernelIdeal.Gen.W3 m ρ c (Proc.devRef .tc Cert.KernelIdeal.main_v75)
      = shapeCast Cert.KernelIdeal.S320000x1 (m ((c.tc : Thread Cert.KernelIdeal.nD Cert.KernelIdeal.τ).loc Cert.KernelIdeal.main_arg3)) Cert.KernelIdeal.Facts₀.shapeCasts_S320000_S320000x1 := by
  rw [← k_arg m ρ c Cert.KernelIdeal.main_arg3 (by decide) (by decide)]
  unfold W3
  generalize W2 m ρ c = V
  after_results_simp <;> rfl

/-- The third operation list reshapes argument 10, which the first two leave alone. -/
theorem k_v76 :
    Cert.KernelIdeal.Gen.W3 m ρ c (Proc.devRef .tc Cert.KernelIdeal.main_v76)
      = shapeCast Cert.KernelIdeal.S1x128 (m ((c.tc : Thread Cert.KernelIdeal.nD Cert.KernelIdeal.τ).loc Cert.KernelIdeal.main_arg10)) Cert.KernelIdeal.Facts₀.shapeCasts_S128_S1x128 := by
  rw [← k_arg m ρ c Cert.KernelIdeal.main_arg10 (by decide) (by decide)]
  unfold W3
  generalize W2 m ρ c = V
  after_results_simp <;> rfl

/-- The third operation list reshapes argument 12, which the first two leave alone. -/
theorem k_v77 :
    Cert.KernelIdeal.Gen.W3 m ρ c (Proc.devRef .tc Cert.KernelIdeal.main_v77)
      = shapeCast Cert.KernelIdeal.S1x128 (m ((c.tc : Thread Cert.KernelIdeal.nD Cert.KernelIdeal.τ).loc Cert.KernelIdeal.main_arg12)) Cert.KernelIdeal.Facts₀.shapeCasts_S128_S1x128 := by
  rw [← k_arg m ρ c Cert.KernelIdeal.main_arg12 (by decide) (by decide)]
  unfold W3
  generalize W2 m ρ c = V
  after_results_simp <;> rfl

end Cert.SimPreA

end
-- ==== Proof.SimPreB.lean ====
import proofs.«404108_j19344532701343_1_alg».proof.Proof.SimPreA

noncomputable section

namespace Cert.SimPreB

open Idealize.ShloMosaic Idealize.ShloMosaic.TcCoe Idealize.SL.Sem Idealize.ShloMosaic.StableHlo
open Cert.KernelIdeal.Gen Cert.KernelIdeal.KStep Cert.SimPreA

variable {F : FTy → Type} [FloatOps F] (m : (ℓ : Loc Cert.KernelIdeal.nD Cert.KernelIdeal.τ Cert.KernelIdeal.sig) → Buf (Elt F) ℓ) (ρ : Dev Cert.KernelIdeal.nD → PrngReg)
  (m' : (ℓ : Loc Cert.ReferenceIdeal.nD Cert.ReferenceIdeal.τ Cert.ReferenceIdeal.sig) → Buf (Elt F) ℓ) (c : Dev Cert.KernelIdeal.nD)

/-- Concatenating two pieces respects equality of the pieces. -/
@[local congr] theorem concatenate_congr {α : Type} {t : Shape} {a : Fin t.rank} {s₁ s₂ : Shape} {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by rw [hx, hy]

set_option maxHeartbeats 1000000 in
/-- Both programs gather the noise level of the diffusion time at each edge's wrapped graph. -/
theorem sim_stde
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (hv10 : Cert.ReferenceIdeal.RefRun.R1 m' c (Proc.devRef .tc Cert.ReferenceIdeal.main_v10) = Cert.KernelIdeal.Gen.W1 m ρ c (Proc.devRef .tc Cert.KernelIdeal.main_v10)) :
    Cert.ReferenceIdeal.RefRun.R2 m' c (Proc.devRef .tc Cert.ReferenceIdeal.main_v46) = Cert.KernelIdeal.Gen.W3 m ρ c (Proc.devRef .tc Cert.KernelIdeal.main_v46) := by
  have e5 := (k_arg m ρ c Cert.KernelIdeal.main_arg5 (by decide) (by decide)).trans h5.symm
  have e10 := (keepH0_1 m ρ c Cert.KernelIdeal.main_v10 (by decide)).trans hv10.symm
  unfold W3
  generalize W2 m ρ c = V at e5 e10 ⊢
  after_results_simp
  rw [e5, e10]
  after_results_simp <;> rfl

set_option maxHeartbeats 1000000 in
/-- Both programs add to the edge length the noise times the edge's noise level. -/
theorem sim_pd
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (hv10 : Cert.ReferenceIdeal.RefRun.R1 m' c (Proc.devRef .tc Cert.ReferenceIdeal.main_v10) = Cert.KernelIdeal.Gen.W1 m ρ c (Proc.devRef .tc Cert.KernelIdeal.main_v10))
    (hv26 : Cert.ReferenceIdeal.RefRun.R1 m' c (Proc.devRef .tc Cert.ReferenceIdeal.main_v26) = Cert.KernelIdeal.Gen.W2 m ρ c (Proc.devRef .tc Cert.KernelIdeal.main_v26)) :
    Cert.ReferenceIdeal.RefRun.R2 m' c (Proc.devRef .tc Cert.ReferenceIdeal.main_v49) = Cert.KernelIdeal.Gen.W3 m ρ c (Proc.devRef .tc Cert.KernelIdeal.main_v49) := by
  have e5 := (k_arg m ρ c Cert.KernelIdeal.main_arg5 (by decide) (by decide)).trans h5.symm
  have e6 := (k_arg m ρ c Cert.KernelIdeal.main_arg6 (by decide) (by decide)).trans h6.symm
  have e10 := (keepH0_1 m ρ c Cert.KernelIdeal.main_v10 (by decide)).trans hv10.symm
  unfold W3
  generalize W2 m ρ c = V at e5 e6 e10 hv26 ⊢
  after_results_simp
  rw [e5, e6, e10, ← hv26]
  after_results_simp <;> rfl

set_option maxHeartbeats 1000000 in
/-- Both programs embed the diffusion time by the same two affine layers and gather it at each edge's wrapped graph. -/
theorem sim_tve
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (hv10 : Cert.ReferenceIdeal.RefRun.R1 m' c (Proc.devRef .tc Cert.ReferenceIdeal.main_v10) = Cert.KernelIdeal.Gen.W1 m ρ c (Proc.devRef .tc Cert.KernelIdeal.main_v10)) :
    Cert.ReferenceIdeal.RefRun.R2 m' c (Proc.devRef .tc Cert.ReferenceIdeal.main_v97) = Cert.KernelIdeal.Gen.W3 m ρ c (Proc.devRef .tc Cert.KernelIdeal.main_v74) := by
  have e5 := (k_arg m ρ c Cert.KernelIdeal.main_arg5 (by decide) (by decide)).trans h5.symm
  have e13 := (k_arg m ρ c Cert.KernelIdeal.main_arg13 (by decide) (by decide)).trans h13.symm
  have e14 := (k_arg m ρ c Cert.KernelIdeal.main_arg14 (by decide) (by decide)).trans h14.symm
  have e15 := (k_arg m ρ c Cert.KernelIdeal.main_arg15 (by decide) (by decide)).trans h15.symm
  have e16 := (k_arg m ρ c Cert.KernelIdeal.main_arg16 (by decide) (by decide)).trans h16.symm
  have e17 := (k_arg m ρ c Cert.KernelIdeal.main_arg17 (by decide) (by decide)).trans h17.symm
  have e10 := (keepH0_1 m ρ c Cert.KernelIdeal.main_v10 (by decide)).trans hv10.symm
  unfold W3
  generalize W2 m ρ c = V at e5 e13 e14 e15 e16 e17 e10 ⊢
  after_results_simp
  rw [e5, e13, e14, e15, e16, e17, e10]
  after_results_simp <;> rfl

end Cert.SimPreB

end
-- ==== Proof.KCarry.lean ====
import proofs.«404108_j19344532701343_1_alg».proof.Proof.KStep

noncomputable section

namespace Cert.KernelIdeal.KCarry

open Cert.KernelIdeal Cert.KernelIdeal.Gen Cert.KernelIdeal.KStep Idealize.ShloMosaic Idealize.ShloMosaic.TcCoe Idealize.SL.Sem

variable {F : FTy → Type} [FloatOps F]
variable {m : (ℓ : Loc nD τ sig) → Buf (Elt F) ℓ} {ρ : Dev nD → PrngReg} {c : Dev nD} (r : Ref sig .tc)

-- A buffer that no host stretch writes and no region holds, from the first stretch's end on, keeps its contents.
abbrev Quiet4 : Prop := r ∉ wrH0_1 ∧ r ∉ wrH0_2 ∧ ∀ w, Pipeline.arrRef spec0 w ≠ r
theorem carry4 (h : Quiet4 r) : W4 m ρ c r = W1 m ρ c r :=
  (W4_of_ne m ρ c r h.2.2).trans ((keepH0_2 m ρ c r h.2.1).trans (keepH0_1 m ρ c r h.1))
abbrev Quiet6 : Prop := (r ∉ wrH1 ∧ ∀ w, Pipeline.arrRef spec1 w ≠ r) ∧ Quiet4 r
theorem carry6 (h : Quiet6 r) : W6 m ρ c r = W1 m ρ c r :=
  (W6_of_ne m ρ c r h.1.2).trans ((keepH1 m ρ c r h.1.1).trans (carry4 r h.2))
abbrev Quiet8 : Prop := (r ∉ wrH2 ∧ ∀ w, Pipeline.arrRef spec2 w ≠ r) ∧ Quiet6 r
theorem carry8 (h : Quiet8 r) : W8 m ρ c r = W1 m ρ c r :=
  (W8_of_ne m ρ c r h.1.2).trans ((keepH2 m ρ c r h.1.1).trans (carry6 r h.2))
abbrev Quiet10 : Prop := (r ∉ wrH3 ∧ ∀ w, Pipeline.arrRef spec3 w ≠ r) ∧ Quiet8 r
theorem carry10 (h : Quiet10 r) : W10 m ρ c r = W1 m ρ c r :=
  (W10_of_ne m ρ c r h.1.2).trans ((keepH3 m ρ c r h.1.1).trans (carry8 r h.2))
abbrev Quiet12 : Prop := (r ∉ wrH4 ∧ ∀ w, Pipeline.arrRef spec4 w ≠ r) ∧ Quiet10 r
theorem carry12 (h : Quiet12 r) : W12 m ρ c r = W1 m ρ c r :=
  (W12_of_ne m ρ c r h.1.2).trans ((keepH4 m ρ c r h.1.1).trans (carry10 r h.2))
abbrev Quiet14 : Prop := (r ∉ wrH5 ∧ ∀ w, Pipeline.arrRef spec5 w ≠ r) ∧ Quiet12 r
theorem carry14 (h : Quiet14 r) : W14 m ρ c r = W1 m ρ c r :=
  (W14_of_ne m ρ c r h.1.2).trans ((keepH5 m ρ c r h.1.1).trans (carry12 r h.2))
abbrev Quiet16 : Prop := (r ∉ wrH6 ∧ ∀ w, Pipeline.arrRef spec6 w ≠ r) ∧ Quiet14 r
theorem carry16 (h : Quiet16 r) : W16 m ρ c r = W1 m ρ c r :=
  (W16_of_ne m ρ c r h.1.2).trans ((keepH6 m ρ c r h.1.1).trans (carry14 r h.2))
abbrev Quiet18 : Prop := (r ∉ wrH7 ∧ ∀ w, Pipeline.arrRef spec7 w ≠ r) ∧ Quiet16 r
theorem carry18 (h : Quiet18 r) : W18 m ρ c r = W1 m ρ c r :=
  (W18_of_ne m ρ c r h.1.2).trans ((keepH7 m ρ c r h.1.1).trans (carry16 r h.2))
abbrev Quiet20 : Prop := (r ∉ wrH8 ∧ ∀ w, Pipeline.arrRef spec8 w ≠ r) ∧ Quiet18 r
theorem carry20 (h : Quiet20 r) : W20 m ρ c r = W1 m ρ c r :=
  (W20_of_ne m ρ c r h.1.2).trans ((keepH8 m ρ c r h.1.1).trans (carry18 r h.2))
abbrev Quiet22 : Prop := (r ∉ wrH9 ∧ ∀ w, Pipeline.arrRef spec9 w ≠ r) ∧ Quiet20 r
theorem carry22 (h : Quiet22 r) : W22 m ρ c r = W1 m ρ c r :=
  (W22_of_ne m ρ c r h.1.2).trans ((keepH9 m ρ c r h.1.1).trans (carry20 r h.2))

-- Such a buffer that the first stretch does not write either holds its launch contents.
theorem toArg {v : Valuation τ sig (Elt F)} (h : v r = W1 m ρ c r) (h0 : r ∉ wrH0) :
    v r = m ((c.tc : Thread nD τ).loc r) :=
  h.trans ((keepH0 m ρ c r h0).trans rfl)

end Cert.KernelIdeal.KCarry

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

def relu (x : EReal) : EReal := max x 0

def hot (a : BitVec 32) (k : Fin 100) : EReal := if BitVec.ofNat 32 k.val = a then 1 else 0

def embRow (a : BitVec 32) (E : Fin 100 → Fin 128 → EReal) (j : Fin 128) : EReal := ∑ k : Fin 100, hot a k * E k j

def edgeRow (pd tv : EReal) (a : BitVec 32) (E : Fin 100 → Fin 128 → EReal) (w1 b1 : Fin 128 → EReal)
    (W2 : Fin 128 → Fin 128 → EReal) (b2 : Fin 128 → EReal) (j : Fin 128) : EReal :=
  ((∑ k : Fin 128, relu (pd * w1 k + b1 k) * W2 k j) + b2 j + tv) * embRow a E j

def msgAt (x e : EReal) : EReal := relu (x + e)

def ginHidden (x a : Fin 128 → EReal) (W1 : Fin 128 → Fin 128 → EReal) (b1 : Fin 128 → EReal) (k : Fin 128) : EReal :=
  relu ((∑ k' : Fin 128, (x k' + a k') * W1 k' k) + b1 k)

def ginPre (x a : Fin 128 → EReal) (W1 : Fin 128 → Fin 128 → EReal) (b1 : Fin 128 → EReal)
    (W2 : Fin 128 → Fin 128 → EReal) (b2 : Fin 128 → EReal) (j : Fin 128) : EReal :=
  (∑ k : Fin 128, ginHidden x a W1 b1 k * W2 k j) + b2 j

def ginRowAct (x a : Fin 128 → EReal) (W1 : Fin 128 → Fin 128 → EReal) (b1 : Fin 128 → EReal)
    (W2 : Fin 128 → Fin 128 → EReal) (b2 : Fin 128 → EReal) (j : Fin 128) : EReal :=
  relu (ginPre x a W1 b1 W2 b2 j) + x j

def ginRowLin (x a : Fin 128 → EReal) (W1 : Fin 128 → Fin 128 → EReal) (b1 : Fin 128 → EReal)
    (W2 : Fin 128 → Fin 128 → EReal) (b2 : Fin 128 → EReal) (j : Fin 128) : EReal :=
  ginPre x a W1 b1 W2 b2 j + x j

def outFeat (hr hc ea : Fin 128 → EReal) (k : Fin 256) : EReal :=
  if h : k.val < 128 then hr ⟨k.val, h⟩ * hc ⟨k.val, h⟩ else ea ⟨k.val - 128, by omega⟩

def outH1 (hr hc ea : Fin 128 → EReal) (W1 : Fin 256 → Fin 128 → EReal) (b1 : Fin 128 → EReal) (k : Fin 128) : EReal :=
  relu ((∑ k' : Fin 256, outFeat hr hc ea k' * W1 k' k) + b1 k)

def outH2 (hr hc ea : Fin 128 → EReal) (W1 : Fin 256 → Fin 128 → EReal) (b1 : Fin 128 → EReal)
    (W2 : Fin 128 → Fin 64 → EReal) (b2 : Fin 64 → EReal) (k : Fin 64) : EReal :=
  relu ((∑ k' : Fin 128, outH1 hr hc ea W1 b1 k' * W2 k' k) + b2 k)

def outRaw (hr hc ea : Fin 128 → EReal) (W1 : Fin 256 → Fin 128 → EReal) (b1 : Fin 128 → EReal)
    (W2 : Fin 128 → Fin 64 → EReal) (b2 : Fin 64 → EReal) (W3 : Fin 64 → EReal) (b3 : EReal) : EReal :=
  (∑ k : Fin 64, outH2 hr hc ea W1 b1 W2 b2 k * W3 k) + b3

def lossOf (half raw sd z : EReal) : EReal :=
  half * ((Ideal.div raw sd * sd + z) * (Ideal.div raw sd * sd + z))

abbrev A (r c : Nat) := (⟨2, ![r, c]⟩ : Shape).Idx → EReal

abbrev I (r c : Nat) := (⟨2, ![r, c]⟩ : Shape).Idx → BitVec 32

abbrev row {n : Nat} (X : A n 128) (i : Fin n) : Fin 128 → EReal := fun k => X (ix2 i k)

abbrev tab {r c : Nat} (X : A r c) : Fin r → Fin c → EReal := fun a b => X (ix2 a b)

abbrev row1 {c : Nat} (X : A 1 c) : Fin c → EReal := fun k => X (ix2 (0 : Fin 1) k)

abbrev col1 {r : Nat} (X : A r 1) : Fin r → EReal := fun k => X (ix2 k (0 : Fin 1))

def nodeG (n : Nat) (atom : I n 1) (E : A 100 128) : A n 128 :=
  fun i => embRow (atom (ix2 (⟨(i 0).val, (i 0).isLt⟩ : Fin n) (0 : Fin 1))) (tab E) ⟨(i 1).val, (i 1).isLt⟩

def edgeG (n : Nat) (pd tv : A n 1) (et : I n 1) (E : A 100 128) (w1 b1 : A 1 128) (W2 : A 128 128) (b2 : A 1 128) : A n 128 :=
  fun i => edgeRow (pd (ix2 (⟨(i 0).val, (i 0).isLt⟩ : Fin n) (0 : Fin 1))) (tv (ix2 (⟨(i 0).val, (i 0).isLt⟩ : Fin n) (0 : Fin 1)))
    (et (ix2 (⟨(i 0).val, (i 0).isLt⟩ : Fin n) (0 : Fin 1))) (tab E) (row1 w1) (row1 b1) (tab W2) (row1 b2) ⟨(i 1).val, (i 1).isLt⟩

def msgG (n : Nat) (x e : A n 128) : A n 128 := fun i => msgAt (x i) (e i)

def ginActG (n : Nat) (x a : A n 128) (W1 : A 128 128) (b1 : A 1 128) (W2 : A 128 128) (b2 : A 1 128) : A n 128 :=
  fun i => ginRowAct (row x ⟨(i 0).val, (i 0).isLt⟩) (row a ⟨(i 0).val, (i 0).isLt⟩) (tab W1) (row1 b1) (tab W2) (row1 b2) ⟨(i 1).val, (i 1).isLt⟩

def ginLinG (n : Nat) (x a : A n 128) (W1 : A 128 128) (b1 : A 1 128) (W2 : A 128 128) (b2 : A 1 128) : A n 128 :=
  fun i => ginRowLin (row x ⟨(i 0).val, (i 0).isLt⟩) (row a ⟨(i 0).val, (i 0).isLt⟩) (tab W1) (row1 b1) (tab W2) (row1 b2) ⟨(i 1).val, (i 1).isLt⟩

def lossG (half : EReal) (n : Nat) (hr hc ea : A n 128) (sd z : A n 1) (W1 : A 256 128) (b1 : A 1 128) (W2 : A 128 64) (b2 : A 1 64)
    (W3 : A 64 1) (b3 : A 1 1) : A n 1 :=
  fun i => lossOf half
    (outRaw (row hr ⟨(i 0).val, (i 0).isLt⟩) (row hc ⟨(i 0).val, (i 0).isLt⟩) (row ea ⟨(i 0).val, (i 0).isLt⟩) (tab W1) (row1 b1) (tab W2) (row1 b2)
      (col1 W3) (b3 (ix2 (0 : Fin 1) (0 : Fin 1))))
    (sd (ix2 (⟨(i 0).val, (i 0).isLt⟩ : Fin n) (0 : Fin 1))) (z (ix2 (⟨(i 0).val, (i 0).isLt⟩ : Fin n) (0 : Fin 1)))

end Cert.Spec

end
-- ==== Proof.LibDot.lean ====
import Idealize.ShloMosaic.Lib.StackMember
import Idealize.ShloMosaic.Lib.StableHlo.Predicate
import Idealize.ShloMosaic.Lib.IdealHost
import Idealize.ShloMosaic.Lib.ValueLayout

noncomputable section

open scoped BigOperators

namespace Cert.LibDot

open Idealize.ShloMosaic Idealize.ShloMosaic.ValueIdx

variable {A K B : Nat} {φ₁ φ₂ : FTy} (d : DotDims ⟨2, ![A, K]⟩ ⟨2, ![K, B]⟩ ⟨2, ![A, B]⟩)

-- A record with the plain product's dimension numbers is the plain product: its entry at (r, q) sums over the contracted coordinate.
theorem dotGeneral_apply (hd : d = DotDims.plain A K B) (prec : Option ContractPrecision)
    (L : FVec Ideal ⟨2, ![A, K]⟩ φ₁) (R : FVec Ideal ⟨2, ![K, B]⟩ φ₂) (r : Fin A) (q : Fin B) :
    Host.dotGeneral d prec L R (ix2 r q) = ∑ k : Fin K, L (ix2 r k) * R (ix2 k q) :=
  hd ▸ StackMember.dotGeneral_plain_apply prec L R r q

-- Accumulated into zero, the product is the same sum.
theorem matmul_apply (hd : d = DotDims.plain A K B) (prec : Option ContractPrecision)
    (L : FVec Ideal ⟨2, ![A, K]⟩ φ₁) (R : FVec Ideal ⟨2, ![K, B]⟩ φ₂) (r : Fin A) (q : Fin B) :
    matmul d prec L R (constant (F := Ideal) _ .f32 0x00000000#32) (ix2 r q) = ∑ k : Fin K, L (ix2 r k) * R (ix2 k q) :=
  (congrFun (matmul_zero_eq_dotGeneral d prec L R) _).trans (dotGeneral_apply d hd prec L R r q)

variable {α : Type} {n m : Nat}

theorem val_eq_ite (p : Fin n) : p.val = if n = 1 then 0 else p.val := by
  have := p.isLt; split <;> omega

-- A vector laid as a one-row array and then down n rows reads, at (p, q), its entry q.
theorem bias_apply (h1 : (⟨1, ![m]⟩ : Shape).BroadcastsInDim ⟨2, ![1, m]⟩ ![1])
    (h2 : (⟨2, ![1, m]⟩ : Shape).BroadcastsInDim ⟨2, ![n, m]⟩ ![0, 1]) (b : (⟨1, ![m]⟩ : Shape).Idx → α) (p : Fin n) (q : Fin m) :
    broadcastInDim ⟨2, ![n, m]⟩ ![0, 1] h2 (broadcastInDim ⟨2, ![1, m]⟩ ![1] h1 b) (ix2 p q) = b (ix1 q) :=
  (broadcastInDim_oneRow_apply h2 _ p q).trans (broadcastInDim_apply ![1] h1 b _ (ix1 q) fun a => by
    match a with | ⟨0, _⟩ => exact val_eq_ite q)

-- A one-column array laid along m columns reads, at (p, q), its row p.
theorem col_apply (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p (0 : Fin 1)) :=
  broadcastInDim_apply ![0, 1] h v (ix2 p q) (ix2 p (0 : Fin 1)) fun a => by
    match a with
    | ⟨0, _⟩ => exact val_eq_ite p
    | ⟨1, _⟩ => rfl

-- A vector as a one-column array reads, at row p, its entry p.
theorem vec_col_apply (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) :=
  broadcastInDim_apply ![0] h v _ (ix1 p) fun a => by
    match a with | ⟨0, _⟩ => exact val_eq_ite p

-- A column laid along b columns reads, at (p, c), its row p.
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) :=
  broadcastTo_apply v h (ix2 p c) (ix2 p (0 : Fin 1)) fun ax => by
    match ax with
    | ⟨0, _⟩ => exact val_eq_ite p
    | ⟨1, _⟩ => rfl

-- Two 128-column arrays side by side read, at column k, the first one below 128 and the second one from 128 on.
theorem concat_apply (x y : (⟨2, ![n, 128]⟩ : Shape).Idx → α)
    (h : Shape.Concatenates [⟨2, ![n, 128]⟩, ⟨2, ![n, 128]⟩] ⟨2, ![n, 256]⟩ 1) (r : Fin n) (k : Fin 256) :
    concatenate ⟨2, ![n, 256]⟩ 1 [⟨⟨2, ![n, 128]⟩, x⟩, ⟨⟨2, ![n, 128]⟩, y⟩] h (ix2 r k)
      = if hk : k.val < 128 then x (ix2 r ⟨k.val, hk⟩) else y (ix2 r ⟨k.val - 128, by have := k.isLt; omega⟩) := by
  have := k.isLt
  split
  · next hk =>
    exact concatenate_pair_apply_left (1 : Fin 2) x y h (ix2 r k) rfl (ix2 r (⟨k.val, hk⟩ : Fin 128)) fun b => by
      match b with
      | ⟨0, _⟩ => rfl
      | ⟨1, _⟩ => rfl
  · next hk =>
    refine concatenate_pair_apply_right (1 : Fin 2) x y h (ix2 r k) rfl rfl (ix2 r (⟨k.val - 128, by omega⟩ : Fin 128))
      (fun b hb => ?_) (by show (k.val - 128) + 128 = k.val; omega)
    match b with
    | ⟨0, _⟩ => rfl
    | ⟨1, _⟩ => exact absurd rfl hb

-- A broadcast scalar constant reads, everywhere, the value of its word.
theorem splat_apply {s : Shape} (h : (⟨0, ![]⟩ : Shape).BroadcastsInDim s ![]) (b : BitVec FTy.f32.bits) (j : s.Idx) :
    broadcastInDim s ![] h (constant (F := Ideal) ⟨0, ![]⟩ .f32 b) j = Ideal.ofBits .f32 b :=
  broadcastInDim_scalar_apply h _ j

end Cert.LibDot

end
-- ==== Proof.LibBlock.lean ====
import Idealize.ShloMosaic.Lib.Pipeline.Value

namespace Cert.LibBlock

open Idealize.ShloMosaic Idealize.ShloMosaic.Pipeline

variable {sig : RefSig}

theorem hz : (![0, 0] : Fin 2 → Nat) = fun _ => 0 := funext (Fin.forall_fin_two.mpr ⟨rfl, rfl⟩)

theorem idx_ext2 {d : Fin 2 → Nat} {i j : (⟨2, d⟩ : Shape).Idx} (h0 : (i 0).val = (j 0).val)
    (h1 : (i 1).val = (j 1).val) : i = j :=
  funext (Fin.forall_fin_two.mpr ⟨Fin.ext h0, Fin.ext h1⟩)

section Whole

variable {κ : Kind} {sp : Space} {s : Shape} {e : EltTy} {m : Memref sig κ sp s e}

-- A whole array's indices are its shape's, so a rectangle's element sits where the rectangle puts it.
theorem emb_slice (h : m.IsWhole) (r : Rect s) (y : r.shape.Idx) {a : Fin (m.view.slice r).ty.shape.rank}
    {a' : Fin s.rank} (ha : a.val = a'.val) : ((m.view.slice r).emb y a : Nat) = r.emb y a' := by
  obtain ⟨b, rfl, rfl, rfl, h⟩ := h
  cases h
  obtain rfl := Fin.ext ha
  rfl

-- Rectangles that cover the shape cover the whole array.
theorem cover_slices (h : m.IsWhole) {N : Nat} (r : Fin N → Rect s) (hc : ∀ j : s.Idx, ∃ t, j ∈ (r t).set)
    (i : m.view.ty.Idx) : ∃ t, i ∈ (m.view.slice (r t)).set := by
  obtain ⟨b, rfl, rfl, rfl, h⟩ := h
  cases h
  obtain ⟨t, ht⟩ := hc i
  exact ⟨t, (View.set_slice_whole b (r t)).symm ▸ ht⟩

end Whole

variable {G : Grid} (w : Window sig G) (hw : w.arr.IsWhole) (t : Fin G.N)
include hw

-- Block `t` starts at its index times the block size on every axis.
theorem emb_val (y : (w.xblock (G.coords t)).Idx) {a : Fin (w.blk t).view.ty.shape.rank} {a' : Fin w.shape.rank}
    (ha : a.val = a'.val) : ((w.blk t).view.emb y a : Nat) = w.index t a' * w.size a' + y a' :=
  (emb_slice hw (w.rect t) y ha).trans (w.rect_emb_val t y a')

theorem emb_val_zero (y : (w.xblock (G.coords t)).Idx) {a : Fin (w.blk t).view.ty.shape.rank} {a' : Fin w.shape.rank}
    (ha : a.val = a'.val) (h : w.index t a' = 0) : ((w.blk t).view.emb y a : Nat) = y a' :=
  (emb_slice hw (w.rect t) y ha).trans (w.rect_emb_val_of_index_zero t a' h y)

-- Two blocks with one index and one size on an axis put equal coordinates at one position.
theorem emb_val_eq {w' : Window sig G} (hw' : w'.arr.IsWhole) (y : (w.xblock (G.coords t)).Idx)
    (y' : (w'.xblock (G.coords t)).Idx) {a : Fin (w.blk t).view.ty.shape.rank} {a' : Fin w.shape.rank}
    {b : Fin (w'.blk t).view.ty.shape.rank} {b' : Fin w'.shape.rank} (ha : a.val = a'.val) (hb : b.val = b'.val)
    (hi : w.index t a' = w'.index t b') (hs : w.size a' = w'.size b') (hy : (y a').val = (y' b').val) :
    ((w.blk t).view.emb y a : Nat) = (w'.blk t).view.emb y' b := by
  rw [emb_val w hw t y ha, emb_val w' hw' t y' hb, hi, hs, hy]

-- Slabs along axis `a₀` (block `t` at index `t` there, spanning the other axes) cover the array: coordinate `x` lies in slab `x / size`.
theorem cover_axis (a₀ : Fin w.shape.rank) (hx : ∀ t a, w.xsize (G.coords t) a = w.size a)
    (hi : ∀ (t : Fin G.N) a, w.index t a = if a = a₀ then t.val else 0)
    (hs : ∀ a, a ≠ a₀ → w.size a = w.shape.size a) (hpos : 0 < w.size a₀)
    (hN : w.shape.size a₀ ≤ w.size a₀ * G.N) (i : w.arr.view.ty.Idx) : ∃ t : Fin G.N, i ∈ (w.blk t).view.set := by
  refine cover_slices hw w.rect (fun j => ?_) i
  have hlt : (j a₀).val / w.size a₀ < G.N := Nat.div_lt_of_lt_mul (Nat.lt_of_lt_of_le (j a₀).isLt hN)
  refine ⟨⟨_, hlt⟩, Rect.mem_set_unit.mpr fun a => ?_⟩
  show w.index ⟨_, hlt⟩ a * w.size a ≤ (j a : Nat) ∧ (j a : Nat) < w.index ⟨_, hlt⟩ a * w.size a + w.xsize (G.coords ⟨_, hlt⟩) a
  rw [hx, hi]
  by_cases ha : a = a₀
  · subst ha
    rw [if_pos rfl]
    exact ⟨Nat.div_mul_le_self _ _, Nat.lt_div_mul_add hpos⟩
  · rw [if_neg ha, Nat.zero_mul, Nat.zero_add, hs a ha]
    exact ⟨Nat.zero_le _, (j a).isLt⟩

end Cert.LibBlock
-- ==== Proof.Reg1.lean ====
import proofs.«404108_j19344532701343_1_alg».proof.Proof.Gen.KernelIdeal.Frame
import proofs.«404108_j19344532701343_1_alg».proof.Proof.Spec
import proofs.«404108_j19344532701343_1_alg».proof.Proof.LibDot
import proofs.«404108_j19344532701343_1_alg».proof.Proof.LibBlock

noncomputable section

open scoped BigOperators

namespace Cert.KernelIdeal.Reg1

open Cert.KernelIdeal Cert.KernelIdeal.Gen Cert.LibBlock Idealize.ShloMosaic Idealize.ShloMosaic.ValueIdx
open Idealize.ShloMosaic.Pipeline (Dat)
open Idealize.ShloMosaic.TcCoe

theorem hot_eq (a : BitVec 32) (k : Fin 100) :
    Scalar.select (IntOp.cmpi .eq (BitVec.ofNat 32 k.val) a)
        (Scalar.ofBits (F := Ideal) .f32 0x3F800000#32) (Scalar.ofBits (F := Ideal) .f32 0x00000000#32)
      = Cert.Spec.hot a k := by
  show Scalar.select _ (Ideal.ofBits .f32 0x3F800000#32) (Ideal.ofBits .f32 0x00000000#32) = _
  unfold Scalar.select Cert.Spec.hot
  rw [Ideal.ofBits_one_f32, Ideal.ofBits_zero_f32]
  exact if_congr StableHlo.Predicate.cmpi_eq_iff rfl rfl

-- The product of the one-hot rows with the table is, entry by entry, the specification's one-hot sum.
theorem pay_eq (x0 : Vec Ideal S2000x1 .i32) (x1 : Vec Ideal S100x128 .f32) :
    Gen.k1_pay1 (F := Ideal) x0 x1 = Cert.Spec.nodeG 2000 x0 x1 := by
  funext j
  obtain ⟨r, q, rfl⟩ : ∃ (r : Fin 2000) (q : Fin 128), j = ix2 r q := ⟨j 0, j 1, eq_ix2 j⟩
  unfold Gen.k1_pay1
  refine (LibDot.matmul_apply dot_S2000x100_S100x128_S2000x128_1_0_0_1_n_n rfl none _ _ r q).trans ?_
  unfold Cert.Spec.nodeG Cert.Spec.embRow
  refine Finset.sum_congr rfl fun k _ => congrArg₂ (· * ·) (Eq.trans ?_ (hot_eq (x0 (ix2 r (0 : Fin 1))) k)) rfl
  show Scalar.select (IntOp.cmpi .eq (iota .tc S2000x100 32 [1] iota_S2000x100_d1_w32 (ix2 r k))
      (broadcastTo S2000x100 (shapeCast S2000x1 x0 shapeCasts_S2000x1_S2000x1) broadcasts_S2000x1_S2000x100 (ix2 r k))) _ _ = _
  rw [iota_single_apply .tc S2000x100 32 1 iota_S2000x100_d1_w32 (ix2 r k), shapeCast_self, LibDot.broadcastTo_a1_ab_apply]
  rfl

section Blocks

variable (V : (c : Dev nD) → (b : Ref sig .tc) → Buf (Elt Ideal) ((c : Thread nD τ).loc b)) (c : Dev nD)

theorem idx_facts : ∀ (t : Fin cfg1.N) (a : Fin 2), win1_0.index t a = win1_2.index t a ∧ win1_1.index t a = 0
    ∧ win1_2.index t a = if a = 0 then t.val else 0 :=
  (by decide +kernel : ∀ t : Fin grid1.N, _)

-- Row 2000 t + r of the lookup is its row r on the t-th block of 2000 index words.
theorem flushed_eq (t : Fin cfg1.N) :
    (Gen.dat1 (F := Ideal) V c).flushed 2 t
      = ((cfg1.win 2).blk t).view.read (Elt Ideal) (Cert.Spec.nodeG 20000 (V c main_v79) (V c main_arg7)) := by
  show (cfg1.win 2).cut (grid1.coords t) ((Gen.dat1 V c).after 2 t) = _
  rw [Gen.after1_2]
  unfold Gen.out1_2
  rw [View.canon_unit_zero hz]
  simp only [View.ld_unit_zero (S := S2000x1) hz, View.ld_unit_zero (S := S100x128) hz]
  refine (pay_eq _ _).trans ?_
  funext j
  show Cert.Spec.nodeG 2000 (Gen.iblk1 V c 0 t) (Gen.iblk1 V c 1 t) j
    = Cert.Spec.nodeG 20000 (V c main_v79) (V c main_arg7) (((cfg1.win 2).blk t).view.emb j)
  obtain ⟨e0, e2, -⟩ := idx_facts t 0
  obtain ⟨e1, e3, e5⟩ := idx_facts t 1
  unfold Cert.Spec.nodeG Cert.Spec.embRow
  exact Finset.sum_congr rfl fun k _ => congrArg₂ (· * ·)
    (congrArg (fun a => Cert.Spec.hot a k) (congrArg (V c main_v79) (idx_ext2
      (emb_val_eq win1_0 (Memref.isWhole_whole _) t (Memref.isWhole_whole _) (ix2 (⟨(j 0).val, (j 0).isLt⟩ : Fin 2000) (0 : Fin 1)) j rfl rfl
        e0 rfl rfl)
      (emb_val_zero win1_0 (Memref.isWhole_whole _) t _ rfl (e1.trans e5)))))
    (congrArg (V c main_arg7) (idx_ext2 (emb_val_zero win1_1 (Memref.isWhole_whole _) t _ rfl e2)
      ((emb_val_zero win1_1 (Memref.isWhole_whole _) t _ rfl e3).trans (emb_val_zero win1_2 (Memref.isWhole_whole _) t j rfl e5).symm)))

theorem arr : (Gen.dat1 (F := Ideal) V c).arrAt 2 cfg1.N = Cert.Spec.nodeG 20000 (V c main_v79) (V c main_arg7) :=
  (Gen.dat1 V c).arrAt_eq_of_cover 2 _ (fun t _ => flushed_eq V c t) fun i =>
    (cover_axis win1_2 (Memref.isWhole_whole _) 0 (fun _ _ => rfl) (fun t a => (idx_facts t a).2.2) (by decide) (by decide)
      (by decide) i).imp fun t h => ⟨Gen.flush1_2 t, h⟩

end Blocks

end Cert.KernelIdeal.Reg1

end
-- ==== Proof.RefLookup.lean ====
import proofs.«404108_j19344532701343_1_alg».proof.ReferenceIdeal
import proofs.«404108_j19344532701343_1_alg».proof.Proof.Spec
import proofs.«404108_j19344532701343_1_alg».proof.Proof.LibDot

noncomputable section

open scoped BigOperators

namespace Cert.ReferenceIdeal.RefLookup

open Cert.ReferenceIdeal Cert.ReferenceIdeal.Facts₀ Idealize.ShloMosaic Idealize.ShloMosaic.ValueIdx

abbrev rowDims (n : Nat) (wf : GatherDims.WF ⟨2, ![100, 128]⟩ ⟨2, ![n, 1]⟩ ⟨2, ![n, 128]⟩ [1] [0] [] [0] [] 1 ![1, 128]) :
    GatherDims ⟨2, ![100, 128]⟩ ⟨2, ![n, 1]⟩ ⟨2, ![n, 128]⟩ where
  offsetDims := [1]
  collapsedSliceDims := [0]
  operandBatchingDims := []
  startIndicesBatchingDims := []
  startIndexMap := [0]
  indexVectorDim := 1
  sliceSizes := ![1, 128]
  wf := wf

theorem gather_row {α : Type} {n w : Nat}
    (wf : GatherDims.WF ⟨2, ![100, 128]⟩ ⟨2, ![n, 1]⟩ ⟨2, ![n, 128]⟩ [1] [0] [] [0] [] 1 ![1, 128])
    (x : (⟨2, ![100, 128]⟩ : Shape).Idx → α) (idx : IVec ⟨2, ![n, 1]⟩ w) (p : Fin n) (q : Fin 128) :
    Host.gather (rowDims n wf) x idx (ix2 p q)
      = x (ix2 (⟨min (idx (ix2 p (0 : Fin 1))).toInt.toNat 99, by omega⟩ : Fin 100) q) := by
  unfold Host.gather
  congr 1
  funext a
  refine Fin.ext ?_
  match a with
  | ⟨0, _⟩ =>
    show (rowDims n wf).start (ix2 p q) idx 0 + (rowDims n wf).batchCoord (ix2 p q) 0 + (rowDims n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims n wf).startIndexMap from List.mem_singleton.mpr rfl)]
    have hsi : (rowDims n wf).siIdx (ix2 p q) ⟨List.idxOf (0 : Fin 2) (rowDims n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims n wf).start (ix2 p q) idx 1 + (rowDims n wf).batchCoord (ix2 p q) 1 + (rowDims n wf).offCoord (ix2 p q) 1 = q.val
    rw [GatherDims.batchCoord_eq_zero _ _ _ List.not_mem_nil]
    unfold GatherDims.start
    rw [dif_neg (show ¬ (1 : Fin 2) ∈ (rowDims n wf).startIndexMap from (by decide : ¬ (1 : Fin 2) ∈ ([0] : List (Fin 2))))]
    unfold GatherDims.offCoord
    rw [dif_pos (show (1 : Fin 2) ∈ (rowDims n wf).sKept from (GatherDims.mem_sKept _ _).mpr
      ⟨(by decide : ¬ (1 : Fin 2) ∈ ([0] : List (Fin 2))), List.not_mem_nil⟩)]
    rw [Nat.zero_add]
    rfl

theorem embRow_eq (a : BitVec 32) (h : a.toNat < 100) (E : Fin 100 → Fin 128 → EReal) (j : Fin 128) :
    Cert.Spec.embRow a E j = E ⟨a.toNat, h⟩ j := by
  unfold Cert.Spec.embRow
  rw [Fintype.sum_eq_single (⟨a.toNat, h⟩ : Fin 100)]
  · unfold Cert.Spec.hot
    rw [if_pos (BitVec.eq_of_toNat_eq (by rw [BitVec.toNat_ofNat]; exact Nat.mod_eq_of_lt a.isLt))]
    exact one_mul _
  · intro k hk
    unfold Cert.Spec.hot
    rw [if_neg, zero_mul]
    intro e
    apply hk
    apply Fin.ext
    have e' := congrArg BitVec.toNat e
    rw [BitVec.toNat_ofNat] at e'
    have hk' : k.val < 100 := k.isLt
    show k.val = a.toNat
    omega

theorem wrap_apply {n : Nat} (hb0 : (⟨0, ![]⟩ : Shape).BroadcastsInDim ⟨1, ![n]⟩ ![])
    (a : IVec ⟨1, ![n]⟩ 32) (p : Fin n) (h : (a (ix1 p)).toNat < 100) :
    select (cmpi .slt a (broadcastInDim ⟨1, ![n]⟩ ![] hb0 (constantI ⟨0, ![]⟩ 32 0#32)))
        (addi a (broadcastInDim ⟨1, ![n]⟩ ![] hb0 (constantI ⟨0, ![]⟩ 32 100#32))) a (ix1 p)
      = a (ix1 p) := by
  show Scalar.select (IntOp.cmpi .slt (a (ix1 p)) 0#32) _ (a (ix1 p)) = _
  have hne : ¬ IntOp.cmpi .slt (a (ix1 p)) 0#32 = 1#1 := fun e =>
    Nat.not_lt_zero _ ((StableHlo.Predicate.slt_iff_toNat (by omega) (by decide)).mp e)
  rw [eq_zero_of_ne_one hne, select_zero]

theorem lookup_core {n : Nat}
    (wf : GatherDims.WF ⟨2, ![100, 128]⟩ ⟨2, ![n, 1]⟩ ⟨2, ![n, 128]⟩ [1] [0] [] [0] [] 1 ![1, 128])
    (hb1 : (⟨1, ![n]⟩ : Shape).BroadcastsInDim ⟨2, ![n, 1]⟩ ![0])
    (hb0 : (⟨0, ![]⟩ : Shape).BroadcastsInDim ⟨1, ![n]⟩ ![])
    (E : FVec Ideal ⟨2, ![100, 128]⟩ .f32) (a : IVec ⟨1, ![n]⟩ 32) (ha : ∀ i, (a i).toNat < 100) :
    Host.gather (rowDims n wf) E
        (broadcastInDim ⟨2, ![n, 1]⟩ ![0] hb1
          (select (cmpi .slt a (broadcastInDim ⟨1, ![n]⟩ ![] hb0 (constantI ⟨0, ![]⟩ 32 0#32)))
                  (addi a (broadcastInDim ⟨1, ![n]⟩ ![] hb0 (constantI ⟨0, ![]⟩ 32 100#32))) a))
      = fun i => Cert.Spec.embRow (a (ix1 ⟨(i 0).val, (i 0).isLt⟩)) (Cert.Spec.tab E) ⟨(i 1).val, (i 1).isLt⟩ := by
  funext i
  obtain ⟨p, q, rfl⟩ : ∃ (p : Fin n) (q : Fin 128), i = ix2 p q := ⟨i 0, i 1, eq_ix2 i⟩
  refine (gather_row wf E _ p q).trans ?_
  show _ = Cert.Spec.embRow (a (ix1 p)) (Cert.Spec.tab E) q
  rw [embRow_eq _ (ha (ix1 p))]
  refine congrArg (fun r : Fin 100 => E (ix2 r q)) (Fin.ext ?_)
  have hp := ha (ix1 p)
  show min (BitVec.toInt _).toNat 99 = (a (ix1 p)).toNat
  rw [LibDot.vec_col_apply hb1, wrap_apply hb0 a p hp, StableHlo.Predicate.toInt_eq_toNat_of_lt (by omega), Int.toNat_natCast]
  omega

section Printed

variable [Facts₀]

theorem node_lookup (E : FVec Ideal S100x128 .f32) (a : IVec S20000 32) (ha : ∀ i, (a i).toNat < 100) :
    Host.gather gather_S100x128_S20000x1_S20000x128_1_0_n_n_0_1_1128 E
        (broadcastInDim S20000x1 ![0] bcast_S20000_S20000x1_0
          (select (cmpi .slt a (broadcastInDim S20000 ![] bcast_S_S20000 (constantI S_ 32 0#32)))
                  (addi a (broadcastInDim S20000 ![] bcast_S_S20000 (constantI S_ 32 100#32))) a))
      = fun i => Cert.Spec.embRow (a (ix1 ⟨(i 0).val, (i 0).isLt⟩)) (Cert.Spec.tab E) ⟨(i 1).val, (i 1).isLt⟩ :=
  lookup_core gather_S100x128_S20000x1_S20000x128_1_0_n_n_0_1_1128_wf bcast_S20000_S20000x1_0 bcast_S_S20000 E a ha

theorem edge_lookup (E : FVec Ideal S100x128 .f32) (a : IVec S320000 32) (ha : ∀ i, (a i).toNat < 100) :
    Host.gather gather_S100x128_S320000x1_S320000x128_1_0_n_n_0_1_1128 E
        (broadcastInDim S320000x1 ![0] bcast_S320000_S320000x1_0
          (select (cmpi .slt a (broadcastInDim S320000 ![] bcast_S_S320000 (constantI S_ 32 0#32)))
                  (addi a (broadcastInDim S320000 ![] bcast_S_S320000 (constantI S_ 32 100#32))) a))
      = fun i => Cert.Spec.embRow (a (ix1 ⟨(i 0).val, (i 0).isLt⟩)) (Cert.Spec.tab E) ⟨(i 1).val, (i 1).isLt⟩ :=
  lookup_core gather_S100x128_S320000x1_S320000x128_1_0_n_n_0_1_1128_wf bcast_S320000_S320000x1_0 bcast_S_S320000 E a ha

end Printed

end Cert.ReferenceIdeal.RefLookup

end
-- ==== Proof.LibReshape.lean ====
import Idealize.ShloMosaic.Lib.Pipeline.Value
import Idealize.ShloMosaic.Lib.ValueIdx
import Idealize.ShloMosaic.Lib.ValueLayout

namespace Cert.LibReshape

open Idealize.ShloMosaic Idealize.ShloMosaic.ValueIdx

variable {α : Type} {a : ℕ}

/-- Entry `i` of a vector and entry `(i, 0)` of its one-column matrix sit at the same row-major position. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem shapeCast_a1_a_apply (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector as one column: row `r` holds the vector's entry `r`. -/
theorem col_of_vec_fun (x : (⟨1, ![a]⟩ : Shape).Idx → α) (h : (⟨1, ![a]⟩ : Shape).ShapeCasts ⟨2, ![a, 1]⟩) :
    shapeCast ⟨2, ![a, 1]⟩ x h = fun i => x (ix1 (⟨(i 0).val, (i 0).isLt⟩ : Fin a)) :=
  funext fun i => (congrArg (shapeCast ⟨2, ![a, 1]⟩ x h) (eq_ix2 i)).trans (shapeCast_a_a1_apply x h (i 0) (i 1))

/-- A vector as one row: column `k` holds the vector's entry `k`. -/
theorem row_of_vec_fun (x : (⟨1, ![a]⟩ : Shape).Idx → α) (h : (⟨1, ![a]⟩ : Shape).ShapeCasts ⟨2, ![1, a]⟩) :
    shapeCast ⟨2, ![1, a]⟩ x h = fun i => x (ix1 (⟨(i 1).val, (i 1).isLt⟩ : Fin a)) :=
  funext fun i => (congrArg (shapeCast ⟨2, ![1, a]⟩ x h) (eq_ix2 i)).trans (shapeCast_a_1a_apply x h (i 0) (i 1))

/-- One column as a vector: entry `r` is the matrix's row `r`. -/
theorem vec_of_col_fun (x : (⟨2, ![a, 1]⟩ : Shape).Idx → α) (h : (⟨2, ![a, 1]⟩ : Shape).ShapeCasts ⟨1, ![a]⟩) :
    shapeCast ⟨1, ![a]⟩ x h = fun i => x (ix2 (⟨(i 0).val, (i 0).isLt⟩ : Fin a) (0 : Fin 1)) :=
  funext fun i => (congrArg (shapeCast ⟨1, ![a]⟩ x h) (eq_ix1 i)).trans (shapeCast_a1_a_apply x h (i 0))

end Cert.LibReshape
-- ==== Proof.SimNode.lean ====
import proofs.«404108_j19344532701343_1_alg».proof.Proof.Gen.KernelIdeal.Frame
import proofs.«404108_j19344532701343_1_alg».proof.Proof.KStep
import proofs.«404108_j19344532701343_1_alg».proof.Proof.KCarry
import proofs.«404108_j19344532701343_1_alg».proof.Proof.Reg1
import proofs.«404108_j19344532701343_1_alg».proof.Proof.RefRun
import proofs.«404108_j19344532701343_1_alg».proof.Proof.RStep
import proofs.«404108_j19344532701343_1_alg».proof.Proof.RefLookup
import proofs.«404108_j19344532701343_1_alg».proof.Proof.LibReshape
import proofs.«404108_j19344532701343_1_alg».proof.Proof.Spec
import Idealize.ShloMosaic.Lib.Pipeline.Value
import Idealize.ShloMosaic.Lib.ValueIdx

set_option maxRecDepth 16384

noncomputable section

namespace Cert.SimNode

open Idealize.ShloMosaic Idealize.ShloMosaic.TcCoe Idealize.SL.Sem Idealize.ShloMosaic.StableHlo
open Idealize.ShloMosaic.ValueIdx

section Kernel

variable {F : FTy → Type} [FloatOps F]
variable (m : (ℓ : Loc Cert.KernelIdeal.nD Cert.KernelIdeal.τ Cert.KernelIdeal.sig) → Buf (Elt F) ℓ)
  (ρ : Dev Cert.KernelIdeal.nD → PrngReg) (c : Dev Cert.KernelIdeal.nD)

theorem k_v79 :
    Cert.KernelIdeal.Gen.W5 m ρ c (Proc.devRef .tc Cert.KernelIdeal.main_v79)
      = shapeCast Cert.KernelIdeal.S20000x1 (Cert.KernelIdeal.Gen.W4 m ρ c (Proc.devRef .tc Cert.KernelIdeal.main_arg1))
          Cert.KernelIdeal.Facts₀.shapeCasts_S20000_S20000x1 := by
  show after Cert.KernelIdeal.Gen.hostOps1 (Cert.KernelIdeal.Gen.W4 m ρ c) (Proc.devRef .tc Cert.KernelIdeal.main_v79) = _
  after_results_simp <;> rfl

end Kernel

section Reference

variable {F : FTy → Type} [FloatOps F]
variable (m' : (ℓ : Loc Cert.ReferenceIdeal.nD Cert.ReferenceIdeal.τ Cert.ReferenceIdeal.sig) → Buf (Elt F) ℓ)
  (c : Dev Cert.ReferenceIdeal.nD)

theorem r_v56 :
    Cert.ReferenceIdeal.RefRun.R2 m' c (Proc.devRef .tc Cert.ReferenceIdeal.main_v56)
      = Host.gather Cert.ReferenceIdeal.gather_S100x128_S20000x1_S20000x128_1_0_n_n_0_1_1128
          (Cert.ReferenceIdeal.RefRun.R1 m' c (Proc.devRef .tc Cert.ReferenceIdeal.main_arg7))
          (broadcastInDim Cert.ReferenceIdeal.S20000x1 ![0] Cert.ReferenceIdeal.Facts₀.bcast_S20000_S20000x1_0
            (select (cmpi .slt (Cert.ReferenceIdeal.RefRun.R1 m' c (Proc.devRef .tc Cert.ReferenceIdeal.main_arg1))
                      (broadcastInDim Cert.ReferenceIdeal.S20000 ![] Cert.ReferenceIdeal.Facts₀.bcast_S_S20000 (constantI Cert.ReferenceIdeal.S_ 32 0#32)))
                    (addi (Cert.ReferenceIdeal.RefRun.R1 m' c (Proc.devRef .tc Cert.ReferenceIdeal.main_arg1))
                      (broadcastInDim Cert.ReferenceIdeal.S20000 ![] Cert.ReferenceIdeal.Facts₀.bcast_S_S20000 (constantI Cert.ReferenceIdeal.S_ 32 100#32)))
                    (Cert.ReferenceIdeal.RefRun.R1 m' c (Proc.devRef .tc Cert.ReferenceIdeal.main_arg1)))) := by
  show after Cert.ReferenceIdeal.RefOps.ops1 (Cert.ReferenceIdeal.RefRun.R1 m' c) (Proc.devRef .tc Cert.ReferenceIdeal.main_v56) = _
  after_results_simp <;> rfl

/-- Window 0 leaves a buffer it does not write at the launch contents. -/
theorem r_arg (r : Ref Cert.ReferenceIdeal.sig .tc) (h : r ∉ Cert.ReferenceIdeal.RStep.wr0) :
    Cert.ReferenceIdeal.RefRun.R1 m' c (Proc.devRef .tc r) = m' ((c.tc : Thread Cert.ReferenceIdeal.nD Cert.ReferenceIdeal.τ).loc r) :=
  Cert.ReferenceIdeal.RStep.keep0 m' c r h

end Reference

section Join

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

theorem node
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (hr : ∀ i, (m ((c.tc : Thread Cert.KernelIdeal.nD Cert.KernelIdeal.τ).loc Cert.KernelIdeal.main_arg1) i).toNat < 100) :
    Cert.ReferenceIdeal.RefRun.R2 m' c (Proc.devRef .tc Cert.ReferenceIdeal.main_v56)
      = Cert.KernelIdeal.Gen.W6 m ρ c (Proc.devRef .tc Cert.KernelIdeal.main_v80) := by
  rw [r_v56, r_arg m' c Cert.ReferenceIdeal.main_arg1 (by decide), r_arg m' c Cert.ReferenceIdeal.main_arg7 (by decide),
    Cert.ReferenceIdeal.RefLookup.node_lookup _ _ (show ∀ i, (m' ((c.tc : Thread Cert.ReferenceIdeal.nD Cert.ReferenceIdeal.τ).loc Cert.ReferenceIdeal.main_arg1) i).toNat < 100 by rw [h1]; exact hr), h1, h7]
  refine (((Cert.KernelIdeal.Gen.W6_arr m ρ c 2).trans (Cert.KernelIdeal.Reg1.arr (Cert.KernelIdeal.Gen.V5 m ρ) c)).trans ?_).symm
  unfold Cert.Spec.nodeG
  funext i
  have e79 : Cert.KernelIdeal.Gen.V5 m ρ c Cert.KernelIdeal.main_v79 (ix2 (⟨(i 0).val, (i 0).isLt⟩ : Fin 20000) (0 : Fin 1))
      = m ((c.tc : Thread Cert.KernelIdeal.nD Cert.KernelIdeal.τ).loc Cert.KernelIdeal.main_arg1) (ix1 ⟨(i 0).val, (i 0).isLt⟩) := by
    show Cert.KernelIdeal.Gen.W5 m ρ c (Proc.devRef .tc Cert.KernelIdeal.main_v79) _ = _
    rw [k_v79, Cert.KernelIdeal.KCarry.toArg Cert.KernelIdeal.main_arg1 (Cert.KernelIdeal.KCarry.carry4 Cert.KernelIdeal.main_arg1 (by decide)) (by decide)]
    exact Cert.LibReshape.shapeCast_a_a1_apply _ _ _ _
  have e7 : Cert.KernelIdeal.Gen.V5 m ρ c Cert.KernelIdeal.main_arg7
      = m ((c.tc : Thread Cert.KernelIdeal.nD Cert.KernelIdeal.τ).loc Cert.KernelIdeal.main_arg7) :=
    Cert.KernelIdeal.KCarry.toArg Cert.KernelIdeal.main_arg7 ((Cert.KernelIdeal.KStep.keepH1 m ρ c Cert.KernelIdeal.main_arg7 (by decide)).trans (Cert.KernelIdeal.KCarry.carry4 Cert.KernelIdeal.main_arg7 (by decide))) (by decide)
  rw [e79, e7]

end Join

end Cert.SimNode

end
-- ==== Proof.Reg0.lean ====
import proofs.«404108_j19344532701343_1_alg».proof.Proof.Gen.KernelIdeal.Frame
import proofs.«404108_j19344532701343_1_alg».proof.Proof.Spec
import proofs.«404108_j19344532701343_1_alg».proof.Proof.LibDot
import proofs.«404108_j19344532701343_1_alg».proof.Proof.LibBlock

noncomputable section

open scoped BigOperators

namespace Cert.KernelIdeal.Reg0

open Cert.KernelIdeal Cert.KernelIdeal.Gen Cert.LibBlock Idealize.ShloMosaic Idealize.ShloMosaic.TcCoe Idealize.ShloMosaic.ValueIdx
open Idealize.ShloMosaic.Pipeline (Dat)

theorem hot_eq (a : BitVec 32) (k : Fin 100) :
    Scalar.select (IntOp.cmpi .eq (BitVec.ofNat 32 k.val) a) (Ideal.ofBits .f32 0x3F800000#32) (Ideal.ofBits .f32 0x00000000#32)
      = Cert.Spec.hot a k := by
  unfold Scalar.select Cert.Spec.hot
  rw [Ideal.ofBits_one_f32, Ideal.ofBits_zero_f32]
  exact if_congr StableHlo.Predicate.cmpi_eq_iff rfl rfl

theorem pay_apply (pd tv : Vec Ideal S2000x1 .f32) (et : Vec Ideal S2000x1 .i32) (w1 b1 : Vec Ideal S1x128 .f32)
    (W2 : Vec Ideal S128x128 .f32) (b2 : Vec Ideal S1x128 .f32) (E : Vec Ideal S100x128 .f32) (r : Fin 2000) (q : Fin 128) :
    Gen.k0_pay1 (F := Ideal) pd tv et w1 b1 W2 b2 E (ix2 r q)
      = Cert.Spec.edgeRow (pd (ix2 r (0 : Fin 1))) (tv (ix2 r (0 : Fin 1))) (et (ix2 r (0 : Fin 1))) (Cert.Spec.tab E)
          (Cert.Spec.row1 w1) (Cert.Spec.row1 b1) (Cert.Spec.tab W2) (Cert.Spec.row1 b2) q := by
  unfold Gen.k0_pay1
  simp only [shapeCast_self]
  rw [mulf_apply, addf_apply, addf_apply, LibDot.matmul_apply dot_S2000x128_S128x128_S2000x128_1_0_0_1_n_n rfl,
    LibDot.matmul_apply dot_S2000x100_S100x128_S2000x128_1_0_0_1_n_n rfl]
  unfold Cert.Spec.edgeRow Cert.Spec.embRow
  refine congrArg₂ (· * ·) (congrArg₂ (· + ·) (congrArg₂ (· + ·) (Finset.sum_congr rfl fun k _ => ?_) ?_) ?_)
    (Finset.sum_congr rfl fun k _ => ?_)
  · show max (broadcastTo S2000x128 pd broadcasts_S2000x1_S2000x128 (ix2 r k) * broadcastTo S2000x128 w1 broadcasts_S1x128_S2000x128 (ix2 r k)
        + broadcastTo S2000x128 b1 broadcasts_S1x128_S2000x128 (ix2 r k)) (Ideal.ofBits .f32 0x00000000#32) * W2 (ix2 k q) = _
    rw [LibDot.broadcastTo_a1_ab_apply, broadcastTo_1b_ab_apply, broadcastTo_1b_ab_apply, Ideal.ofBits_zero_f32]
    rfl
  · exact broadcastTo_1b_ab_apply _ _ _ _
  · exact LibDot.broadcastTo_a1_ab_apply _ _ _ _
  · show Scalar.select (IntOp.cmpi .eq (iota .tc S2000x100 32 [1] iota_S2000x100_d1_w32 (ix2 r k))
        (broadcastTo S2000x100 et broadcasts_S2000x1_S2000x100 (ix2 r k)))
        (Ideal.ofBits .f32 0x3F800000#32) (Ideal.ofBits .f32 0x00000000#32) * E (ix2 k q) = _
    rw [iota_single_apply, LibDot.broadcastTo_a1_ab_apply]
    exact congrArg (· * E (ix2 k q)) (hot_eq _ k)

theorem pay_eq (pd tv : Vec Ideal S2000x1 .f32) (et : Vec Ideal S2000x1 .i32) (w1 b1 : Vec Ideal S1x128 .f32)
    (W2 : Vec Ideal S128x128 .f32) (b2 : Vec Ideal S1x128 .f32) (E : Vec Ideal S100x128 .f32) :
    Gen.k0_pay1 (F := Ideal) pd tv et w1 b1 W2 b2 E = Cert.Spec.edgeG 2000 pd tv et E w1 b1 W2 b2 := by
  funext j
  obtain ⟨r, q, rfl⟩ : ∃ (r : Fin 2000) (q : Fin 128), j = ix2 r q := ⟨j 0, j 1, eq_ix2 j⟩
  exact pay_apply pd tv et w1 b1 W2 b2 E r q

theorem edgeG_rows (pdB tvB : Cert.Spec.A 2000 1) (etB : Cert.Spec.I 2000 1) (pd tv : Cert.Spec.A 320000 1) (et : Cert.Spec.I 320000 1)
    (E : Cert.Spec.A 100 128) (w1 b1 : Cert.Spec.A 1 128) (W2 : Cert.Spec.A 128 128) (b2 : Cert.Spec.A 1 128)
    (b : Nat) (hb : b < 160)
    (h0 : ∀ r : Fin 2000, pdB (ix2 r (0 : Fin 1)) = pd (ix2 (⟨b * 2000 + r.val, by have := r.isLt; omega⟩ : Fin 320000) (0 : Fin 1)))
    (h1 : ∀ r : Fin 2000, tvB (ix2 r (0 : Fin 1)) = tv (ix2 (⟨b * 2000 + r.val, by have := r.isLt; omega⟩ : Fin 320000) (0 : Fin 1)))
    (h2 : ∀ r : Fin 2000, etB (ix2 r (0 : Fin 1)) = et (ix2 (⟨b * 2000 + r.val, by have := r.isLt; omega⟩ : Fin 320000) (0 : Fin 1)))
    (j : (⟨2, ![2000, 128]⟩ : Shape).Idx) (i : (⟨2, ![320000, 128]⟩ : Shape).Idx)
    (hi0 : (i 0).val = b * 2000 + (j 0).val) (hi1 : (i 1).val = (j 1).val) :
    Cert.Spec.edgeG 2000 pdB tvB etB E w1 b1 W2 b2 j = Cert.Spec.edgeG 320000 pd tv et E w1 b1 W2 b2 i := by
  unfold Cert.Spec.edgeG
  rw [h0, h1, h2]
  have e0 : (⟨b * 2000 + (⟨(j 0).val, (j 0).isLt⟩ : Fin 2000).val, by have := (j 0).isLt; omega⟩ : Fin 320000) = ⟨(i 0).val, (i 0).isLt⟩ :=
    Fin.ext hi0.symm
  have e1 : (⟨(j 1).val, (j 1).isLt⟩ : Fin 128) = ⟨(i 1).val, (i 1).isLt⟩ := Fin.ext hi1.symm
  rw [e0, e1]

section Blocks
variable (V : (c : Dev nD) → (b : Ref sig .tc) → Buf (Elt Ideal) ((c : Thread nD τ).loc b)) (c : Dev nD)

theorem idx_facts : ∀ (t : Fin cfg0.N) (a : Fin 2), win0_0.index t a = win0_8.index t a ∧ win0_1.index t a = win0_8.index t a
    ∧ win0_2.index t a = win0_8.index t a ∧ win0_3.index t a = 0 ∧ win0_4.index t a = 0 ∧ win0_5.index t a = 0
    ∧ win0_6.index t a = 0 ∧ win0_7.index t a = 0 ∧ win0_8.index t a = if a = 0 then t.val else 0 :=
  (by decide +kernel : ∀ t : Fin grid0.N, _)

theorem pt_lt (t : Fin cfg0.N) : t.val < 160 := lt_of_lt_of_eq t.isLt Gen.N_0

-- Row 2000 t + r of the array function is its row r on the t-th blocks of 2000 rows: the row function looks at one row.
theorem flushed_eq (t : Fin cfg0.N) :
    (Gen.dat0 (F := Ideal) V c).flushed 8 t = ((cfg0.win 8).blk t).view.read (Elt Ideal)
      (Cert.Spec.edgeG 320000 (V c main_v49) (V c main_v74) (V c main_v75) (V c main_arg8) (V c main_arg9) (V c main_v76) (V c main_arg11) (V c main_v77)) := by
  show (cfg0.win 8).cut (grid0.coords t) ((Gen.dat0 V c).after 8 t) = _
  rw [Gen.after0_8]
  unfold Gen.out0_8
  rw [View.canon_unit_zero hz]
  simp only [View.ld_unit_zero (S := S2000x1) hz, View.ld_unit_zero (S := S1x128) hz, View.ld_unit_zero (S := S128x128) hz,
    View.ld_unit_zero (S := S100x128) hz]
  rw [pay_eq]
  funext j
  obtain ⟨p0, q0, r0, s0, u0, v0, x0, y0, z0⟩ := idx_facts t 0
  obtain ⟨p1, q1, r1, s1, u1, v1, x1, y1, z1⟩ := idx_facts t 1
  show Cert.Spec.edgeG 2000 (Gen.iblk0 V c 0 t) (Gen.iblk0 V c 1 t) (Gen.iblk0 V c 2 t) (Gen.iblk0 V c 3 t) (Gen.iblk0 V c 4 t)
      (Gen.iblk0 V c 5 t) (Gen.iblk0 V c 6 t) (Gen.iblk0 V c 7 t) j
    = Cert.Spec.edgeG 320000 (V c main_v49) (V c main_v74) (V c main_v75) (V c main_arg8) (V c main_arg9) (V c main_v76)
      (V c main_arg11) (V c main_v77) (((cfg0.win 8).blk t).view.emb j)
  have w3 : (Gen.iblk0 V c 3 t : Vec Ideal S100x128 .f32) = V c main_arg8 := funext fun y => congrArg (V c main_arg8)
    (idx_ext2 (emb_val_zero win0_3 (Memref.isWhole_whole _) t y rfl s0) (emb_val_zero win0_3 (Memref.isWhole_whole _) t y rfl s1))
  have w4 : (Gen.iblk0 V c 4 t : Vec Ideal S1x128 .f32) = V c main_arg9 := funext fun y => congrArg (V c main_arg9)
    (idx_ext2 (emb_val_zero win0_4 (Memref.isWhole_whole _) t y rfl u0) (emb_val_zero win0_4 (Memref.isWhole_whole _) t y rfl u1))
  have w5 : (Gen.iblk0 V c 5 t : Vec Ideal S1x128 .f32) = V c main_v76 := funext fun y => congrArg (V c main_v76)
    (idx_ext2 (emb_val_zero win0_5 (Memref.isWhole_whole _) t y rfl v0) (emb_val_zero win0_5 (Memref.isWhole_whole _) t y rfl v1))
  have w6 : (Gen.iblk0 V c 6 t : Vec Ideal S128x128 .f32) = V c main_arg11 := funext fun y => congrArg (V c main_arg11)
    (idx_ext2 (emb_val_zero win0_6 (Memref.isWhole_whole _) t y rfl x0) (emb_val_zero win0_6 (Memref.isWhole_whole _) t y rfl x1))
  have w7 : (Gen.iblk0 V c 7 t : Vec Ideal S1x128 .f32) = V c main_v77 := funext fun y => congrArg (V c main_v77)
    (idx_ext2 (emb_val_zero win0_7 (Memref.isWhole_whole _) t y rfl y0) (emb_val_zero win0_7 (Memref.isWhole_whole _) t y rfl y1))
  rw [w3, w4, w5, w6, w7]
  refine edgeG_rows _ _ _ _ _ _ _ _ _ _ _ t.val (pt_lt t) (fun r => ?_) (fun r => ?_) (fun r => ?_) j _
    ((emb_val win0_8 (Memref.isWhole_whole _) t j rfl).trans (congrArg (· * 2000 + (j 0).val) z0))
    (emb_val_zero win0_8 (Memref.isWhole_whole _) t j rfl z1)
  · exact congrArg (V c main_v49) (idx_ext2
      ((emb_val win0_0 (Memref.isWhole_whole _) t (ix2 r (0 : Fin 1)) rfl).trans (congrArg (· * 2000 + r.val) (p0.trans z0)))
      (emb_val_zero win0_0 (Memref.isWhole_whole _) t _ rfl (p1.trans z1)))
  · exact congrArg (V c main_v74) (idx_ext2
      ((emb_val win0_1 (Memref.isWhole_whole _) t (ix2 r (0 : Fin 1)) rfl).trans (congrArg (· * 2000 + r.val) (q0.trans z0)))
      (emb_val_zero win0_1 (Memref.isWhole_whole _) t _ rfl (q1.trans z1)))
  · exact congrArg (V c main_v75) (idx_ext2
      ((emb_val win0_2 (Memref.isWhole_whole _) t (ix2 r (0 : Fin 1)) rfl).trans (congrArg (· * 2000 + r.val) (r0.trans z0)))
      (emb_val_zero win0_2 (Memref.isWhole_whole _) t _ rfl (r1.trans z1)))

theorem arr : (Gen.dat0 (F := Ideal) V c).arrAt 8 cfg0.N
    = Cert.Spec.edgeG 320000 (V c main_v49) (V c main_v74) (V c main_v75) (V c main_arg8) (V c main_arg9) (V c main_v76) (V c main_arg11) (V c main_v77) :=
  (Gen.dat0 V c).arrAt_eq_of_cover 8 _ (fun t _ => flushed_eq V c t) fun i =>
    (cover_axis win0_8 (Memref.isWhole_whole _) 0 (fun _ _ => rfl)
      (fun t a => (idx_facts t a).2.2.2.2.2.2.2.2)
      (by decide) (by decide) (by decide) i).imp fun t h => ⟨Gen.flush0_8 t, h⟩

end Blocks

end Cert.KernelIdeal.Reg0

end
-- ==== Proof.RefEdge.lean ====
import proofs.«404108_j19344532701343_1_alg».proof.Proof.Gen.ReferenceIdeal
import proofs.«404108_j19344532701343_1_alg».proof.ReferenceIdeal
import proofs.«404108_j19344532701343_1_alg».proof.Proof.Spec
import proofs.«404108_j19344532701343_1_alg».proof.Proof.LibDot

noncomputable section

open scoped BigOperators

namespace Cert.ReferenceIdeal.RefEdge

open Cert.ReferenceIdeal Cert.ReferenceIdeal.Facts₀ Cert.ReferenceIdeal.Facts Idealize.ShloMosaic Idealize.ShloMosaic.ValueIdx

def refEdge (pd : FVec Ideal S320000x1 .f32) (tve : FVec Ideal S320000x1 .f32) (eemb : FVec Ideal S320000x128 .f32)
    (w1 : FVec Ideal S1x128 .f32) (b1 : FVec Ideal S128 .f32) (W2 : FVec Ideal S128x128 .f32) (b2 : FVec Ideal S128 .f32) :
    FVec Ideal S320000x128 .f32 :=
  mulf
    (addf
      (addf
        (Host.dotGeneral dot_S320000x128_S128x128_S320000x128_1_0_0_1_n_n none
          (maximumf
            (addf (Host.dotGeneral dot_S320000x1_S1x128_S320000x128_1_0_0_1_n_n none pd w1)
              (broadcastInDim S320000x128 ![0, 1] bcast_S1x128_S320000x128_0_1 (broadcastInDim S1x128 ![1] bcast_S128_S1x128_1 b1)))
            (broadcastInDim S320000x128 ![] bcast_S_S320000x128 (constant (F := Ideal) S_ .f32 0x00000000#32)))
          W2)
        (broadcastInDim S320000x128 ![0, 1] bcast_S1x128_S320000x128_0_1 (broadcastInDim S1x128 ![1] bcast_S128_S1x128_1 b2)))
      (broadcastInDim S320000x128 ![0, 1] bcast_S320000x1_S320000x128_0_1 tve))
    eemb

-- Each whole-array operation, read at (p, q), looks at row p of the per-edge arrays alone.
theorem refEdge_eq (pd : FVec Ideal S320000x1 .f32) (tve : FVec Ideal S320000x1 .f32) (eemb : FVec Ideal S320000x128 .f32)
    (w1 : FVec Ideal S1x128 .f32) (b1 : FVec Ideal S128 .f32) (W2 : FVec Ideal S128x128 .f32) (b2 : FVec Ideal S128 .f32)
    (et : IVec S320000x1 32) (E : FVec Ideal S100x128 .f32)
    (he : eemb = fun i => Cert.Spec.embRow (et (ix2 (⟨(i 0).val, (i 0).isLt⟩ : Fin 320000) (0 : Fin 1))) (Cert.Spec.tab E) ⟨(i 1).val, (i 1).isLt⟩) :
    refEdge pd tve eemb w1 b1 W2 b2
      = Cert.Spec.edgeG 320000 pd tve et E w1 (fun i => b1 (ix1 ⟨(i 1).val, (i 1).isLt⟩)) W2 (fun i => b2 (ix1 ⟨(i 1).val, (i 1).isLt⟩)) := by
  subst he
  funext i
  obtain ⟨p, q, rfl⟩ : ∃ (p : Fin 320000) (q : Fin 128), i = ix2 p q := ⟨i 0, i 1, eq_ix2 i⟩
  unfold refEdge
  rw [mulf_apply, addf_apply, addf_apply, LibDot.dotGeneral_apply dot_S320000x128_S128x128_S320000x128_1_0_0_1_n_n rfl,
    LibDot.bias_apply, LibDot.col_apply]
  unfold Cert.Spec.edgeG Cert.Spec.edgeRow
  refine congrArg₂ (· * ·) (congrArg₂ (· + ·) (congrArg₂ (· + ·) (Finset.sum_congr rfl fun k _ => ?_) rfl) rfl) rfl
  rw [maximumf_apply, addf_apply, LibDot.dotGeneral_apply dot_S320000x1_S1x128_S320000x128_1_0_0_1_n_n rfl, Fin.sum_univ_one,
    LibDot.bias_apply, LibDot.splat_apply, Ideal.ofBits_zero_f32]
  rfl

end Cert.ReferenceIdeal.RefEdge

end
-- ==== Proof.SimEdge.lean ====
import proofs.«404108_j19344532701343_1_alg».proof.Proof.Gen.KernelIdeal.Frame
import proofs.«404108_j19344532701343_1_alg».proof.Proof.KStep
import proofs.«404108_j19344532701343_1_alg».proof.Proof.KCarry
import proofs.«404108_j19344532701343_1_alg».proof.Proof.Reg0
import proofs.«404108_j19344532701343_1_alg».proof.Proof.RefRun
import proofs.«404108_j19344532701343_1_alg».proof.Proof.RStep
import proofs.«404108_j19344532701343_1_alg».proof.Proof.RefLookup
import proofs.«404108_j19344532701343_1_alg».proof.Proof.RefEdge
import proofs.«404108_j19344532701343_1_alg».proof.Proof.LibReshape
import proofs.«404108_j19344532701343_1_alg».proof.Proof.Spec

set_option maxRecDepth 16384

noncomputable section

namespace Cert.SimEdge

open Idealize.ShloMosaic Idealize.ShloMosaic.TcCoe Idealize.SL.Sem Idealize.ShloMosaic.StableHlo Idealize.ShloMosaic.ValueIdx

section Host
variable {F : FTy → Type} [FloatOps F]

set_option maxHeartbeats 4000000 in
/-- Windows 1 and 2 compute the edge stage from the perturbed distances, the time values, the gathered rows and the four weight arrays. -/
theorem r_edge (m' : (ℓ : Loc Cert.ReferenceIdeal.nD Cert.ReferenceIdeal.τ Cert.ReferenceIdeal.sig) → Buf (Elt Ideal) ℓ) (c : Dev Cert.ReferenceIdeal.nD) :
    Cert.ReferenceIdeal.RefRun.R3 m' c (Proc.devRef .tc Cert.ReferenceIdeal.main_v100)
      = Cert.ReferenceIdeal.RefEdge.refEdge (Cert.ReferenceIdeal.RefRun.R2 m' c (Proc.devRef .tc Cert.ReferenceIdeal.main_v49)) (Cert.ReferenceIdeal.RefRun.R2 m' c (Proc.devRef .tc Cert.ReferenceIdeal.main_v97)) (Cert.ReferenceIdeal.RefRun.R2 m' c (Proc.devRef .tc Cert.ReferenceIdeal.main_v63))
          (Cert.ReferenceIdeal.RefRun.R1 m' c (Proc.devRef .tc Cert.ReferenceIdeal.main_arg9)) (Cert.ReferenceIdeal.RefRun.R1 m' c (Proc.devRef .tc Cert.ReferenceIdeal.main_arg10)) (Cert.ReferenceIdeal.RefRun.R1 m' c (Proc.devRef .tc Cert.ReferenceIdeal.main_arg11)) (Cert.ReferenceIdeal.RefRun.R1 m' c (Proc.devRef .tc Cert.ReferenceIdeal.main_arg12)) := by
  dsimp only [Cert.ReferenceIdeal.RefRun.R3, Cert.ReferenceIdeal.RefRun.R2]
  after_results_simp <;> rfl

theorem r_v63 (m' : (ℓ : Loc Cert.ReferenceIdeal.nD Cert.ReferenceIdeal.τ Cert.ReferenceIdeal.sig) → Buf (Elt F) ℓ) (c : Dev Cert.ReferenceIdeal.nD) :
    (Cert.ReferenceIdeal.RefRun.R2 m' c (Proc.devRef .tc Cert.ReferenceIdeal.main_v63))
      = (Host.gather Cert.ReferenceIdeal.gather_S100x128_S320000x1_S320000x128_1_0_n_n_0_1_1128 (Cert.ReferenceIdeal.RefRun.R1 m' c (Proc.devRef .tc Cert.ReferenceIdeal.main_arg8))
        (broadcastInDim Cert.ReferenceIdeal.S320000x1 ![0] Cert.ReferenceIdeal.Facts₀.bcast_S320000_S320000x1_0
          (select (cmpi .slt (Cert.ReferenceIdeal.RefRun.R1 m' c (Proc.devRef .tc Cert.ReferenceIdeal.main_arg3)) (broadcastInDim Cert.ReferenceIdeal.S320000 ![] Cert.ReferenceIdeal.Facts₀.bcast_S_S320000 (constantI Cert.ReferenceIdeal.S_ 32 0#32)))
                  (addi (Cert.ReferenceIdeal.RefRun.R1 m' c (Proc.devRef .tc Cert.ReferenceIdeal.main_arg3)) (broadcastInDim Cert.ReferenceIdeal.S320000 ![] Cert.ReferenceIdeal.Facts₀.bcast_S_S320000 (constantI Cert.ReferenceIdeal.S_ 32 100#32))) (Cert.ReferenceIdeal.RefRun.R1 m' c (Proc.devRef .tc Cert.ReferenceIdeal.main_arg3))))) := by
  show after Cert.ReferenceIdeal.RefOps.ops1 (Cert.ReferenceIdeal.RefRun.R1 m' c) (Proc.devRef .tc Cert.ReferenceIdeal.main_v63) = _
  after_results_simp <;> rfl

/-- Window 0 leaves a buffer it does not write at the launch contents. -/
theorem r_arg (m' : (ℓ : Loc Cert.ReferenceIdeal.nD Cert.ReferenceIdeal.τ Cert.ReferenceIdeal.sig) → Buf (Elt F) ℓ) (c : Dev Cert.ReferenceIdeal.nD) (r : Ref Cert.ReferenceIdeal.sig .tc) (h : r ∉ Cert.ReferenceIdeal.RStep.wr0) :
    Cert.ReferenceIdeal.RefRun.R1 m' c (Proc.devRef .tc r) = m' ((c.tc : Thread Cert.ReferenceIdeal.nD Cert.ReferenceIdeal.τ).loc r) :=
  Cert.ReferenceIdeal.RStep.keep0 m' c r h

end Host

open Cert.KernelIdeal Cert.KernelIdeal.Gen Cert.KernelIdeal.KStep Cert.KernelIdeal.KCarry in
/-- A buffer the first three host stretches do not write enters region 0 with the launch contents. -/
theorem to3 {F : FTy → Type} [FloatOps F] (m : (ℓ : Loc nD τ sig) → Buf (Elt F) ℓ) (ρ : Dev nD → PrngReg) (c : Dev nD) (r : Ref sig .tc)
    (h : r ∉ wrH0 ∧ r ∉ wrH0_1 ∧ r ∉ wrH0_2) : W3 m ρ c (Proc.devRef .tc r) = m ((c.tc : Thread nD τ).loc r) :=
  toArg r ((keepH0_2 m ρ c r h.2.2).trans (keepH0_1 m ρ c r h.2.1)) h.1

theorem k_v78 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W4 m ρ c (Proc.devRef .tc Cert.KernelIdeal.main_v78)
      = Cert.Spec.edgeG 320000 (Cert.KernelIdeal.Gen.W3 m ρ c (Proc.devRef .tc Cert.KernelIdeal.main_v49)) (Cert.KernelIdeal.Gen.W3 m ρ c (Proc.devRef .tc Cert.KernelIdeal.main_v74)) (Cert.KernelIdeal.Gen.W3 m ρ c (Proc.devRef .tc Cert.KernelIdeal.main_v75)) (Cert.KernelIdeal.Gen.W3 m ρ c (Proc.devRef .tc Cert.KernelIdeal.main_arg8)) (Cert.KernelIdeal.Gen.W3 m ρ c (Proc.devRef .tc Cert.KernelIdeal.main_arg9))
          (Cert.KernelIdeal.Gen.W3 m ρ c (Proc.devRef .tc Cert.KernelIdeal.main_v76)) (Cert.KernelIdeal.Gen.W3 m ρ c (Proc.devRef .tc Cert.KernelIdeal.main_arg11)) (Cert.KernelIdeal.Gen.W3 m ρ c (Proc.devRef .tc Cert.KernelIdeal.main_v77)) :=
  (Cert.KernelIdeal.Gen.W4_arr m ρ c 8).trans (Cert.KernelIdeal.Reg0.arr (Cert.KernelIdeal.Gen.V3 m ρ) c)

theorem edge (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (c : Dev Cert.KernelIdeal.nD)
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (hr : ∀ i, (m ((c.tc : Thread Cert.KernelIdeal.nD Cert.KernelIdeal.τ).loc Cert.KernelIdeal.main_arg3) i).toNat < 100)
    (hpd : (Cert.ReferenceIdeal.RefRun.R2 m' c (Proc.devRef .tc Cert.ReferenceIdeal.main_v49)) = (Cert.KernelIdeal.Gen.W3 m ρ c (Proc.devRef .tc Cert.KernelIdeal.main_v49)))
    (htve : (Cert.ReferenceIdeal.RefRun.R2 m' c (Proc.devRef .tc Cert.ReferenceIdeal.main_v97)) = (Cert.KernelIdeal.Gen.W3 m ρ c (Proc.devRef .tc Cert.KernelIdeal.main_v74)))
    (hk75 : (Cert.KernelIdeal.Gen.W3 m ρ c (Proc.devRef .tc Cert.KernelIdeal.main_v75)) = shapeCast Cert.KernelIdeal.S320000x1 (m ((c.tc : Thread Cert.KernelIdeal.nD Cert.KernelIdeal.τ).loc Cert.KernelIdeal.main_arg3)) Cert.KernelIdeal.Facts₀.shapeCasts_S320000_S320000x1)
    (hk76 : (Cert.KernelIdeal.Gen.W3 m ρ c (Proc.devRef .tc Cert.KernelIdeal.main_v76)) = shapeCast Cert.KernelIdeal.S1x128 (m ((c.tc : Thread Cert.KernelIdeal.nD Cert.KernelIdeal.τ).loc Cert.KernelIdeal.main_arg10)) Cert.KernelIdeal.Facts₀.shapeCasts_S128_S1x128)
    (hk77 : (Cert.KernelIdeal.Gen.W3 m ρ c (Proc.devRef .tc Cert.KernelIdeal.main_v77)) = shapeCast Cert.KernelIdeal.S1x128 (m ((c.tc : Thread Cert.KernelIdeal.nD Cert.KernelIdeal.τ).loc Cert.KernelIdeal.main_arg12)) Cert.KernelIdeal.Facts₀.shapeCasts_S128_S1x128) :
    (Cert.ReferenceIdeal.RefRun.R3 m' c (Proc.devRef .tc Cert.ReferenceIdeal.main_v100)) = Cert.KernelIdeal.Gen.W4 m ρ c (Proc.devRef .tc Cert.KernelIdeal.main_v78) := by
  have ha : ∀ i, (m' ((c.tc : Thread Cert.ReferenceIdeal.nD Cert.ReferenceIdeal.τ).loc Cert.ReferenceIdeal.main_arg3) i).toNat < 100 := fun i => by rw [h3]; exact hr i
  rw [r_edge, r_arg m' c Cert.ReferenceIdeal.main_arg9 (by decide), r_arg m' c Cert.ReferenceIdeal.main_arg10 (by decide), r_arg m' c Cert.ReferenceIdeal.main_arg11 (by decide), r_arg m' c Cert.ReferenceIdeal.main_arg12 (by decide),
    Cert.ReferenceIdeal.RefEdge.refEdge_eq _ _ (Cert.ReferenceIdeal.RefRun.R2 m' c (Proc.devRef .tc Cert.ReferenceIdeal.main_v63)) _ _ _ _ (fun i => m' ((c.tc : Thread Cert.ReferenceIdeal.nD Cert.ReferenceIdeal.τ).loc Cert.ReferenceIdeal.main_arg3) (ix1 (⟨(i 0).val, (i 0).isLt⟩ : Fin 320000))) (m' ((c.tc : Thread Cert.ReferenceIdeal.nD Cert.ReferenceIdeal.τ).loc Cert.ReferenceIdeal.main_arg8))
      (by rw [r_v63, r_arg m' c Cert.ReferenceIdeal.main_arg8 (by decide), r_arg m' c Cert.ReferenceIdeal.main_arg3 (by decide)]; exact Cert.ReferenceIdeal.RefLookup.edge_lookup _ _ ha)]
  rw [k_v78, hk75, hk76, hk77, to3 m ρ c Cert.KernelIdeal.main_arg8 (by decide), to3 m ρ c Cert.KernelIdeal.main_arg9 (by decide), to3 m ρ c Cert.KernelIdeal.main_arg11 (by decide), Cert.LibReshape.col_of_vec_fun (a := 320000), Cert.LibReshape.row_of_vec_fun (a := 128),
    Cert.LibReshape.row_of_vec_fun (a := 128), hpd, htve, h3, h8, h9, h10, h11, h12]

end Cert.SimEdge

end
-- ==== Proof.RefMsg.lean ====
import proofs.«404108_j19344532701343_1_alg».proof.ReferenceIdeal
import proofs.«404108_j19344532701343_1_alg».proof.Proof.Gen.ReferenceIdeal
import proofs.«404108_j19344532701343_1_alg».proof.Proof.Spec
import Idealize.ShloMosaic.Lib.ValueIdx
import Idealize.ShloMosaic.Lib.IdealHost

noncomputable section

namespace Cert.ReferenceIdeal.RefMsg

open Cert.ReferenceIdeal Cert.ReferenceIdeal.Facts₀ Cert.ReferenceIdeal.Facts Idealize.ShloMosaic Idealize.ShloMosaic.ValueIdx

def refMsg (xr ea : FVec Ideal S320000x128 .f32) : FVec Ideal S320000x128 .f32 :=
  maximumf (addf xr ea) (broadcastInDim S320000x128 ![] bcast_S_S320000x128 (constant (F := Ideal) S_ .f32 0x00000000#32))

-- The broadcast zero constant reads zero at every entry, so the maximum with it is the rectifier.
theorem refMsg_eq (xr ea : FVec Ideal S320000x128 .f32) : refMsg xr ea = Cert.Spec.msgG 320000 xr ea := by
  funext i
  show max (xr i + ea i)
      (broadcastInDim S320000x128 ![] bcast_S_S320000x128 (constant (F := Ideal) S_ .f32 0x00000000#32) i)
    = max (xr i + ea i) 0
  rw [broadcastInDim_scalar_apply, constant_apply, Ideal.ofBits_zero_f32]

end Cert.ReferenceIdeal.RefMsg

end
-- ==== Proof.RefGin.lean ====
import proofs.«404108_j19344532701343_1_alg».proof.Proof.Gen.ReferenceIdeal
import proofs.«404108_j19344532701343_1_alg».proof.ReferenceIdeal
import proofs.«404108_j19344532701343_1_alg».proof.Proof.Spec
import Idealize.ShloMosaic.Lib.ValueIdx
import Idealize.ShloMosaic.Lib.Pipeline.Value
import proofs.«404108_j19344532701343_1_alg».proof.Proof.LibDot

noncomputable section

open scoped BigOperators

namespace Cert.ReferenceIdeal.RefGin

open Cert.ReferenceIdeal Cert.ReferenceIdeal.Facts₀ Cert.ReferenceIdeal.Facts
open Idealize.ShloMosaic Idealize.ShloMosaic.ValueIdx

def refRelu (v : FVec Ideal S20000x128 .f32) : FVec Ideal S20000x128 .f32 :=
  maximumf v (broadcastInDim S20000x128 ![] bcast_S_S20000x128 (constant (F := Ideal) S_ .f32 0x00000000#32))

def refBias (b : FVec Ideal S128 .f32) : FVec Ideal S20000x128 .f32 :=
  broadcastInDim S20000x128 ![0, 1] bcast_S1x128_S20000x128_0_1 (broadcastInDim S1x128 ![1] bcast_S128_S1x128_1 b)

def refDense (v : FVec Ideal S20000x128 .f32) (W : FVec Ideal S128x128 .f32) (b : FVec Ideal S128 .f32) :
    FVec Ideal S20000x128 .f32 :=
  addf (Host.dotGeneral dot_S20000x128_S128x128_S20000x128_1_0_0_1_n_n none v W) (refBias b)

def refGinPre (x agg : FVec Ideal S20000x128 .f32) (W1 : FVec Ideal S128x128 .f32) (b1 : FVec Ideal S128 .f32)
    (W2 : FVec Ideal S128x128 .f32) (b2 : FVec Ideal S128 .f32) : FVec Ideal S20000x128 .f32 :=
  refDense (refRelu (refDense (addf x agg) W1 b1)) W2 b2

def refGinAct (x agg : FVec Ideal S20000x128 .f32) (W1 : FVec Ideal S128x128 .f32) (b1 : FVec Ideal S128 .f32)
    (W2 : FVec Ideal S128x128 .f32) (b2 : FVec Ideal S128 .f32) : FVec Ideal S20000x128 .f32 :=
  addf (refRelu (refGinPre x agg W1 b1 W2 b2)) x

def refGinLin (x agg : FVec Ideal S20000x128 .f32) (W1 : FVec Ideal S128x128 .f32) (b1 : FVec Ideal S128 .f32)
    (W2 : FVec Ideal S128x128 .f32) (b2 : FVec Ideal S128 .f32) : FVec Ideal S20000x128 .f32 :=
  addf (refGinPre x agg W1 b1 W2 b2) x

-- The product contracts the array's columns with the table's rows.
theorem prod_apply {φ₁ φ₂ : FTy} (L : FVec Ideal S20000x128 φ₁) (R : FVec Ideal S128x128 φ₂) (r : Fin 20000) (q : Fin 128) :
    Host.dotGeneral dot_S20000x128_S128x128_S20000x128_1_0_0_1_n_n none L R (ix2 r q)
      = ∑ k : Fin 128, L (ix2 r k) * R (ix2 k q) :=
  StackMember.dotGeneral_plain_apply none L R r q

theorem bias_apply (b : FVec Ideal S128 .f32) (r : Fin 20000) (q : Fin 128) : refBias b (ix2 r q) = b (ix1 q) :=
  LibDot.bias_apply _ _ b r q

theorem relu_apply (v : FVec Ideal S20000x128 .f32) (j : S20000x128.Idx) : refRelu v j = Cert.Spec.relu (v j) := by
  unfold refRelu
  rw [maximumf_apply, LibDot.splat_apply, Ideal.ofBits_zero_f32]
  rfl

-- Entry (r, q) of the layer depends on row r of the two arrays alone and is the specification's row function there.
theorem refGinAct_eq (x agg : FVec Ideal S20000x128 .f32) (W1 : FVec Ideal S128x128 .f32) (b1 : FVec Ideal S128 .f32)
    (W2 : FVec Ideal S128x128 .f32) (b2 : FVec Ideal S128 .f32) :
    refGinAct x agg W1 b1 W2 b2
      = Cert.Spec.ginActG 20000 x agg W1 (fun i => b1 (ix1 ⟨(i 1).val, (i 1).isLt⟩)) W2
          (fun i => b2 (ix1 ⟨(i 1).val, (i 1).isLt⟩)) := by
  funext i
  obtain ⟨r, q, rfl⟩ : ∃ (r : Fin 20000) (q : Fin 128), i = ix2 r q := ⟨i 0, i 1, eq_ix2 i⟩
  simp only [refGinAct, refGinPre, refDense, addf_apply, relu_apply, prod_apply, bias_apply]
  rfl

theorem refGinLin_eq (x agg : FVec Ideal S20000x128 .f32) (W1 : FVec Ideal S128x128 .f32) (b1 : FVec Ideal S128 .f32)
    (W2 : FVec Ideal S128x128 .f32) (b2 : FVec Ideal S128 .f32) :
    refGinLin x agg W1 b1 W2 b2
      = Cert.Spec.ginLinG 20000 x agg W1 (fun i => b1 (ix1 ⟨(i 1).val, (i 1).isLt⟩)) W2
          (fun i => b2 (ix1 ⟨(i 1).val, (i 1).isLt⟩)) := by
  funext i
  obtain ⟨r, q, rfl⟩ : ∃ (r : Fin 20000) (q : Fin 128), i = ix2 r q := ⟨i 0, i 1, eq_ix2 i⟩
  simp only [refGinLin, refGinPre, refDense, addf_apply, relu_apply, prod_apply, bias_apply]
  rfl

end Cert.ReferenceIdeal.RefGin

end
-- ==== Proof.LayerTerms.lean ====
import proofs.«404108_j19344532701343_1_alg».proof.Proof.KCarry
import proofs.«404108_j19344532701343_1_alg».proof.Proof.RStep
import proofs.«404108_j19344532701343_1_alg».proof.Proof.RefMsg
import proofs.«404108_j19344532701343_1_alg».proof.Proof.RefGin
import proofs.«404108_j19344532701343_1_alg».proof.Proof.LibReshape

noncomputable section

namespace Cert.Layer

open Idealize.ShloMosaic Idealize.ShloMosaic.TcCoe Idealize.SL.Sem Idealize.ShloMosaic.StableHlo Idealize.ShloMosaic.ValueIdx

section Terms

open Cert.KernelIdeal Cert.KernelIdeal.Facts₀

-- Edge endpoints as a column of row numbers, a negative one wrapped by the number of rows.
def gcol (x : IVec S320000 32) : IVec S320000x1 32 :=
  broadcastInDim S320000x1 ![0] bcast_S320000_S320000x1_0
    (select (cmpi .slt x (broadcastInDim S320000 ![] bcast_S_S320000 (constantI S_ 32 0#32)))
      (addi x (broadcastInDim S320000 ![] bcast_S_S320000 (constantI S_ 32 20000#32))) x)

def gzero : FVec Ideal S20000x128 .f32 :=
  broadcastInDim S20000x128 ![] bcast_S_S20000x128 (constant (F := Ideal) S_ .f32 0x00000000#32)

-- The rows of the node features at the edges' wrapped endpoints.
def grows (x : FVec Ideal S20000x128 .f32) (src : IVec S320000 32) : FVec Ideal S320000x128 .f32 :=
  Host.gather gather_S20000x128_S320000x1_S320000x128_1_0_n_n_0_1_1128 x (gcol src)

-- The messages summed onto the rows their edges point at.
def gagg (z : FVec Ideal S20000x128 .f32) (dst : IVec S320000 32) (msg : FVec Ideal S320000x128 .f32) :
    FVec Ideal S20000x128 .f32 :=
  Host.scatterAdd scatter_S20000x128_S320000x1_S320000x128_1_0_0_1 z (broadcastInDim S320000x1 ![0] bcast_S320000_S320000x1_0 dst) msg

-- Slice k of a stack of four tables, and of a stack of four bias vectors.
def gtab (k : ℕ) (w : FVec Ideal S4x128x128 .f32) (h : S4x128x128.Slices ![k, 0, 0] S1x128x128 := by decide) :
    FVec Ideal S128x128 .f32 :=
  shapeCast S128x128 (extractStridedSlice S1x128x128 ![k, 0, 0] w h)

def gvec (k : ℕ) (b : FVec Ideal S4x128 .f32) (h : S4x128.Slices ![k, 0] S1x128 := by decide) : FVec Ideal S128 .f32 :=
  shapeCast S128 (extractStridedSlice S1x128 ![k, 0] b h)

def grow (b : FVec Ideal S128 .f32) : FVec Ideal S1x128 .f32 := shapeCast S1x128 b

-- A vector laid out as one row has the vector's entry q in column q.
theorem grow_eq (b : FVec Ideal S128 .f32) : grow b = fun i => b (ix1 (⟨(i 1).val, (i 1).isLt⟩ : Fin 128)) :=
  Cert.LibReshape.row_of_vec_fun b _

open Cert.ReferenceIdeal.RefGin Cert.ReferenceIdeal.RefMsg

variable (x z : FVec Ideal S20000x128 .f32) (s d : IVec S320000 32) (e : FVec Ideal S320000x128 .f32)
  (W1 W2 : FVec Ideal S128x128 .f32) (b1 b2 : FVec Ideal S128 .f32)

-- Entry by entry the reference's layer and message are the specification's, whatever the endpoints and weights.
theorem act_eq : refGinAct x (gagg z d (refMsg (grows x s) e)) W1 b1 W2 b2
    = Cert.Spec.ginActG 20000 x (gagg z d (Cert.Spec.msgG 320000 (grows x s) e)) W1 (grow b1) W2 (grow b2) := by
  rw [refGinAct_eq, refMsg_eq, grow_eq, grow_eq]

theorem lin_eq : refGinLin x (gagg z d (refMsg (grows x s) e)) W1 b1 W2 b2
    = Cert.Spec.ginLinG 20000 x (gagg z d (Cert.Spec.msgG 320000 (grows x s) e)) W1 (grow b1) W2 (grow b2) := by
  rw [refGinLin_eq, refMsg_eq, grow_eq, grow_eq]

end Terms

section Kernel

open Cert.KernelIdeal Cert.KernelIdeal.Gen Cert.KernelIdeal.KStep

variable {m : (ℓ : Loc nD τ sig) → Buf (Elt Ideal) ℓ} {ρ : Dev nD → PrngReg} {c : Dev nD}

-- A region leaves an array it takes as input as it found it; nothing else on the way names the edge attributes.
theorem ea6 : W6 m ρ c main_v78 = W4 m ρ c main_v78 :=
  (W6_of_ne m ρ c main_v78 (by decide)).trans (keepH1 m ρ c main_v78 (by decide))
theorem ea10 : W10 m ρ c main_v78 = W4 m ρ c main_v78 :=
  (W10_of_ne m ρ c main_v78 (by decide)).trans ((keepH3 m ρ c main_v78 (by decide)).trans
    (((W8_arr m ρ c 1).trans (((dat2 (V7 m ρ) c).arrAt_in 1 rfl _).trans (A_eq2 (V7 m ρ) c 1))).trans
      ((keepH2 m ρ c main_v78 (by decide)).trans ea6)))
theorem ea14 : W14 m ρ c main_v78 = W4 m ρ c main_v78 :=
  (W14_of_ne m ρ c main_v78 (by decide)).trans ((keepH5 m ρ c main_v78 (by decide)).trans
    (((W12_arr m ρ c 1).trans (((dat4 (V11 m ρ) c).arrAt_in 1 rfl _).trans (A_eq4 (V11 m ρ) c 1))).trans
      ((keepH4 m ρ c main_v78 (by decide)).trans ea10)))
theorem ea18 : W18 m ρ c main_v78 = W4 m ρ c main_v78 :=
  (W18_of_ne m ρ c main_v78 (by decide)).trans ((keepH7 m ρ c main_v78 (by decide)).trans
    (((W16_arr m ρ c 1).trans (((dat6 (V15 m ρ) c).arrAt_in 1 rfl _).trans (A_eq6 (V15 m ρ) c 1))).trans
      ((keepH6 m ρ c main_v78 (by decide)).trans ea14)))

end Kernel

section Reference

open Cert.ReferenceIdeal Cert.ReferenceIdeal.RefRun Cert.ReferenceIdeal.RStep

variable {m' : (ℓ : Loc nD τ sig) → Buf (Elt Ideal) ℓ} {c : Dev nD} (r : Ref sig .tc)

theorem rcarry3 (h : r ∉ wr2 ∧ r ∉ wr1) : R3 m' c r = R1 m' c r := (keep2 m' c r h.1).trans (keep1 m' c r h.2)
theorem rcarry4 (h : r ∉ wr3 ∧ r ∉ wr2 ∧ r ∉ wr1) : R4 m' c r = R1 m' c r := (keep3 m' c r h.1).trans (rcarry3 r h.2)
theorem rArg {v : Valuation τ sig (Elt Ideal)} (h : v r = R1 m' c r) (h0 : r ∉ wr0) :
    v r = m' ((c.tc : Thread nD τ).loc r) :=
  h.trans ((keep0 m' c r h0).trans rfl)

end Reference

end Cert.Layer

end
-- ==== Proof.LibGin.lean ====
import proofs.«404108_j19344532701343_1_alg».proof.Proof.Gen.KernelIdeal.Frame
import proofs.«404108_j19344532701343_1_alg».proof.Proof.Spec
import proofs.«404108_j19344532701343_1_alg».proof.Proof.LibDot
import Idealize.ShloMosaic.Lib.ValueIdx
import Idealize.ShloMosaic.Lib.ValueLayout
import Idealize.ShloMosaic.PureOps.Ideal.Laws

noncomputable section

open scoped BigOperators

namespace Cert.KernelIdeal.LibGin

open Cert.KernelIdeal Cert.KernelIdeal.Gen Idealize.ShloMosaic Idealize.ShloMosaic.ValueIdx

theorem max_zero_word (x : EReal) : max x (Scalar.ofBits (F := Ideal) .f32 0x00000000#32) = Cert.Spec.relu x := by
  show max x (Ideal.ofBits .f32 0x00000000#32) = max x 0
  rw [Ideal.ofBits_zero_f32]

-- On a block the message stage adds entry by entry and rectifies.
theorem pay_msg (x0 x1 : Vec Ideal S2000x128 .f32) : k2_pay1 (F := Ideal) x0 x1 = Cert.Spec.msgG 2000 x0 x1 := by
  funext j
  show max (shapeCast S2000x128 x0 shapeCasts_S2000x128_S2000x128 j + shapeCast S2000x128 x1 shapeCasts_S2000x128_S2000x128 j)
      (Ideal.ofBits .f32 0x00000000#32) = max (x0 j + x1 j) 0
  rw [shapeCast_self, shapeCast_self, Ideal.ofBits_zero_f32]

variable (x0 x1 : Vec Ideal S2000x128 .f32) (W1 : Vec Ideal S128x128 .f32) (b1 : Vec Ideal S1x128 .f32)
  (W2 : Vec Ideal S128x128 .f32) (b2 : Vec Ideal S1x128 .f32) (r : Fin 2000) (q : Fin 128)

-- At the extended reals rounding to a narrower float format changes nothing, so each product is the plain sum over the 128 contracted positions.
theorem pay_act : k3_pay1 (F := Ideal) x0 x1 W1 b1 W2 b2 (ix2 r q)
    = Cert.Spec.ginRowAct (fun k => x0 (ix2 r k)) (fun k => x1 (ix2 r k)) (fun a b => W1 (ix2 a b))
        (fun k => b1 (ix2 (0 : Fin 1) k)) (fun a b => W2 (ix2 a b)) (fun k => b2 (ix2 (0 : Fin 1) k)) q := by
  simp only [k3_pay1, shapeCast_self, addf_apply, maximumf_apply, broadcast_apply, max_zero_word,
    Cert.LibDot.matmul_apply dot_S2000x128_S128x128_S2000x128_1_0_0_1_n_n rfl, truncf_apply, broadcastTo_1b_ab_apply]
  rfl

theorem pay_lin : k9_pay1 (F := Ideal) x0 x1 W1 b1 W2 b2 (ix2 r q)
    = Cert.Spec.ginRowLin (fun k => x0 (ix2 r k)) (fun k => x1 (ix2 r k)) (fun a b => W1 (ix2 a b))
        (fun k => b1 (ix2 (0 : Fin 1) k)) (fun a b => W2 (ix2 a b)) (fun k => b2 (ix2 (0 : Fin 1) k)) q := by
  simp only [k9_pay1, shapeCast_self, addf_apply, maximumf_apply, broadcast_apply, max_zero_word,
    Cert.LibDot.matmul_apply dot_S2000x128_S128x128_S2000x128_1_0_0_1_n_n rfl, truncf_apply, broadcastTo_1b_ab_apply]
  rfl

-- A row function of six operands and a column takes equal values at pointwise equal operands.
theorem row_congr {α β γ : Type} (F : (α → EReal) → (α → EReal) → (β → β → EReal) → (α → EReal) → (β → β → EReal) → (α → EReal) → γ → EReal)
    {x x' a a' b1 b1' b2 b2' : α → EReal} {W1 W1' W2 W2' : β → β → EReal} {q q' : γ} (hx : ∀ k, x k = x' k) (ha : ∀ k, a k = a' k)
    (h1 : ∀ i j, W1 i j = W1' i j) (hb1 : ∀ k, b1 k = b1' k) (h2 : ∀ i j, W2 i j = W2' i j) (hb2 : ∀ k, b2 k = b2' k) (hq : q = q') :
    F x a W1 b1 W2 b2 q = F x' a' W1' b1' W2' b2' q' := by
  rw [funext hx, funext ha, funext fun i => funext (h1 i), funext hb1, funext fun i => funext (h2 i), funext hb2, hq]

end Cert.KernelIdeal.LibGin

end
-- ==== Proof.Reg2.lean ====
import proofs.«404108_j19344532701343_1_alg».proof.Proof.LibBlock
import proofs.«404108_j19344532701343_1_alg».proof.Proof.LibGin

noncomputable section

namespace Cert.KernelIdeal.Reg2

open Cert.KernelIdeal Cert.KernelIdeal.Gen Cert.LibBlock Idealize.ShloMosaic Idealize.ShloMosaic.TcCoe

variable (V : (c : Dev nD) → (b : Ref sig .tc) → Buf (Elt Ideal) ((c : Thread nD τ).loc b)) (c : Dev nD)

theorem idx_facts : ∀ (t : Fin cfg2.N) (a : Fin 2), win2_0.index t a = win2_2.index t a
    ∧ win2_1.index t a = win2_2.index t a ∧ win2_2.index t a = if a = 0 then t.val else 0 :=
  (by decide +kernel : ∀ t : Fin grid2.N, _)

-- The three blocks at a point sit at the same rows, the message is taken entry by entry, and the output's blocks cover it.
theorem arr : (Gen.dat2 (F := Ideal) V c).arrAt 2 cfg2.N = Cert.Spec.msgG 320000 (V c main_v87) (V c main_v78) := by
  refine (dat2 V c).arrAt_eq_of_cover 2 _ (fun t _ => ?_) fun i =>
    (cover_axis win2_2 (Memref.isWhole_whole _) 0 (fun _ _ => rfl) (fun t a => (idx_facts t a).2.2) (by decide) (by decide)
      (by decide) i).imp fun t h => ⟨flush2_2 t, h⟩
  show (cfg2.win 2).cut (grid2.coords t) ((dat2 V c).after 2 t) = _
  rw [after2_2]
  unfold out2_2
  rw [View.canon_unit_zero hz]
  simp only [View.ld_unit_zero (S := S2000x128) hz]
  rw [LibGin.pay_msg]
  funext j
  exact congrArg₂ Cert.Spec.msgAt
    (congrArg (V c main_v87) (funext fun a => Fin.ext
      (emb_val_eq win2_0 (Memref.isWhole_whole _) t (Memref.isWhole_whole _) j j rfl rfl (idx_facts t a).1 rfl rfl)))
    (congrArg (V c main_v78) (funext fun a => Fin.ext
      (emb_val_eq win2_1 (Memref.isWhole_whole _) t (Memref.isWhole_whole _) j j rfl rfl (idx_facts t a).2.1 rfl rfl)))

end Cert.KernelIdeal.Reg2

end
-- ==== Proof.Reg3.lean ====
import proofs.«404108_j19344532701343_1_alg».proof.Proof.LibBlock
import proofs.«404108_j19344532701343_1_alg».proof.Proof.LibGin

noncomputable section

namespace Cert.KernelIdeal.Reg3

open Cert.KernelIdeal Cert.KernelIdeal.Gen Cert.LibBlock Idealize.ShloMosaic Idealize.ShloMosaic.ValueIdx Idealize.ShloMosaic.TcCoe

variable (V : (c : Dev nD) → (b : Ref sig .tc) → Buf (Elt Ideal) ((c : Thread nD τ).loc b)) (c : Dev nD)

theorem idx_facts : ∀ (t : Fin cfg3.N) (a : Fin 2), win3_0.index t a = win3_6.index t a
    ∧ win3_1.index t a = win3_6.index t a ∧ win3_2.index t a = 0 ∧ win3_3.index t a = 0 ∧ win3_4.index t a = 0
    ∧ win3_5.index t a = 0 ∧ win3_6.index t a = if a = 0 then t.val else 0 :=
  (by decide +kernel : ∀ t : Fin grid3.N, _)

-- The two node blocks and the output block at a point sit at the same rows; the tables and bias rows are whole.
theorem blk_pay (t : Fin cfg3.N) (r : Fin 2000) (q : Fin 128) : k3_pay1 (F := Ideal) (iblk3 V c 0 t) (iblk3 V c 1 t) (iblk3 V c 2 t) (iblk3 V c 3 t) (iblk3 V c 4 t) (iblk3 V c 5 t) (ix2 r q)
    = Cert.Spec.ginActG 20000 (V c main_v80) (V c main_v91) (V c main_v93) (V c main_v96) (V c main_v98) (V c main_v101) (((cfg3.win 6).blk t).view.emb (ix2 r q)) := by
  refine (LibGin.pay_act _ _ _ _ _ _ r q).trans ?_
  obtain ⟨a0, a1, -⟩ := idx_facts t 0
  obtain ⟨b0, b1, -, -, -, -, b6⟩ := idx_facts t 1
  refine LibGin.row_congr Cert.Spec.ginRowAct (fun k => ?_) (fun k => ?_) (fun _ _ => ?_) (fun _ => ?_) (fun _ _ => ?_) (fun _ => ?_)
    (Fin.ext (emb_val_zero win3_6 (Memref.isWhole_whole _) t (ix2 r q) rfl b6).symm)
  · exact congrArg (V c main_v80) (idx_ext2 (emb_val_eq win3_0 (Memref.isWhole_whole _) t (Memref.isWhole_whole _) (ix2 r k) (ix2 r q) rfl rfl a0 rfl rfl)
      (emb_val_zero win3_0 (Memref.isWhole_whole _) t (ix2 r k) rfl (b0.trans b6)))
  · exact congrArg (V c main_v91) (idx_ext2 (emb_val_eq win3_1 (Memref.isWhole_whole _) t (Memref.isWhole_whole _) (ix2 r k) (ix2 r q) rfl rfl a1 rfl rfl)
      (emb_val_zero win3_1 (Memref.isWhole_whole _) t (ix2 r k) rfl (b1.trans b6)))
  · exact congrArg (V c main_v93) (funext fun d => Fin.ext (emb_val_zero win3_2 (Memref.isWhole_whole _) t _ rfl (idx_facts t d).2.2.1))
  · exact congrArg (V c main_v96) (funext fun d => Fin.ext (emb_val_zero win3_3 (Memref.isWhole_whole _) t _ rfl (idx_facts t d).2.2.2.1))
  · exact congrArg (V c main_v98) (funext fun d => Fin.ext (emb_val_zero win3_4 (Memref.isWhole_whole _) t _ rfl (idx_facts t d).2.2.2.2.1))
  · exact congrArg (V c main_v101) (funext fun d => Fin.ext (emb_val_zero win3_5 (Memref.isWhole_whole _) t _ rfl (idx_facts t d).2.2.2.2.2.1))

-- Each block of the output is the layer of the arrays at its rows, and the blocks cover the output.
theorem arr : (dat3 (F := Ideal) V c).arrAt 6 cfg3.N = Cert.Spec.ginActG 20000 (V c main_v80) (V c main_v91) (V c main_v93) (V c main_v96) (V c main_v98) (V c main_v101) := by
  refine (dat3 V c).arrAt_eq_of_cover 6 _ (fun t _ => ?_) fun i =>
    (cover_axis win3_6 (Memref.isWhole_whole _) 0 (fun _ _ => rfl) (fun t a => (idx_facts t a).2.2.2.2.2.2) (by decide) (by decide)
      (by decide) i).imp fun t h => ⟨flush3_6 t, h⟩
  show (cfg3.win 6).cut (grid3.coords t) ((dat3 V c).after 6 t) = _
  rw [after3_6]
  unfold out3_6
  rw [View.canon_unit_zero hz]
  simp only [View.ld_unit_zero (S := S2000x128) hz, View.ld_unit_zero (S := S128x128) hz, View.ld_unit_zero (S := S1x128) hz]
  funext j
  obtain ⟨r, q, rfl⟩ : ∃ (r : Fin 2000) (q : Fin 128), j = ix2 r q := ⟨j 0, j 1, eq_ix2 j⟩
  exact blk_pay V c t r q

end Cert.KernelIdeal.Reg3

end
-- ==== Proof.SimLayer0.lean ====
import proofs.«404108_j19344532701343_1_alg».proof.Proof.LayerTerms
import proofs.«404108_j19344532701343_1_alg».proof.Proof.Reg2
import proofs.«404108_j19344532701343_1_alg».proof.Proof.Reg3

noncomputable section

namespace Cert.SimLayer0

open Idealize.ShloMosaic Idealize.ShloMosaic.TcCoe Idealize.SL.Sem Idealize.ShloMosaic.StableHlo Cert.Layer

section Reference

open Cert.ReferenceIdeal Cert.ReferenceIdeal.RefRun Cert.ReferenceIdeal.RefOps Cert.ReferenceIdeal.RStep
open Cert.ReferenceIdeal.RefGin Cert.ReferenceIdeal.RefMsg

theorem r_fold (V : Valuation τ sig (Elt Ideal)) (e) (he : after ops2 V main_v100 = e) :
    after ops2 V main_v132 = refGinAct (V main_v56) (gagg gzero (V main_v3) (refMsg (grows (V main_v56) (V main_v1)) e))
      (gtab 0 (V main_arg18)) (gvec 0 (V main_arg19)) (gtab 0 (V main_arg20)) (gvec 0 (V main_arg21)) := by
  subst he; after_results_simp <;> rfl

variable (m' : (ℓ : Loc nD τ sig) → Buf (Elt Ideal) ℓ) (c : Dev nD)

-- The window's operations compose to the reference's message and layer functions, which are the specification's.
theorem r_layer (e) (he : R3 m' c main_v100 = e) : R3 m' c main_v132
    = Cert.Spec.ginActG 20000 (R2 m' c main_v56)
        (gagg gzero (R1 m' c main_v3) (Cert.Spec.msgG 320000 (grows (R2 m' c main_v56) (R1 m' c main_v1)) e))
        (gtab 0 (m' ((c.tc : Thread nD τ).loc main_arg18))) (grow (gvec 0 (m' ((c.tc : Thread nD τ).loc main_arg19)))) (gtab 0 (m' ((c.tc : Thread nD τ).loc main_arg20))) (grow (gvec 0 (m' ((c.tc : Thread nD τ).loc main_arg21)))) := by
  refine (r_fold (R2 m' c) e he).trans ?_
  rw [act_eq, keep1 m' c main_v1 (by decide), keep1 m' c main_v3 (by decide),
    rArg main_arg18 (keep1 m' c _ (by decide)) (by decide),
    rArg main_arg19 (keep1 m' c _ (by decide)) (by decide),
    rArg main_arg20 (keep1 m' c _ (by decide)) (by decide),
    rArg main_arg21 (keep1 m' c _ (by decide)) (by decide)]

end Reference

section Kernel

open Cert.KernelIdeal Cert.KernelIdeal.Gen Cert.KernelIdeal.KStep Cert.KernelIdeal.KCarry

theorem kA (v : Valuation τ sig (Elt Ideal)) :
    Cert.Spec.msgG 320000 (after hostOps2 v main_v87) (after hostOps2 v main_v78)
      = Cert.Spec.msgG 320000 (grows (v main_v80) (v main_v1)) (v main_v78) := by
  after_results_simp <;> rfl

theorem kB (v : Valuation τ sig (Elt Ideal)) :
    Cert.Spec.ginActG 20000 (after hostOps3 v main_v80) (after hostOps3 v main_v91) (after hostOps3 v main_v93) (after hostOps3 v main_v96) (after hostOps3 v main_v98) (after hostOps3 v main_v101)
      = Cert.Spec.ginActG 20000 (v main_v80) (gagg gzero (v main_v3) (v main_v88)) (gtab 0 (v main_arg18)) (grow (gvec 0 (v main_arg19))) (gtab 0 (v main_arg20)) (grow (gvec 0 (v main_arg21))) := by
  after_results_simp <;> rfl

variable (m : (ℓ : Loc nD τ sig) → Buf (Elt Ideal) ℓ) (ρ : Dev nD → PrngReg) (c : Dev nD)

-- The two regions compute the specification's messages and layer from what the host stretches hand them.
theorem k_layer : W10 m ρ c main_v102
    = Cert.Spec.ginActG 20000 (W6 m ρ c main_v80)
        (gagg gzero (W1 m ρ c main_v3) (Cert.Spec.msgG 320000 (grows (W6 m ρ c main_v80) (W1 m ρ c main_v1)) (W4 m ρ c main_v78)))
        (gtab 0 (m ((c.tc : Thread nD τ).loc main_arg18))) (grow (gvec 0 (m ((c.tc : Thread nD τ).loc main_arg19)))) (gtab 0 (m ((c.tc : Thread nD τ).loc main_arg20))) (grow (gvec 0 (m ((c.tc : Thread nD τ).loc main_arg21)))) := by
  refine (((W10_arr m ρ c 6).trans (Reg3.arr (V9 m ρ) c)).trans (kB (W8 m ρ c))).trans ?_
  rw [show W8 m ρ c main_v88 = _ from ((W8_arr m ρ c 2).trans (Reg2.arr (V7 m ρ) c)).trans (kA (W6 m ρ c)),
    (W8_of_ne m ρ c main_v80 (by decide)).trans (keepH2 m ρ c main_v80 (by decide)),
    carry8 main_v3 (by decide), carry6 main_v1 (by decide), ea6,
    toArg main_arg18 (carry8 _ (by decide)) (by decide),
    toArg main_arg19 (carry8 _ (by decide)) (by decide),
    toArg main_arg20 (carry8 _ (by decide)) (by decide),
    toArg main_arg21 (carry8 _ (by decide)) (by decide)]

end Kernel

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

theorem layer0 (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (hx : Cert.ReferenceIdeal.RefRun.R2 m' c (Proc.devRef .tc Cert.ReferenceIdeal.main_v56) = Cert.KernelIdeal.Gen.W6 m ρ c (Proc.devRef .tc Cert.KernelIdeal.main_v80))
    (hv1 : Cert.ReferenceIdeal.RefRun.R1 m' c (Proc.devRef .tc Cert.ReferenceIdeal.main_v1) = Cert.KernelIdeal.Gen.W1 m ρ c (Proc.devRef .tc Cert.KernelIdeal.main_v1))
    (hv3 : Cert.ReferenceIdeal.RefRun.R1 m' c (Proc.devRef .tc Cert.ReferenceIdeal.main_v3) = Cert.KernelIdeal.Gen.W1 m ρ c (Proc.devRef .tc Cert.KernelIdeal.main_v3))
    (hea : Cert.ReferenceIdeal.RefRun.R3 m' c (Proc.devRef .tc Cert.ReferenceIdeal.main_v100) = Cert.KernelIdeal.Gen.W4 m ρ c (Proc.devRef .tc Cert.KernelIdeal.main_v78)) :
    Cert.ReferenceIdeal.RefRun.R3 m' c (Proc.devRef .tc Cert.ReferenceIdeal.main_v132) = Cert.KernelIdeal.Gen.W10 m ρ c (Proc.devRef .tc Cert.KernelIdeal.main_v102) := by
  rw [r_layer m' c _ hea, k_layer m ρ c, hx, hv1, hv3, h18, h19, h20, h21]

end Cert.SimLayer0

end
-- ==== Proof.Reg4.lean ====
import proofs.«404108_j19344532701343_1_alg».proof.Proof.LibBlock
import proofs.«404108_j19344532701343_1_alg».proof.Proof.LibGin

noncomputable section

namespace Cert.KernelIdeal.Reg4

open Cert.KernelIdeal Cert.KernelIdeal.Gen Cert.LibBlock Idealize.ShloMosaic Idealize.ShloMosaic.TcCoe

variable (V : (c : Dev nD) → (b : Ref sig .tc) → Buf (Elt Ideal) ((c : Thread nD τ).loc b)) (c : Dev nD)

theorem idx_facts : ∀ (t : Fin cfg4.N) (a : Fin 2), win4_0.index t a = win4_2.index t a
    ∧ win4_1.index t a = win4_2.index t a ∧ win4_2.index t a = if a = 0 then t.val else 0 :=
  (by decide +kernel : ∀ t : Fin grid4.N, _)

-- The three blocks at a point sit at the same rows, the message is taken entry by entry, and the output's blocks cover it.
theorem arr : (Gen.dat4 (F := Ideal) V c).arrAt 2 cfg4.N = Cert.Spec.msgG 320000 (V c main_v109) (V c main_v78) := by
  refine (dat4 V c).arrAt_eq_of_cover 2 _ (fun t _ => ?_) fun i =>
    (cover_axis win4_2 (Memref.isWhole_whole _) 0 (fun _ _ => rfl) (fun t a => (idx_facts t a).2.2) (by decide) (by decide)
      (by decide) i).imp fun t h => ⟨flush4_2 t, h⟩
  show (cfg4.win 2).cut (grid4.coords t) ((dat4 V c).after 2 t) = _
  rw [after4_2]
  unfold out4_2
  rw [View.canon_unit_zero hz]
  simp only [View.ld_unit_zero (S := S2000x128) hz]
  rw [show k4_pay1 (F := Ideal) = k2_pay1 from rfl, LibGin.pay_msg]
  funext j
  exact congrArg₂ Cert.Spec.msgAt
    (congrArg (V c main_v109) (funext fun a => Fin.ext
      (emb_val_eq win4_0 (Memref.isWhole_whole _) t (Memref.isWhole_whole _) j j rfl rfl (idx_facts t a).1 rfl rfl)))
    (congrArg (V c main_v78) (funext fun a => Fin.ext
      (emb_val_eq win4_1 (Memref.isWhole_whole _) t (Memref.isWhole_whole _) j j rfl rfl (idx_facts t a).2.1 rfl rfl)))

end Cert.KernelIdeal.Reg4

end
-- ==== Proof.Reg5.lean ====
import proofs.«404108_j19344532701343_1_alg».proof.Proof.LibBlock
import proofs.«404108_j19344532701343_1_alg».proof.Proof.LibGin

noncomputable section

namespace Cert.KernelIdeal.Reg5

open Cert.KernelIdeal Cert.KernelIdeal.Gen Cert.LibBlock Idealize.ShloMosaic Idealize.ShloMosaic.ValueIdx Idealize.ShloMosaic.TcCoe

variable (V : (c : Dev nD) → (b : Ref sig .tc) → Buf (Elt Ideal) ((c : Thread nD τ).loc b)) (c : Dev nD)

theorem idx_facts : ∀ (t : Fin cfg5.N) (a : Fin 2), win5_0.index t a = win5_6.index t a
    ∧ win5_1.index t a = win5_6.index t a ∧ win5_2.index t a = 0 ∧ win5_3.index t a = 0 ∧ win5_4.index t a = 0
    ∧ win5_5.index t a = 0 ∧ win5_6.index t a = if a = 0 then t.val else 0 :=
  (by decide +kernel : ∀ t : Fin grid5.N, _)

-- The two node blocks and the output block at a point sit at the same rows; the tables and bias rows are whole.
theorem blk_pay (t : Fin cfg5.N) (r : Fin 2000) (q : Fin 128) : k5_pay1 (F := Ideal) (iblk5 V c 0 t) (iblk5 V c 1 t) (iblk5 V c 2 t) (iblk5 V c 3 t) (iblk5 V c 4 t) (iblk5 V c 5 t) (ix2 r q)
    = Cert.Spec.ginActG 20000 (V c main_v102) (V c main_v113) (V c main_v115) (V c main_v118) (V c main_v120) (V c main_v123) (((cfg5.win 6).blk t).view.emb (ix2 r q)) := by
  refine (LibGin.pay_act _ _ _ _ _ _ r q).trans ?_
  obtain ⟨a0, a1, -⟩ := idx_facts t 0
  obtain ⟨b0, b1, -, -, -, -, b6⟩ := idx_facts t 1
  refine LibGin.row_congr Cert.Spec.ginRowAct (fun k => ?_) (fun k => ?_) (fun _ _ => ?_) (fun _ => ?_) (fun _ _ => ?_) (fun _ => ?_)
    (Fin.ext (emb_val_zero win5_6 (Memref.isWhole_whole _) t (ix2 r q) rfl b6).symm)
  · exact congrArg (V c main_v102) (idx_ext2 (emb_val_eq win5_0 (Memref.isWhole_whole _) t (Memref.isWhole_whole _) (ix2 r k) (ix2 r q) rfl rfl a0 rfl rfl)
      (emb_val_zero win5_0 (Memref.isWhole_whole _) t (ix2 r k) rfl (b0.trans b6)))
  · exact congrArg (V c main_v113) (idx_ext2 (emb_val_eq win5_1 (Memref.isWhole_whole _) t (Memref.isWhole_whole _) (ix2 r k) (ix2 r q) rfl rfl a1 rfl rfl)
      (emb_val_zero win5_1 (Memref.isWhole_whole _) t (ix2 r k) rfl (b1.trans b6)))
  · exact congrArg (V c main_v115) (funext fun d => Fin.ext (emb_val_zero win5_2 (Memref.isWhole_whole _) t _ rfl (idx_facts t d).2.2.1))
  · exact congrArg (V c main_v118) (funext fun d => Fin.ext (emb_val_zero win5_3 (Memref.isWhole_whole _) t _ rfl (idx_facts t d).2.2.2.1))
  · exact congrArg (V c main_v120) (funext fun d => Fin.ext (emb_val_zero win5_4 (Memref.isWhole_whole _) t _ rfl (idx_facts t d).2.2.2.2.1))
  · exact congrArg (V c main_v123) (funext fun d => Fin.ext (emb_val_zero win5_5 (Memref.isWhole_whole _) t _ rfl (idx_facts t d).2.2.2.2.2.1))

-- Each block of the output is the layer of the arrays at its rows, and the blocks cover the output.
theorem arr : (dat5 (F := Ideal) V c).arrAt 6 cfg5.N = Cert.Spec.ginActG 20000 (V c main_v102) (V c main_v113) (V c main_v115) (V c main_v118) (V c main_v120) (V c main_v123) := by
  refine (dat5 V c).arrAt_eq_of_cover 6 _ (fun t _ => ?_) fun i =>
    (cover_axis win5_6 (Memref.isWhole_whole _) 0 (fun _ _ => rfl) (fun t a => (idx_facts t a).2.2.2.2.2.2) (by decide) (by decide)
      (by decide) i).imp fun t h => ⟨flush5_6 t, h⟩
  show (cfg5.win 6).cut (grid5.coords t) ((dat5 V c).after 6 t) = _
  rw [after5_6]
  unfold out5_6
  rw [View.canon_unit_zero hz]
  simp only [View.ld_unit_zero (S := S2000x128) hz, View.ld_unit_zero (S := S128x128) hz, View.ld_unit_zero (S := S1x128) hz]
  funext j
  obtain ⟨r, q, rfl⟩ : ∃ (r : Fin 2000) (q : Fin 128), j = ix2 r q := ⟨j 0, j 1, eq_ix2 j⟩
  exact blk_pay V c t r q

end Cert.KernelIdeal.Reg5

end
-- ==== Proof.SimLayer1.lean ====
import proofs.«404108_j19344532701343_1_alg».proof.Proof.LayerTerms
import proofs.«404108_j19344532701343_1_alg».proof.Proof.Reg4
import proofs.«404108_j19344532701343_1_alg».proof.Proof.Reg5

noncomputable section

namespace Cert.SimLayer1

open Idealize.ShloMosaic Idealize.ShloMosaic.TcCoe Idealize.SL.Sem Idealize.ShloMosaic.StableHlo Cert.Layer

section Reference

open Cert.ReferenceIdeal Cert.ReferenceIdeal.RefRun Cert.ReferenceIdeal.RefOps Cert.ReferenceIdeal.RStep
open Cert.ReferenceIdeal.RefGin Cert.ReferenceIdeal.RefMsg

theorem r_a (V : Valuation τ sig (Elt Ideal)) (x e) (hx : after ops2 V main_v132 = x) (he : after ops2 V main_v100 = e) :
    addf (after ops2 V main_v148) (after ops2 V main_v152)
      = refDense (addf x (gagg gzero (V main_v3) (refMsg (grows x (V main_v1)) e))) (gtab 1 (V main_arg18)) (gvec 1 (V main_arg19)) := by
  subst hx he; after_results_simp <;> rfl

theorem r_b (V : Valuation τ sig (Elt Ideal)) : after ops3 V main_v164
    = addf (refRelu (refDense (refRelu (addf (V main_v148) (V main_v152))) (gtab 1 (V main_arg20)) (gvec 1 (V main_arg21)))) (V main_v132) := by
  after_results_simp <;> rfl

variable (m' : (ℓ : Loc nD τ sig) → Buf (Elt Ideal) ℓ) (c : Dev nD)

-- The first dense step lies in one window and the rest of the layer in the next; together they are the reference's layer function.
theorem r_layer (x e) (hx : R3 m' c main_v132 = x) (he : R3 m' c main_v100 = e) : R4 m' c main_v164
    = Cert.Spec.ginActG 20000 x
        (gagg gzero (R1 m' c main_v3) (Cert.Spec.msgG 320000 (grows x (R1 m' c main_v1)) e))
        (gtab 1 (m' ((c.tc : Thread nD τ).loc main_arg18))) (grow (gvec 1 (m' ((c.tc : Thread nD τ).loc main_arg19)))) (gtab 1 (m' ((c.tc : Thread nD τ).loc main_arg20))) (grow (gvec 1 (m' ((c.tc : Thread nD τ).loc main_arg21)))) := by
  refine (r_b (R3 m' c)).trans ?_
  rw [r_a (R2 m' c) x e hx he, hx]
  show refGinAct x _ _ _ _ _ = _
  rw [act_eq, keep1 m' c main_v1 (by decide), keep1 m' c main_v3 (by decide),
    rArg main_arg18 (keep1 m' c _ (by decide)) (by decide),
    rArg main_arg19 (keep1 m' c _ (by decide)) (by decide),
    rArg main_arg20 (rcarry3 _ (by decide)) (by decide),
    rArg main_arg21 (rcarry3 _ (by decide)) (by decide)]

end Reference

section Kernel

open Cert.KernelIdeal Cert.KernelIdeal.Gen Cert.KernelIdeal.KStep Cert.KernelIdeal.KCarry

theorem kA (v : Valuation τ sig (Elt Ideal)) :
    Cert.Spec.msgG 320000 (after hostOps4 v main_v109) (after hostOps4 v main_v78)
      = Cert.Spec.msgG 320000 (grows (v main_v102) (v main_v1)) (v main_v78) := by
  after_results_simp <;> rfl

theorem kB (v : Valuation τ sig (Elt Ideal)) :
    Cert.Spec.ginActG 20000 (after hostOps5 v main_v102) (after hostOps5 v main_v113) (after hostOps5 v main_v115) (after hostOps5 v main_v118) (after hostOps5 v main_v120) (after hostOps5 v main_v123)
      = Cert.Spec.ginActG 20000 (v main_v102) (gagg gzero (v main_v3) (v main_v110)) (gtab 1 (v main_arg18)) (grow (gvec 1 (v main_arg19))) (gtab 1 (v main_arg20)) (grow (gvec 1 (v main_arg21))) := by
  after_results_simp <;> rfl

variable (m : (ℓ : Loc nD τ sig) → Buf (Elt Ideal) ℓ) (ρ : Dev nD → PrngReg) (c : Dev nD)

-- The two regions compute the specification's messages and layer from what the host stretches hand them.
theorem k_layer : W14 m ρ c main_v124
    = Cert.Spec.ginActG 20000 (W10 m ρ c main_v102)
        (gagg gzero (W1 m ρ c main_v3) (Cert.Spec.msgG 320000 (grows (W10 m ρ c main_v102) (W1 m ρ c main_v1)) (W4 m ρ c main_v78)))
        (gtab 1 (m ((c.tc : Thread nD τ).loc main_arg18))) (grow (gvec 1 (m ((c.tc : Thread nD τ).loc main_arg19)))) (gtab 1 (m ((c.tc : Thread nD τ).loc main_arg20))) (grow (gvec 1 (m ((c.tc : Thread nD τ).loc main_arg21)))) := by
  refine (((W14_arr m ρ c 6).trans (Reg5.arr (V13 m ρ) c)).trans (kB (W12 m ρ c))).trans ?_
  rw [show W12 m ρ c main_v110 = _ from ((W12_arr m ρ c 2).trans (Reg4.arr (V11 m ρ) c)).trans (kA (W10 m ρ c)),
    (W12_of_ne m ρ c main_v102 (by decide)).trans (keepH4 m ρ c main_v102 (by decide)),
    carry12 main_v3 (by decide), carry10 main_v1 (by decide), ea10,
    toArg main_arg18 (carry12 _ (by decide)) (by decide),
    toArg main_arg19 (carry12 _ (by decide)) (by decide),
    toArg main_arg20 (carry12 _ (by decide)) (by decide),
    toArg main_arg21 (carry12 _ (by decide)) (by decide)]

end Kernel

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

theorem layer1
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (hx : Cert.ReferenceIdeal.RefRun.R3 m' c (Proc.devRef .tc Cert.ReferenceIdeal.main_v132) = Cert.KernelIdeal.Gen.W10 m ρ c (Proc.devRef .tc Cert.KernelIdeal.main_v102))
    (hv1 : Cert.ReferenceIdeal.RefRun.R1 m' c (Proc.devRef .tc Cert.ReferenceIdeal.main_v1) = Cert.KernelIdeal.Gen.W1 m ρ c (Proc.devRef .tc Cert.KernelIdeal.main_v1))
    (hv3 : Cert.ReferenceIdeal.RefRun.R1 m' c (Proc.devRef .tc Cert.ReferenceIdeal.main_v3) = Cert.KernelIdeal.Gen.W1 m ρ c (Proc.devRef .tc Cert.KernelIdeal.main_v3))
    (hea : Cert.ReferenceIdeal.RefRun.R3 m' c (Proc.devRef .tc Cert.ReferenceIdeal.main_v100) = Cert.KernelIdeal.Gen.W4 m ρ c (Proc.devRef .tc Cert.KernelIdeal.main_v78)) :
    Cert.ReferenceIdeal.RefRun.R4 m' c (Proc.devRef .tc Cert.ReferenceIdeal.main_v164) = Cert.KernelIdeal.Gen.W14 m ρ c (Proc.devRef .tc Cert.KernelIdeal.main_v124) := by
  rw [r_layer m' c _ _ hx hea, k_layer m ρ c, hv1, hv3, h18, h19, h20, h21]

end Cert.SimLayer1

end
-- ==== Proof.Reg6.lean ====
import proofs.«404108_j19344532701343_1_alg».proof.Proof.LibBlock
import proofs.«404108_j19344532701343_1_alg».proof.Proof.LibGin

noncomputable section

namespace Cert.KernelIdeal.Reg6

open Cert.KernelIdeal Cert.KernelIdeal.Gen Cert.LibBlock Idealize.ShloMosaic Idealize.ShloMosaic.TcCoe

variable (V : (c : Dev nD) → (b : Ref sig .tc) → Buf (Elt Ideal) ((c : Thread nD τ).loc b)) (c : Dev nD)

theorem idx_facts : ∀ (t : Fin cfg6.N) (a : Fin 2), win6_0.index t a = win6_2.index t a
    ∧ win6_1.index t a = win6_2.index t a ∧ win6_2.index t a = if a = 0 then t.val else 0 :=
  (by decide +kernel : ∀ t : Fin grid6.N, _)

-- The three blocks at a point sit at the same rows, the message is taken entry by entry, and the output's blocks cover it.
theorem arr : (Gen.dat6 (F := Ideal) V c).arrAt 2 cfg6.N = Cert.Spec.msgG 320000 (V c main_v131) (V c main_v78) := by
  refine (dat6 V c).arrAt_eq_of_cover 2 _ (fun t _ => ?_) fun i =>
    (cover_axis win6_2 (Memref.isWhole_whole _) 0 (fun _ _ => rfl) (fun t a => (idx_facts t a).2.2) (by decide) (by decide)
      (by decide) i).imp fun t h => ⟨flush6_2 t, h⟩
  show (cfg6.win 2).cut (grid6.coords t) ((dat6 V c).after 2 t) = _
  rw [after6_2]
  unfold out6_2
  rw [View.canon_unit_zero hz]
  simp only [View.ld_unit_zero (S := S2000x128) hz]
  rw [show k6_pay1 (F := Ideal) = k2_pay1 from rfl, LibGin.pay_msg]
  funext j
  exact congrArg₂ Cert.Spec.msgAt
    (congrArg (V c main_v131) (funext fun a => Fin.ext
      (emb_val_eq win6_0 (Memref.isWhole_whole _) t (Memref.isWhole_whole _) j j rfl rfl (idx_facts t a).1 rfl rfl)))
    (congrArg (V c main_v78) (funext fun a => Fin.ext
      (emb_val_eq win6_1 (Memref.isWhole_whole _) t (Memref.isWhole_whole _) j j rfl rfl (idx_facts t a).2.1 rfl rfl)))

end Cert.KernelIdeal.Reg6

end
-- ==== Proof.Reg7.lean ====
import proofs.«404108_j19344532701343_1_alg».proof.Proof.LibBlock
import proofs.«404108_j19344532701343_1_alg».proof.Proof.LibGin

noncomputable section

namespace Cert.KernelIdeal.Reg7

open Cert.KernelIdeal Cert.KernelIdeal.Gen Cert.LibBlock Idealize.ShloMosaic Idealize.ShloMosaic.ValueIdx Idealize.ShloMosaic.TcCoe

variable (V : (c : Dev nD) → (b : Ref sig .tc) → Buf (Elt Ideal) ((c : Thread nD τ).loc b)) (c : Dev nD)

theorem idx_facts : ∀ (t : Fin cfg7.N) (a : Fin 2), win7_0.index t a = win7_6.index t a
    ∧ win7_1.index t a = win7_6.index t a ∧ win7_2.index t a = 0 ∧ win7_3.index t a = 0 ∧ win7_4.index t a = 0
    ∧ win7_5.index t a = 0 ∧ win7_6.index t a = if a = 0 then t.val else 0 :=
  (by decide +kernel : ∀ t : Fin grid7.N, _)

-- The two node blocks and the output block at a point sit at the same rows; the tables and bias rows are whole.
theorem blk_pay (t : Fin cfg7.N) (r : Fin 2000) (q : Fin 128) : k7_pay1 (F := Ideal) (iblk7 V c 0 t) (iblk7 V c 1 t) (iblk7 V c 2 t) (iblk7 V c 3 t) (iblk7 V c 4 t) (iblk7 V c 5 t) (ix2 r q)
    = Cert.Spec.ginActG 20000 (V c main_v124) (V c main_v135) (V c main_v137) (V c main_v140) (V c main_v142) (V c main_v145) (((cfg7.win 6).blk t).view.emb (ix2 r q)) := by
  refine (LibGin.pay_act _ _ _ _ _ _ r q).trans ?_
  obtain ⟨a0, a1, -⟩ := idx_facts t 0
  obtain ⟨b0, b1, -, -, -, -, b6⟩ := idx_facts t 1
  refine LibGin.row_congr Cert.Spec.ginRowAct (fun k => ?_) (fun k => ?_) (fun _ _ => ?_) (fun _ => ?_) (fun _ _ => ?_) (fun _ => ?_)
    (Fin.ext (emb_val_zero win7_6 (Memref.isWhole_whole _) t (ix2 r q) rfl b6).symm)
  · exact congrArg (V c main_v124) (idx_ext2 (emb_val_eq win7_0 (Memref.isWhole_whole _) t (Memref.isWhole_whole _) (ix2 r k) (ix2 r q) rfl rfl a0 rfl rfl)
      (emb_val_zero win7_0 (Memref.isWhole_whole _) t (ix2 r k) rfl (b0.trans b6)))
  · exact congrArg (V c main_v135) (idx_ext2 (emb_val_eq win7_1 (Memref.isWhole_whole _) t (Memref.isWhole_whole _) (ix2 r k) (ix2 r q) rfl rfl a1 rfl rfl)
      (emb_val_zero win7_1 (Memref.isWhole_whole _) t (ix2 r k) rfl (b1.trans b6)))
  · exact congrArg (V c main_v137) (funext fun d => Fin.ext (emb_val_zero win7_2 (Memref.isWhole_whole _) t _ rfl (idx_facts t d).2.2.1))
  · exact congrArg (V c main_v140) (funext fun d => Fin.ext (emb_val_zero win7_3 (Memref.isWhole_whole _) t _ rfl (idx_facts t d).2.2.2.1))
  · exact congrArg (V c main_v142) (funext fun d => Fin.ext (emb_val_zero win7_4 (Memref.isWhole_whole _) t _ rfl (idx_facts t d).2.2.2.2.1))
  · exact congrArg (V c main_v145) (funext fun d => Fin.ext (emb_val_zero win7_5 (Memref.isWhole_whole _) t _ rfl (idx_facts t d).2.2.2.2.2.1))

-- Each block of the output is the layer of the arrays at its rows, and the blocks cover the output.
theorem arr : (dat7 (F := Ideal) V c).arrAt 6 cfg7.N = Cert.Spec.ginActG 20000 (V c main_v124) (V c main_v135) (V c main_v137) (V c main_v140) (V c main_v142) (V c main_v145) := by
  refine (dat7 V c).arrAt_eq_of_cover 6 _ (fun t _ => ?_) fun i =>
    (cover_axis win7_6 (Memref.isWhole_whole _) 0 (fun _ _ => rfl) (fun t a => (idx_facts t a).2.2.2.2.2.2) (by decide) (by decide)
      (by decide) i).imp fun t h => ⟨flush7_6 t, h⟩
  show (cfg7.win 6).cut (grid7.coords t) ((dat7 V c).after 6 t) = _
  rw [after7_6]
  unfold out7_6
  rw [View.canon_unit_zero hz]
  simp only [View.ld_unit_zero (S := S2000x128) hz, View.ld_unit_zero (S := S128x128) hz, View.ld_unit_zero (S := S1x128) hz]
  funext j
  obtain ⟨r, q, rfl⟩ : ∃ (r : Fin 2000) (q : Fin 128), j = ix2 r q := ⟨j 0, j 1, eq_ix2 j⟩
  exact blk_pay V c t r q

end Cert.KernelIdeal.Reg7

end
-- ==== Proof.SimLayer2.lean ====
import proofs.«404108_j19344532701343_1_alg».proof.Proof.LayerTerms
import proofs.«404108_j19344532701343_1_alg».proof.Proof.Reg6
import proofs.«404108_j19344532701343_1_alg».proof.Proof.Reg7

noncomputable section

namespace Cert.SimLayer2

open Idealize.ShloMosaic Idealize.ShloMosaic.TcCoe Idealize.SL.Sem Idealize.ShloMosaic.StableHlo Cert.Layer

section Reference

open Cert.ReferenceIdeal Cert.ReferenceIdeal.RefRun Cert.ReferenceIdeal.RefOps Cert.ReferenceIdeal.RStep
open Cert.ReferenceIdeal.RefGin Cert.ReferenceIdeal.RefMsg

theorem r_fold (V : Valuation τ sig (Elt Ideal)) (x) (hx : after ops3 V main_v164 = x) :
    after ops3 V main_v196 = refGinAct x (gagg gzero (V main_v3) (refMsg (grows x (V main_v1)) (V main_v100)))
      (gtab 2 (V main_arg18)) (gvec 2 (V main_arg19)) (gtab 2 (V main_arg20)) (gvec 2 (V main_arg21)) := by
  subst hx; after_results_simp <;> rfl

variable (m' : (ℓ : Loc nD τ sig) → Buf (Elt Ideal) ℓ) (c : Dev nD)

-- The window's operations compose to the reference's message and layer functions, which are the specification's.
theorem r_layer (x) (hx : R4 m' c main_v164 = x) : R4 m' c main_v196
    = Cert.Spec.ginActG 20000 x
        (gagg gzero (R1 m' c main_v3) (Cert.Spec.msgG 320000 (grows x (R1 m' c main_v1)) (R3 m' c main_v100)))
        (gtab 2 (m' ((c.tc : Thread nD τ).loc main_arg18))) (grow (gvec 2 (m' ((c.tc : Thread nD τ).loc main_arg19)))) (gtab 2 (m' ((c.tc : Thread nD τ).loc main_arg20))) (grow (gvec 2 (m' ((c.tc : Thread nD τ).loc main_arg21)))) := by
  refine (r_fold (R3 m' c) x hx).trans ?_
  rw [act_eq, rcarry3 main_v1 (by decide), rcarry3 main_v3 (by decide),
    rArg main_arg18 (rcarry3 _ (by decide)) (by decide),
    rArg main_arg19 (rcarry3 _ (by decide)) (by decide),
    rArg main_arg20 (rcarry3 _ (by decide)) (by decide),
    rArg main_arg21 (rcarry3 _ (by decide)) (by decide)]

end Reference

section Kernel

open Cert.KernelIdeal Cert.KernelIdeal.Gen Cert.KernelIdeal.KStep Cert.KernelIdeal.KCarry

theorem kA (v : Valuation τ sig (Elt Ideal)) :
    Cert.Spec.msgG 320000 (after hostOps6 v main_v131) (after hostOps6 v main_v78)
      = Cert.Spec.msgG 320000 (grows (v main_v124) (v main_v1)) (v main_v78) := by
  after_results_simp <;> rfl

theorem kB (v : Valuation τ sig (Elt Ideal)) :
    Cert.Spec.ginActG 20000 (after hostOps7 v main_v124) (after hostOps7 v main_v135) (after hostOps7 v main_v137) (after hostOps7 v main_v140) (after hostOps7 v main_v142) (after hostOps7 v main_v145)
      = Cert.Spec.ginActG 20000 (v main_v124) (gagg gzero (v main_v3) (v main_v132)) (gtab 2 (v main_arg18)) (grow (gvec 2 (v main_arg19))) (gtab 2 (v main_arg20)) (grow (gvec 2 (v main_arg21))) := by
  after_results_simp <;> rfl

variable (m : (ℓ : Loc nD τ sig) → Buf (Elt Ideal) ℓ) (ρ : Dev nD → PrngReg) (c : Dev nD)

-- The two regions compute the specification's messages and layer from what the host stretches hand them.
theorem k_layer : W18 m ρ c main_v146
    = Cert.Spec.ginActG 20000 (W14 m ρ c main_v124)
        (gagg gzero (W1 m ρ c main_v3) (Cert.Spec.msgG 320000 (grows (W14 m ρ c main_v124) (W1 m ρ c main_v1)) (W4 m ρ c main_v78)))
        (gtab 2 (m ((c.tc : Thread nD τ).loc main_arg18))) (grow (gvec 2 (m ((c.tc : Thread nD τ).loc main_arg19)))) (gtab 2 (m ((c.tc : Thread nD τ).loc main_arg20))) (grow (gvec 2 (m ((c.tc : Thread nD τ).loc main_arg21)))) := by
  refine (((W18_arr m ρ c 6).trans (Reg7.arr (V17 m ρ) c)).trans (kB (W16 m ρ c))).trans ?_
  rw [show W16 m ρ c main_v132 = _ from ((W16_arr m ρ c 2).trans (Reg6.arr (V15 m ρ) c)).trans (kA (W14 m ρ c)),
    (W16_of_ne m ρ c main_v124 (by decide)).trans (keepH6 m ρ c main_v124 (by decide)),
    carry16 main_v3 (by decide), carry14 main_v1 (by decide), ea14,
    toArg main_arg18 (carry16 _ (by decide)) (by decide),
    toArg main_arg19 (carry16 _ (by decide)) (by decide),
    toArg main_arg20 (carry16 _ (by decide)) (by decide),
    toArg main_arg21 (carry16 _ (by decide)) (by decide)]

end Kernel

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

theorem layer2
    (h18 : m' ((c.tc : Thread Cert.ReferenceIdeal.nD Cert.ReferenceIdeal.τ).loc Cert.ReferenceIdeal.main_arg18)
      = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19)
      = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20)
      = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21)
      = m ((c.tc : Thread Cert.KernelIdeal.nD Cert.KernelIdeal.τ).loc Cert.KernelIdeal.main_arg21))
    (hx : Cert.ReferenceIdeal.RefRun.R4 m' c (Proc.devRef .tc Cert.ReferenceIdeal.main_v164)
      = Cert.KernelIdeal.Gen.W14 m ρ c (Proc.devRef .tc Cert.KernelIdeal.main_v124))
    (hv1 : Cert.ReferenceIdeal.RefRun.R1 m' c (Proc.devRef .tc Cert.ReferenceIdeal.main_v1)
      = Cert.KernelIdeal.Gen.W1 m ρ c (Proc.devRef .tc Cert.KernelIdeal.main_v1))
    (hv3 : Cert.ReferenceIdeal.RefRun.R1 m' c (Proc.devRef .tc Cert.ReferenceIdeal.main_v3)
      = Cert.KernelIdeal.Gen.W1 m ρ c (Proc.devRef .tc Cert.KernelIdeal.main_v3))
    (hea : Cert.ReferenceIdeal.RefRun.R3 m' c (Proc.devRef .tc Cert.ReferenceIdeal.main_v100)
      = Cert.KernelIdeal.Gen.W4 m ρ c (Proc.devRef .tc Cert.KernelIdeal.main_v78)) :
    Cert.ReferenceIdeal.RefRun.R4 m' c (Proc.devRef .tc Cert.ReferenceIdeal.main_v196)
      = Cert.KernelIdeal.Gen.W18 m ρ c (Proc.devRef .tc Cert.KernelIdeal.main_v146) := by
  rw [r_layer m' c _ hx, k_layer m ρ c, hv1, hv3, hea, h18, h19, h20, h21]

end Cert.SimLayer2

end
-- ==== Proof.Reg8.lean ====
import proofs.«404108_j19344532701343_1_alg».proof.Proof.LibBlock
import proofs.«404108_j19344532701343_1_alg».proof.Proof.LibGin

noncomputable section

namespace Cert.KernelIdeal.Reg8

open Cert.KernelIdeal Cert.KernelIdeal.Gen Cert.LibBlock Idealize.ShloMosaic Idealize.ShloMosaic.TcCoe

variable (V : (c : Dev nD) → (b : Ref sig .tc) → Buf (Elt Ideal) ((c : Thread nD τ).loc b)) (c : Dev nD)

theorem idx_facts : ∀ (t : Fin cfg8.N) (a : Fin 2), win8_0.index t a = win8_2.index t a
    ∧ win8_1.index t a = win8_2.index t a ∧ win8_2.index t a = if a = 0 then t.val else 0 :=
  (by decide +kernel : ∀ t : Fin grid8.N, _)

-- The three blocks at a point sit at the same rows, the message is taken entry by entry, and the output's blocks cover it.
theorem arr : (Gen.dat8 (F := Ideal) V c).arrAt 2 cfg8.N = Cert.Spec.msgG 320000 (V c main_v153) (V c main_v78) := by
  refine (dat8 V c).arrAt_eq_of_cover 2 _ (fun t _ => ?_) fun i =>
    (cover_axis win8_2 (Memref.isWhole_whole _) 0 (fun _ _ => rfl) (fun t a => (idx_facts t a).2.2) (by decide) (by decide)
      (by decide) i).imp fun t h => ⟨flush8_2 t, h⟩
  show (cfg8.win 2).cut (grid8.coords t) ((dat8 V c).after 2 t) = _
  rw [after8_2]
  unfold out8_2
  rw [View.canon_unit_zero hz]
  simp only [View.ld_unit_zero (S := S2000x128) hz]
  rw [show k8_pay1 (F := Ideal) = k2_pay1 from rfl, LibGin.pay_msg]
  funext j
  exact congrArg₂ Cert.Spec.msgAt
    (congrArg (V c main_v153) (funext fun a => Fin.ext
      (emb_val_eq win8_0 (Memref.isWhole_whole _) t (Memref.isWhole_whole _) j j rfl rfl (idx_facts t a).1 rfl rfl)))
    (congrArg (V c main_v78) (funext fun a => Fin.ext
      (emb_val_eq win8_1 (Memref.isWhole_whole _) t (Memref.isWhole_whole _) j j rfl rfl (idx_facts t a).2.1 rfl rfl)))

end Cert.KernelIdeal.Reg8

end
-- ==== Proof.Reg9.lean ====
import proofs.«404108_j19344532701343_1_alg».proof.Proof.LibBlock
import proofs.«404108_j19344532701343_1_alg».proof.Proof.LibGin

noncomputable section

namespace Cert.KernelIdeal.Reg9

open Cert.KernelIdeal Cert.KernelIdeal.Gen Cert.LibBlock Idealize.ShloMosaic Idealize.ShloMosaic.ValueIdx Idealize.ShloMosaic.TcCoe

variable (V : (c : Dev nD) → (b : Ref sig .tc) → Buf (Elt Ideal) ((c : Thread nD τ).loc b)) (c : Dev nD)

theorem idx_facts : ∀ (t : Fin cfg9.N) (a : Fin 2), win9_0.index t a = win9_6.index t a
    ∧ win9_1.index t a = win9_6.index t a ∧ win9_2.index t a = 0 ∧ win9_3.index t a = 0 ∧ win9_4.index t a = 0
    ∧ win9_5.index t a = 0 ∧ win9_6.index t a = if a = 0 then t.val else 0 :=
  (by decide +kernel : ∀ t : Fin grid9.N, _)

-- The two node blocks and the output block at a point sit at the same rows; the tables and bias rows are whole.
theorem blk_pay (t : Fin cfg9.N) (r : Fin 2000) (q : Fin 128) : k9_pay1 (F := Ideal) (iblk9 V c 0 t) (iblk9 V c 1 t) (iblk9 V c 2 t) (iblk9 V c 3 t) (iblk9 V c 4 t) (iblk9 V c 5 t) (ix2 r q)
    = Cert.Spec.ginLinG 20000 (V c main_v146) (V c main_v157) (V c main_v159) (V c main_v162) (V c main_v164) (V c main_v167) (((cfg9.win 6).blk t).view.emb (ix2 r q)) := by
  refine (LibGin.pay_lin _ _ _ _ _ _ r q).trans ?_
  obtain ⟨a0, a1, -⟩ := idx_facts t 0
  obtain ⟨b0, b1, -, -, -, -, b6⟩ := idx_facts t 1
  refine LibGin.row_congr Cert.Spec.ginRowLin (fun k => ?_) (fun k => ?_) (fun _ _ => ?_) (fun _ => ?_) (fun _ _ => ?_) (fun _ => ?_)
    (Fin.ext (emb_val_zero win9_6 (Memref.isWhole_whole _) t (ix2 r q) rfl b6).symm)
  · exact congrArg (V c main_v146) (idx_ext2 (emb_val_eq win9_0 (Memref.isWhole_whole _) t (Memref.isWhole_whole _) (ix2 r k) (ix2 r q) rfl rfl a0 rfl rfl)
      (emb_val_zero win9_0 (Memref.isWhole_whole _) t (ix2 r k) rfl (b0.trans b6)))
  · exact congrArg (V c main_v157) (idx_ext2 (emb_val_eq win9_1 (Memref.isWhole_whole _) t (Memref.isWhole_whole _) (ix2 r k) (ix2 r q) rfl rfl a1 rfl rfl)
      (emb_val_zero win9_1 (Memref.isWhole_whole _) t (ix2 r k) rfl (b1.trans b6)))
  · exact congrArg (V c main_v159) (funext fun d => Fin.ext (emb_val_zero win9_2 (Memref.isWhole_whole _) t _ rfl (idx_facts t d).2.2.1))
  · exact congrArg (V c main_v162) (funext fun d => Fin.ext (emb_val_zero win9_3 (Memref.isWhole_whole _) t _ rfl (idx_facts t d).2.2.2.1))
  · exact congrArg (V c main_v164) (funext fun d => Fin.ext (emb_val_zero win9_4 (Memref.isWhole_whole _) t _ rfl (idx_facts t d).2.2.2.2.1))
  · exact congrArg (V c main_v167) (funext fun d => Fin.ext (emb_val_zero win9_5 (Memref.isWhole_whole _) t _ rfl (idx_facts t d).2.2.2.2.2.1))

-- Each block of the output is the layer of the arrays at its rows, and the blocks cover the output.
theorem arr : (dat9 (F := Ideal) V c).arrAt 6 cfg9.N = Cert.Spec.ginLinG 20000 (V c main_v146) (V c main_v157) (V c main_v159) (V c main_v162) (V c main_v164) (V c main_v167) := by
  refine (dat9 V c).arrAt_eq_of_cover 6 _ (fun t _ => ?_) fun i =>
    (cover_axis win9_6 (Memref.isWhole_whole _) 0 (fun _ _ => rfl) (fun t a => (idx_facts t a).2.2.2.2.2.2) (by decide) (by decide)
      (by decide) i).imp fun t h => ⟨flush9_6 t, h⟩
  show (cfg9.win 6).cut (grid9.coords t) ((dat9 V c).after 6 t) = _
  rw [after9_6]
  unfold out9_6
  rw [View.canon_unit_zero hz]
  simp only [View.ld_unit_zero (S := S2000x128) hz, View.ld_unit_zero (S := S128x128) hz, View.ld_unit_zero (S := S1x128) hz]
  funext j
  obtain ⟨r, q, rfl⟩ : ∃ (r : Fin 2000) (q : Fin 128), j = ix2 r q := ⟨j 0, j 1, eq_ix2 j⟩
  exact blk_pay V c t r q

end Cert.KernelIdeal.Reg9

end
-- ==== Proof.SimLayer3.lean ====
import proofs.«404108_j19344532701343_1_alg».proof.Proof.LayerTerms
import proofs.«404108_j19344532701343_1_alg».proof.Proof.Reg8
import proofs.«404108_j19344532701343_1_alg».proof.Proof.Reg9

noncomputable section

namespace Cert.SimLayer3

open Idealize.ShloMosaic Idealize.ShloMosaic.TcCoe Idealize.SL.Sem Idealize.ShloMosaic.StableHlo Cert.Layer

section Reference

open Cert.ReferenceIdeal Cert.ReferenceIdeal.RefRun Cert.ReferenceIdeal.RefOps Cert.ReferenceIdeal.RStep
open Cert.ReferenceIdeal.RefGin Cert.ReferenceIdeal.RefMsg

theorem r_a (V : Valuation τ sig (Elt Ideal)) (x) (hx : after ops3 V main_v196 = x) :
    gagg (after ops3 V main_v206) (after ops3 V main_v3) (after ops3 V main_v205)
      = gagg gzero (V main_v3) (refMsg (grows x (V main_v1)) (V main_v100)) := by
  subst hx; after_results_simp <;> rfl

theorem r_b (V : Valuation τ sig (Elt Ideal)) : after ops4 V main_v227
    = refGinLin (V main_v196) (gagg (V main_v206) (V main_v3) (V main_v205)) (gtab 3 (V main_arg18)) (gvec 3 (V main_arg19)) (gtab 3 (V main_arg20)) (gvec 3 (V main_arg21)) := by
  after_results_simp <;> rfl

variable (m' : (ℓ : Loc nD τ sig) → Buf (Elt Ideal) ℓ) (c : Dev nD)

-- The messages lie in one window and their sum and the layer in the next; together they are the reference's last layer.
theorem r_layer (x) (hx : R4 m' c main_v196 = x) : R5 m' c main_v227
    = Cert.Spec.ginLinG 20000 x
        (gagg gzero (R1 m' c main_v3) (Cert.Spec.msgG 320000 (grows x (R1 m' c main_v1)) (R3 m' c main_v100)))
        (gtab 3 (m' ((c.tc : Thread nD τ).loc main_arg18))) (grow (gvec 3 (m' ((c.tc : Thread nD τ).loc main_arg19)))) (gtab 3 (m' ((c.tc : Thread nD τ).loc main_arg20))) (grow (gvec 3 (m' ((c.tc : Thread nD τ).loc main_arg21)))) := by
  refine (r_b (R4 m' c)).trans ?_
  rw [r_a (R3 m' c) x hx, hx, lin_eq, rcarry3 main_v3 (by decide), rcarry3 main_v1 (by decide),
    rArg main_arg18 (rcarry4 _ (by decide)) (by decide),
    rArg main_arg19 (rcarry4 _ (by decide)) (by decide),
    rArg main_arg20 (rcarry4 _ (by decide)) (by decide),
    rArg main_arg21 (rcarry4 _ (by decide)) (by decide)]

end Reference

section Kernel

open Cert.KernelIdeal Cert.KernelIdeal.Gen Cert.KernelIdeal.KStep Cert.KernelIdeal.KCarry

theorem kA (v : Valuation τ sig (Elt Ideal)) :
    Cert.Spec.msgG 320000 (after hostOps8 v main_v153) (after hostOps8 v main_v78)
      = Cert.Spec.msgG 320000 (grows (v main_v146) (v main_v1)) (v main_v78) := by
  after_results_simp <;> rfl

theorem kB (v : Valuation τ sig (Elt Ideal)) :
    Cert.Spec.ginLinG 20000 (after hostOps9 v main_v146) (after hostOps9 v main_v157) (after hostOps9 v main_v159) (after hostOps9 v main_v162) (after hostOps9 v main_v164) (after hostOps9 v main_v167)
      = Cert.Spec.ginLinG 20000 (v main_v146) (gagg gzero (v main_v3) (v main_v154)) (gtab 3 (v main_arg18)) (grow (gvec 3 (v main_arg19))) (gtab 3 (v main_arg20)) (grow (gvec 3 (v main_arg21))) := by
  after_results_simp <;> rfl

variable (m : (ℓ : Loc nD τ sig) → Buf (Elt Ideal) ℓ) (ρ : Dev nD → PrngReg) (c : Dev nD)

-- The two regions compute the specification's messages and layer from what the host stretches hand them.
theorem k_layer : W22 m ρ c main_v168
    = Cert.Spec.ginLinG 20000 (W18 m ρ c main_v146)
        (gagg gzero (W1 m ρ c main_v3) (Cert.Spec.msgG 320000 (grows (W18 m ρ c main_v146) (W1 m ρ c main_v1)) (W4 m ρ c main_v78)))
        (gtab 3 (m ((c.tc : Thread nD τ).loc main_arg18))) (grow (gvec 3 (m ((c.tc : Thread nD τ).loc main_arg19)))) (gtab 3 (m ((c.tc : Thread nD τ).loc main_arg20))) (grow (gvec 3 (m ((c.tc : Thread nD τ).loc main_arg21)))) := by
  refine (((W22_arr m ρ c 6).trans (Reg9.arr (V21 m ρ) c)).trans (kB (W20 m ρ c))).trans ?_
  rw [show W20 m ρ c main_v154 = _ from ((W20_arr m ρ c 2).trans (Reg8.arr (V19 m ρ) c)).trans (kA (W18 m ρ c)),
    (W20_of_ne m ρ c main_v146 (by decide)).trans (keepH8 m ρ c main_v146 (by decide)),
    carry20 main_v3 (by decide), carry18 main_v1 (by decide), ea18,
    toArg main_arg18 (carry20 _ (by decide)) (by decide),
    toArg main_arg19 (carry20 _ (by decide)) (by decide),
    toArg main_arg20 (carry20 _ (by decide)) (by decide),
    toArg main_arg21 (carry20 _ (by decide)) (by decide)]

end Kernel

theorem layer3 (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (hx : Cert.ReferenceIdeal.RefRun.R4 m' c (Proc.devRef .tc Cert.ReferenceIdeal.main_v196) = Cert.KernelIdeal.Gen.W18 m ρ c (Proc.devRef .tc Cert.KernelIdeal.main_v146))
    (hv1 : Cert.ReferenceIdeal.RefRun.R1 m' c (Proc.devRef .tc Cert.ReferenceIdeal.main_v1) = Cert.KernelIdeal.Gen.W1 m ρ c (Proc.devRef .tc Cert.KernelIdeal.main_v1))
    (hv3 : Cert.ReferenceIdeal.RefRun.R1 m' c (Proc.devRef .tc Cert.ReferenceIdeal.main_v3) = Cert.KernelIdeal.Gen.W1 m ρ c (Proc.devRef .tc Cert.KernelIdeal.main_v3))
    (hea : Cert.ReferenceIdeal.RefRun.R3 m' c (Proc.devRef .tc Cert.ReferenceIdeal.main_v100) = Cert.KernelIdeal.Gen.W4 m ρ c (Proc.devRef .tc Cert.KernelIdeal.main_v78)) :
    Cert.ReferenceIdeal.RefRun.R5 m' c (Proc.devRef .tc Cert.ReferenceIdeal.main_v227) = Cert.KernelIdeal.Gen.W22 m ρ c (Proc.devRef .tc Cert.KernelIdeal.main_v168) := by
  rw [r_layer m' c _ hx, k_layer m ρ c, hv1, hv3, hea, h18, h19, h20, h21]

end Cert.SimLayer3

end
-- ==== Proof.Reg10Pay.lean ====
import proofs.«404108_j19344532701343_1_alg».proof.Proof.Gen.KernelIdeal.Frame
import proofs.«404108_j19344532701343_1_alg».proof.Proof.Spec
import proofs.«404108_j19344532701343_1_alg».proof.Proof.LibDot

noncomputable section

namespace Cert.KernelIdeal.Reg10

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

def feat (a b e : FVec Ideal S2000x128 .f32) : FVec Ideal S2000x256 .f32 :=
  concatenate S2000x256 1 [⟨S2000x128, mulf a b⟩, ⟨S2000x128, e⟩] concatenates_S2000x128_S2000x128_S2000x256_d1

theorem feat_apply (a b e : FVec Ideal S2000x128 .f32) (r : Fin 2000) (k : Fin 256) :
    feat a b e (ix2 r k)
      = Cert.Spec.outFeat (fun q => a (ix2 r q)) (fun q => b (ix2 r q)) (fun q => e (ix2 r q)) k :=
  LibDot.concat_apply (mulf a b) e _ r k

def hid1 (y : FVec Ideal S2000x256 .f32) (w : FVec Ideal S256x128 .f32) (b : FVec Ideal S1x128 .f32) : FVec Ideal S2000x128 .f32 :=
  maximumf (addf (matmul dot_S2000x256_S256x128_S2000x128_1_0_0_1_n_n none (truncf .bf16 y bitsLt_bf16_f32) (truncf .bf16 w bitsLt_bf16_f32) (constant S2000x128 .f32 0x00000000#32))
      (broadcastTo S2000x128 (shapeCast S1x128 b shapeCasts_S1x128_S1x128) broadcasts_S1x128_S2000x128))
    (broadcast S2000x128 (Scalar.ofBits .f32 0x00000000#32))

def hid2 (y : FVec Ideal S2000x128 .f32) (w : FVec Ideal S128x64 .f32) (b : FVec Ideal S1x64 .f32) : FVec Ideal S2000x64 .f32 :=
  maximumf (addf (matmul dot_S2000x128_S128x64_S2000x64_1_0_0_1_n_n none (truncf .bf16 y bitsLt_bf16_f32) (truncf .bf16 w bitsLt_bf16_f32) (constant S2000x64 .f32 0x00000000#32))
      (broadcastTo S2000x64 (shapeCast S1x64 b shapeCasts_S1x64_S1x64) broadcasts_S1x64_S2000x64))
    (broadcast S2000x64 (Scalar.ofBits .f32 0x00000000#32))

def raw3 (y : FVec Ideal S2000x64 .f32) (w : FVec Ideal S64x1 .f32) (b : FVec Ideal S1x1 .f32) : FVec Ideal S2000x1 .f32 :=
  addf (matmul dot_S2000x64_S64x1_S2000x1_1_0_0_1_n_n none (truncf .bf16 y bitsLt_bf16_f32) (truncf .bf16 w bitsLt_bf16_f32) (constant S2000x1 .f32 0x00000000#32))
    (broadcastTo S2000x1 (shapeCast S1x1 b shapeCasts_S1x1_S1x1) broadcasts_S1x1_S2000x1)

theorem hid1_apply (y : FVec Ideal S2000x256 .f32) (w : FVec Ideal S256x128 .f32) (b : FVec Ideal S1x128 .f32) (r : Fin 2000) (q : Fin 128) :
    hid1 y w b (ix2 r q) = Cert.Spec.relu ((∑ k : Fin 256, y (ix2 r k) * w (ix2 k q)) + b (ix2 (0 : Fin 1) q)) := by
  unfold hid1
  rw [maximumf_apply, addf_apply, LibDot.matmul_apply dot_S2000x256_S256x128_S2000x128_1_0_0_1_n_n rfl, shapeCast_self, broadcastTo_1b_ab_apply]
  show max _ (Ideal.ofBits .f32 0x00000000#32) = _
  rw [Ideal.ofBits_zero_f32]
  rfl

theorem hid2_apply (y : FVec Ideal S2000x128 .f32) (w : FVec Ideal S128x64 .f32) (b : FVec Ideal S1x64 .f32) (r : Fin 2000) (q : Fin 64) :
    hid2 y w b (ix2 r q) = Cert.Spec.relu ((∑ k : Fin 128, y (ix2 r k) * w (ix2 k q)) + b (ix2 (0 : Fin 1) q)) := by
  unfold hid2
  rw [maximumf_apply, addf_apply, LibDot.matmul_apply dot_S2000x128_S128x64_S2000x64_1_0_0_1_n_n rfl, shapeCast_self, broadcastTo_1b_ab_apply]
  show max _ (Ideal.ofBits .f32 0x00000000#32) = _
  rw [Ideal.ofBits_zero_f32]
  rfl

theorem raw3_apply (y : FVec Ideal S2000x64 .f32) (w : FVec Ideal S64x1 .f32) (b : FVec Ideal S1x1 .f32) (r : Fin 2000) :
    raw3 y w b (ix2 r (0 : Fin 1)) = (∑ k : Fin 64, y (ix2 r k) * w (ix2 k (0 : Fin 1))) + b (ix2 (0 : Fin 1) (0 : Fin 1)) := by
  unfold raw3
  rw [addf_apply, LibDot.matmul_apply dot_S2000x64_S64x1_S2000x1_1_0_0_1_n_n rfl, shapeCast_self, broadcastTo_1b_ab_apply]
  rfl

section Rows
variable (x0 x1 x2 : FVec Ideal S2000x128 .f32) (x5 : FVec Ideal S256x128 .f32) (x6 : FVec Ideal S1x128 .f32)
  (x7 : FVec Ideal S128x64 .f32) (x8 : FVec Ideal S1x64 .f32) (x9 : FVec Ideal S64x1 .f32) (x10 : FVec Ideal S1x1 .f32) (r : Fin 2000)

-- Read at row r, the three layers look at row r of the feature block alone.
theorem raw_eq :
    raw3 (hid2 (hid1 (feat x0 x1 x2) x5 x6) x7 x8) x9 x10 (ix2 r (0 : Fin 1))
      = Cert.Spec.outRaw (fun q => x0 (ix2 r q)) (fun q => x1 (ix2 r q)) (fun q => x2 (ix2 r q))
          (fun a b => x5 (ix2 a b)) (fun k => x6 (ix2 (0 : Fin 1) k)) (fun a b => x7 (ix2 a b)) (fun k => x8 (ix2 (0 : Fin 1) k))
          (fun k => x9 (ix2 k (0 : Fin 1))) (x10 (ix2 (0 : Fin 1) (0 : Fin 1))) := by
  unfold Cert.Spec.outRaw Cert.Spec.outH2 Cert.Spec.outH1
  simp only [raw3_apply, hid2_apply, hid1_apply, feat_apply]

end Rows

section Payload
variable (x0 x1 x2 : Vec Ideal S2000x128 .f32) (x3 x4 : Vec Ideal S2000x1 .f32) (x5 : Vec Ideal S256x128 .f32) (x6 : Vec Ideal S1x128 .f32)
  (x7 : Vec Ideal S128x64 .f32) (x8 : Vec Ideal S1x64 .f32) (x9 : Vec Ideal S64x1 .f32) (x10 : Vec Ideal S1x1 .f32)

theorem pay2_layers :
    Gen.k10_pay2 (F := Ideal) x0 x1 x2 x5 x6 x7 x8 x9 x10
      = raw3 (hid2 (hid1 (feat (shapeCast S2000x128 x0 shapeCasts_S2000x128_S2000x128) (shapeCast S2000x128 x1 shapeCasts_S2000x128_S2000x128)
          (shapeCast S2000x128 x2 shapeCasts_S2000x128_S2000x128)) x5 x6) x7 x8) x9 x10 := rfl

theorem pay1_apply (s : FVec Ideal S2000x1 .f32) (r : Fin 2000) :
    Gen.k10_pay1 (F := Ideal) s x3 x4 (ix2 r (0 : Fin 1))
      = Cert.Spec.lossOf (Ideal.ofBits .f32 0x3F000000#32) (s (ix2 r (0 : Fin 1))) (x3 (ix2 r (0 : Fin 1))) (x4 (ix2 r (0 : Fin 1))) := by
  unfold Gen.k10_pay1
  rw [shapeCast_self]
  rfl

theorem pay_eq :
    Gen.k10_pay1 (F := Ideal) (Gen.k10_pay2 (F := Ideal) x0 x1 x2 x5 x6 x7 x8 x9 x10) x3 x4
      = Cert.Spec.lossG (Ideal.ofBits .f32 0x3F000000#32) 2000 x0 x1 x2 x3 x4 x5 x6 x7 x8 x9 x10 := by
  funext j
  obtain ⟨r, q, rfl⟩ : ∃ (r : Fin 2000) (q : Fin 1), j = ix2 r q := ⟨j 0, j 1, eq_ix2 j⟩
  obtain rfl : q = 0 := Subsingleton.elim _ _
  rw [pay1_apply, pay2_layers, shapeCast_self, shapeCast_self, shapeCast_self, raw_eq]
  rfl

end Payload

end Cert.KernelIdeal.Reg10

end
-- ==== Proof.Reg10.lean ====
import proofs.«404108_j19344532701343_1_alg».proof.Proof.Gen.KernelIdeal.Frame
import proofs.«404108_j19344532701343_1_alg».proof.Proof.Spec
import proofs.«404108_j19344532701343_1_alg».proof.Proof.Reg10Pay
import proofs.«404108_j19344532701343_1_alg».proof.Proof.LibBlock

noncomputable section

namespace Cert.KernelIdeal.Reg10

open Cert.KernelIdeal Cert.KernelIdeal.Gen Cert.LibBlock Idealize.ShloMosaic Idealize.ShloMosaic.TcCoe Idealize.SL.Sem
open Idealize.ShloMosaic.ValueIdx
open Idealize.ShloMosaic.Pipeline (Dat)
open scoped BigOperators

section Array
variable (V : (c : Dev nD) → (b : Ref sig .tc) → Buf (Elt Ideal) ((c : Thread nD τ).loc b)) (c : Dev nD)

abbrev lossArr : Cert.Spec.A 320000 1 :=
  Cert.Spec.lossG (Ideal.ofBits .f32 0x3F000000#32) 320000 (V c main_v175) (V c main_v182) (V c main_v78) (V c main_v186) (V c main_arg6)
    (V c main_arg22) (V c main_v183) (V c main_arg24) (V c main_v184) (V c main_arg26) (V c main_v185)

theorem idx_facts : ∀ (t : Fin cfg10.N) (a : Fin 2), win10_0.index t a = win10_11.index t a ∧ win10_1.index t a = win10_11.index t a
    ∧ win10_2.index t a = win10_11.index t a ∧ win10_3.index t a = win10_11.index t a ∧ win10_4.index t a = win10_11.index t a
    ∧ win10_5.index t a = 0 ∧ win10_6.index t a = 0 ∧ win10_7.index t a = 0 ∧ win10_8.index t a = 0 ∧ win10_9.index t a = 0
    ∧ win10_10.index t a = 0 ∧ win10_11.index t a = if a = 0 then t.val else 0 :=
  (by decide +kernel : ∀ t : Fin grid10.N, _)

-- A block at index zero on both axes, of the array's own size, is the array.
theorem whole_blks (t : Fin cfg10.N) : (Gen.iblk10 V c 5 t : Vec Ideal S256x128 .f32) = V c main_arg22
    ∧ (Gen.iblk10 V c 6 t : Vec Ideal S1x128 .f32) = V c main_v183 ∧ (Gen.iblk10 V c 7 t : Vec Ideal S128x64 .f32) = V c main_arg24
    ∧ (Gen.iblk10 V c 8 t : Vec Ideal S1x64 .f32) = V c main_v184 ∧ (Gen.iblk10 V c 9 t : Vec Ideal S64x1 .f32) = V c main_arg26
    ∧ (Gen.iblk10 V c 10 t : Vec Ideal S1x1 .f32) = V c main_v185 :=
  ⟨funext fun y => congrArg (V c main_arg22) (funext fun a => Fin.ext (emb_val_zero win10_5 (Memref.isWhole_whole _) t y rfl (idx_facts t a).2.2.2.2.2.1)),
    funext fun y => congrArg (V c main_v183) (funext fun a => Fin.ext (emb_val_zero win10_6 (Memref.isWhole_whole _) t y rfl (idx_facts t a).2.2.2.2.2.2.1)),
    funext fun y => congrArg (V c main_arg24) (funext fun a => Fin.ext (emb_val_zero win10_7 (Memref.isWhole_whole _) t y rfl (idx_facts t a).2.2.2.2.2.2.2.1)),
    funext fun y => congrArg (V c main_v184) (funext fun a => Fin.ext (emb_val_zero win10_8 (Memref.isWhole_whole _) t y rfl (idx_facts t a).2.2.2.2.2.2.2.2.1)),
    funext fun y => congrArg (V c main_arg26) (funext fun a => Fin.ext (emb_val_zero win10_9 (Memref.isWhole_whole _) t y rfl (idx_facts t a).2.2.2.2.2.2.2.2.2.1)),
    funext fun y => congrArg (V c main_v185) (funext fun a => Fin.ext (emb_val_zero win10_10 (Memref.isWhole_whole _) t y rfl (idx_facts t a).2.2.2.2.2.2.2.2.2.2.1))⟩

-- Blocks of 2000 rows at one index along the rows put their rows r at one row i of their arrays.
theorem row_blks (t : Fin cfg10.N) (r : Fin 2000) (s : Fin 1) (i : Fin 320000)
    (hi : ((((cfg10.win 11).blk t).view.emb (ix2 r s)) 0).val = i.val) :
    (∀ q, Gen.iblk10 V c 0 t (ix2 r q) = V c main_v175 (ix2 i q))
    ∧ (∀ q, Gen.iblk10 V c 1 t (ix2 r q) = V c main_v182 (ix2 i q))
    ∧ (∀ q, Gen.iblk10 V c 2 t (ix2 r q) = V c main_v78 (ix2 i q))
    ∧ Gen.iblk10 V c 3 t (ix2 r (0 : Fin 1)) = V c main_v186 (ix2 i (0 : Fin 1))
    ∧ Gen.iblk10 V c 4 t (ix2 r (0 : Fin 1)) = V c main_arg6 (ix2 i (0 : Fin 1)) := by
  obtain ⟨a0, b0, d0, e0, f0, -⟩ := idx_facts t 0
  obtain ⟨a1, b1, d1, e1, f1, -, -, -, -, -, -, o1⟩ := idx_facts t 1
  exact ⟨fun q => congrArg (V c main_v175) (idx_ext2
      ((emb_val_eq win10_0 (Memref.isWhole_whole _) t (Memref.isWhole_whole _) (ix2 r q) (ix2 r s) rfl rfl a0 rfl rfl).trans hi)
      (emb_val_zero win10_0 (Memref.isWhole_whole _) t (ix2 r q) rfl (a1.trans o1))),
    fun q => congrArg (V c main_v182) (idx_ext2
      ((emb_val_eq win10_1 (Memref.isWhole_whole _) t (Memref.isWhole_whole _) (ix2 r q) (ix2 r s) rfl rfl b0 rfl rfl).trans hi)
      (emb_val_zero win10_1 (Memref.isWhole_whole _) t (ix2 r q) rfl (b1.trans o1))),
    fun q => congrArg (V c main_v78) (idx_ext2
      ((emb_val_eq win10_2 (Memref.isWhole_whole _) t (Memref.isWhole_whole _) (ix2 r q) (ix2 r s) rfl rfl d0 rfl rfl).trans hi)
      (emb_val_zero win10_2 (Memref.isWhole_whole _) t (ix2 r q) rfl (d1.trans o1))),
    congrArg (V c main_v186) (idx_ext2
      ((emb_val_eq win10_3 (Memref.isWhole_whole _) t (Memref.isWhole_whole _) (ix2 r (0 : Fin 1)) (ix2 r s) rfl rfl e0 rfl rfl).trans hi)
      (emb_val_zero win10_3 (Memref.isWhole_whole _) t (ix2 r (0 : Fin 1)) rfl (e1.trans o1))),
    congrArg (V c main_arg6) (idx_ext2
      ((emb_val_eq win10_4 (Memref.isWhole_whole _) t (Memref.isWhole_whole _) (ix2 r (0 : Fin 1)) (ix2 r s) rfl rfl f0 rfl rfl).trans hi)
      (emb_val_zero win10_4 (Memref.isWhole_whole _) t (ix2 r (0 : Fin 1)) rfl (f1.trans o1)))⟩

-- The loss at a row depends on that row of each per-edge array alone.
theorem flushed_eq (t : Fin cfg10.N) :
    (Gen.dat10 (F := Ideal) V c).flushed 11 t = ((cfg10.win 11).blk t).view.read (Elt Ideal) (lossArr V c) := by
  show (cfg10.win 11).cut (grid10.coords t) ((Gen.dat10 V c).after 11 t) = _
  rw [Gen.after10_11]
  unfold Gen.out10_11
  rw [View.canon_unit_zero hz]
  simp only [View.ld_unit_zero (S := S2000x128) hz, View.ld_unit_zero (S := S2000x1) hz, View.ld_unit_zero (S := S256x128) hz,
    View.ld_unit_zero (S := S1x128) hz, View.ld_unit_zero (S := S128x64) hz, View.ld_unit_zero (S := S1x64) hz,
    View.ld_unit_zero (S := S64x1) hz, View.ld_unit_zero (S := S1x1) hz]
  refine (pay_eq _ _ _ _ _ _ _ _ _ _ _).trans ?_
  obtain ⟨w5, w6, w7, w8, w9, w10⟩ := whole_blks V c t
  rw [w5, w6, w7, w8, w9, w10]
  funext j
  obtain ⟨r, s, rfl⟩ : ∃ (r : Fin 2000) (s : Fin 1), j = ix2 r s := ⟨j 0, j 1, eq_ix2 j⟩
  obtain ⟨h0, h1, h2, h3, h4⟩ := row_blks V c t r s ⟨_, ((((cfg10.win 11).blk t).view.emb (ix2 r s)) 0).isLt⟩ rfl
  show Cert.Spec.lossOf _ (Cert.Spec.outRaw (fun q => Gen.iblk10 V c 0 t (ix2 r q)) (fun q => Gen.iblk10 V c 1 t (ix2 r q))
      (fun q => Gen.iblk10 V c 2 t (ix2 r q)) _ _ _ _ _ _) (Gen.iblk10 V c 3 t (ix2 r (0 : Fin 1))) (Gen.iblk10 V c 4 t (ix2 r (0 : Fin 1)))
    = lossArr V c (((cfg10.win 11).blk t).view.emb (ix2 r s))
  rw [funext h0, funext h1, funext h2, h3, h4]
  rfl

theorem arr : (Gen.dat10 (F := Ideal) V c).arrAt 11 cfg10.N
    = Cert.Spec.lossG (Ideal.ofBits .f32 0x3F000000#32) 320000 (V c main_v175) (V c main_v182) (V c main_v78) (V c main_v186) (V c main_arg6)
        (V c main_arg22) (V c main_v183) (V c main_arg24) (V c main_v184) (V c main_arg26) (V c main_v185) :=
  (Gen.dat10 V c).arrAt_eq_of_cover 11 _ (fun t _ => flushed_eq V c t) fun i =>
    (cover_axis win10_11 (Memref.isWhole_whole _) 0 (fun _ _ => rfl)
      (fun t a => (idx_facts t a).2.2.2.2.2.2.2.2.2.2.2)
      (by decide) (by decide) (by decide) i).imp fun t h => ⟨Gen.flush10_11 t, h⟩

end Array

end Cert.KernelIdeal.Reg10

end
-- ==== Proof.RefLoss.lean ====
import proofs.«404108_j19344532701343_1_alg».proof.ReferenceIdeal
import proofs.«404108_j19344532701343_1_alg».proof.Proof.Gen.ReferenceIdeal
import proofs.«404108_j19344532701343_1_alg».proof.Proof.Spec
import proofs.«404108_j19344532701343_1_alg».proof.Proof.LibDot

noncomputable section

open scoped BigOperators

namespace Cert.ReferenceIdeal.RefLoss

open Cert.ReferenceIdeal Cert.ReferenceIdeal.Facts₀ Cert.ReferenceIdeal.Facts Idealize.ShloMosaic Idealize.ShloMosaic.ValueIdx

-- A column flattened to a vector keeps its rows.
theorem flat_apply {α : Type} (x : S320000x1.Idx → α) (r : Fin 320000) :
    shapeCast S320000 x shapeCasts_S320000x1_S320000 (ix1 r) = x (ix2 r (0 : Fin 1)) :=
  shapeCast_apply x shapeCasts_S320000x1_S320000 (ix1 r) (ix2 r (0 : Fin 1))
    (by rewrite [Shape.rowMajor_val_two, Shape.rowMajor_val_one]; show r.val * 1 + 0 = r.val; omega)

def relu128 (x : FVec Ideal S320000x128 .f32) : FVec Ideal S320000x128 .f32 :=
  maximumf x (broadcastInDim S320000x128 ![] bcast_S_S320000x128 (constant (F := Ideal) S_ .f32 0x00000000#32))

def relu64 (x : FVec Ideal S320000x64 .f32) : FVec Ideal S320000x64 .f32 :=
  maximumf x (broadcastInDim S320000x64 ![] bcast_S_S320000x64 (constant (F := Ideal) S_ .f32 0x00000000#32))

def refFeat (hr hc ea : FVec Ideal S320000x128 .f32) : FVec Ideal S320000x256 .f32 :=
  concatenate S320000x256 1 [⟨S320000x128, mulf hr hc⟩, ⟨S320000x128, ea⟩] concatenates_S320000x128_S320000x128_S320000x256_d1

def refH1 (y : FVec Ideal S320000x256 .f32) (W1 : FVec Ideal S256x128 .f32) (b1 : FVec Ideal S128 .f32) : FVec Ideal S320000x128 .f32 :=
  relu128 (addf (Host.dotGeneral dot_S320000x256_S256x128_S320000x128_1_0_0_1_n_n none y W1)
    (broadcastInDim S320000x128 ![0, 1] bcast_S1x128_S320000x128_0_1 (broadcastInDim S1x128 ![1] bcast_S128_S1x128_1 b1)))

def refH2 (y : FVec Ideal S320000x128 .f32) (W2 : FVec Ideal S128x64 .f32) (b2 : FVec Ideal S64 .f32) : FVec Ideal S320000x64 .f32 :=
  relu64 (addf (Host.dotGeneral dot_S320000x128_S128x64_S320000x64_1_0_0_1_n_n none y W2)
    (broadcastInDim S320000x64 ![0, 1] bcast_S1x64_S320000x64_0_1 (broadcastInDim S1x64 ![1] bcast_S64_S1x64_1 b2)))

def refRaw (y : FVec Ideal S320000x64 .f32) (W3 : FVec Ideal S64x1 .f32) (b3 : FVec Ideal S1 .f32) : FVec Ideal S320000x1 .f32 :=
  addf (Host.dotGeneral dot_S320000x64_S64x1_S320000x1_1_0_0_1_n_n none y W3)
    (broadcastInDim S320000x1 ![0, 1] bcast_S1x1_S320000x1_0_1 (broadcastInDim S1x1 ![1] bcast_S1_S1x1_1 b3))

theorem refFeat_apply (hr hc ea : FVec Ideal S320000x128 .f32) (r : Fin 320000) (k : Fin 256) :
    refFeat hr hc ea (ix2 r k)
      = Cert.Spec.outFeat (fun q => hr (ix2 r q)) (fun q => hc (ix2 r q)) (fun q => ea (ix2 r q)) k :=
  LibDot.concat_apply (mulf hr hc) ea _ r k

theorem refH1_apply (y : FVec Ideal S320000x256 .f32) (W1 : FVec Ideal S256x128 .f32) (b1 : FVec Ideal S128 .f32) (r : Fin 320000) (q : Fin 128) :
    refH1 y W1 b1 (ix2 r q) = Cert.Spec.relu ((∑ k : Fin 256, y (ix2 r k) * W1 (ix2 k q)) + b1 (ix1 q)) := by
  unfold refH1 relu128
  rw [maximumf_apply, LibDot.splat_apply, Ideal.ofBits_zero_f32, addf_apply,
    LibDot.dotGeneral_apply dot_S320000x256_S256x128_S320000x128_1_0_0_1_n_n rfl, LibDot.bias_apply]
  rfl

theorem refH2_apply (y : FVec Ideal S320000x128 .f32) (W2 : FVec Ideal S128x64 .f32) (b2 : FVec Ideal S64 .f32) (r : Fin 320000) (q : Fin 64) :
    refH2 y W2 b2 (ix2 r q) = Cert.Spec.relu ((∑ k : Fin 128, y (ix2 r k) * W2 (ix2 k q)) + b2 (ix1 q)) := by
  unfold refH2 relu64
  rw [maximumf_apply, LibDot.splat_apply, Ideal.ofBits_zero_f32, addf_apply,
    LibDot.dotGeneral_apply dot_S320000x128_S128x64_S320000x64_1_0_0_1_n_n rfl, LibDot.bias_apply]
  rfl

theorem refRaw_apply (y : FVec Ideal S320000x64 .f32) (W3 : FVec Ideal S64x1 .f32) (b3 : FVec Ideal S1 .f32) (r : Fin 320000) :
    refRaw y W3 b3 (ix2 r (0 : Fin 1)) = (∑ k : Fin 64, y (ix2 r k) * W3 (ix2 k (0 : Fin 1))) + b3 (ix1 (0 : Fin 1)) := by
  unfold refRaw
  rw [addf_apply, LibDot.dotGeneral_apply dot_S320000x64_S64x1_S320000x1_1_0_0_1_n_n rfl, LibDot.bias_apply]

section Rows
variable (hr hc ea : FVec Ideal S320000x128 .f32) (stde : FVec Ideal S320000 .f32) (z : FVec Ideal S320000x1 .f32)
  (W1 : FVec Ideal S256x128 .f32) (b1 : FVec Ideal S128 .f32) (W2 : FVec Ideal S128x64 .f32) (b2 : FVec Ideal S64 .f32)
  (W3 : FVec Ideal S64x1 .f32) (b3 : FVec Ideal S1 .f32) (r : Fin 320000)

-- Read at edge r, the three layers look at row r of the feature array alone.
theorem raw_eq :
    refRaw (refH2 (refH1 (refFeat hr hc ea) W1 b1) W2 b2) W3 b3 (ix2 r (0 : Fin 1))
      = Cert.Spec.outRaw (fun q => hr (ix2 r q)) (fun q => hc (ix2 r q)) (fun q => ea (ix2 r q))
          (fun a b => W1 (ix2 a b)) (fun k => b1 (ix1 k)) (fun a b => W2 (ix2 a b)) (fun k => b2 (ix1 k))
          (fun k => W3 (ix2 k (0 : Fin 1))) (b3 (ix1 (0 : Fin 1))) := by
  unfold Cert.Spec.outRaw Cert.Spec.outH2 Cert.Spec.outH1
  simp only [refRaw_apply, refH2_apply, refH1_apply, refFeat_apply]

def refPre : FVec Ideal S320000 .f32 :=
  addf (mulf (Host.divf (shapeCast S320000 (refRaw (refH2 (refH1 (refFeat hr hc ea) W1 b1) W2 b2) W3 b3) shapeCasts_S320000x1_S320000) stde) stde)
    (shapeCast S320000 z shapeCasts_S320000x1_S320000)

def refLoss : FVec Ideal S320000 .f32 :=
  mulf (broadcastInDim S320000 ![] bcast_S_S320000 (constant (F := Ideal) S_ .f32 0x3F000000#32))
    (mulf (refPre hr hc ea stde z W1 b1 W2 b2 W3 b3) (refPre hr hc ea stde z W1 b1 W2 b2 W3 b3))

theorem refPre_apply :
    refPre hr hc ea stde z W1 b1 W2 b2 W3 b3 (ix1 r)
      = Ideal.div (Cert.Spec.outRaw (fun q => hr (ix2 r q)) (fun q => hc (ix2 r q)) (fun q => ea (ix2 r q))
          (fun a b => W1 (ix2 a b)) (fun k => b1 (ix1 k)) (fun a b => W2 (ix2 a b)) (fun k => b2 (ix1 k))
          (fun k => W3 (ix2 k (0 : Fin 1))) (b3 (ix1 (0 : Fin 1)))) (stde (ix1 r)) * stde (ix1 r) + z (ix2 r (0 : Fin 1)) := by
  unfold refPre
  show Ideal.div (shapeCast S320000 (refRaw (refH2 (refH1 (refFeat hr hc ea) W1 b1) W2 b2) W3 b3) shapeCasts_S320000x1_S320000 (ix1 r)) (stde (ix1 r))
      * stde (ix1 r) + shapeCast S320000 z shapeCasts_S320000x1_S320000 (ix1 r) = _
  rw [flat_apply, flat_apply, raw_eq]

theorem refLoss_eq :
    (fun i : (⟨2, ![320000, 1]⟩ : Shape).Idx => refLoss hr hc ea stde z W1 b1 W2 b2 W3 b3 (ix1 (⟨(i 0).val, (i 0).isLt⟩ : Fin 320000)))
      = Cert.Spec.lossG (Ideal.ofBits .f32 0x3F000000#32) 320000 hr hc ea
          (fun i => stde (ix1 (⟨(i 0).val, (i 0).isLt⟩ : Fin 320000))) z
          W1 (fun i => b1 (ix1 (⟨(i 1).val, (i 1).isLt⟩ : Fin 128)))
          W2 (fun i => b2 (ix1 (⟨(i 1).val, (i 1).isLt⟩ : Fin 64)))
          W3 (fun i => b3 (ix1 (⟨(i 1).val, (i 1).isLt⟩ : Fin 1))) := by
  funext i
  unfold refLoss
  rw [mulf_apply, mulf_apply, LibDot.splat_apply, refPre_apply]
  rfl

end Rows

end Cert.ReferenceIdeal.RefLoss

end
-- ==== Proof.SimOut.lean ====
import proofs.«404108_j19344532701343_1_alg».proof.Proof.Gen.KernelIdeal.Frame
import proofs.«404108_j19344532701343_1_alg».proof.Proof.KStep
import proofs.«404108_j19344532701343_1_alg».proof.Proof.KCarry
import proofs.«404108_j19344532701343_1_alg».proof.Proof.Reg10
import proofs.«404108_j19344532701343_1_alg».proof.Proof.RefRun
import proofs.«404108_j19344532701343_1_alg».proof.Proof.RStep
import proofs.«404108_j19344532701343_1_alg».proof.Proof.RefLoss
import proofs.«404108_j19344532701343_1_alg».proof.Proof.LibReshape
import proofs.«404108_j19344532701343_1_alg».proof.Proof.Spec

set_option maxRecDepth 16384

noncomputable section

namespace Cert.SimOut

open Idealize.ShloMosaic Idealize.ShloMosaic.TcCoe Idealize.SL.Sem Idealize.ShloMosaic.StableHlo Idealize.ShloMosaic.ValueIdx

/-- A reshape between a vector and its one-row or one-column array keeps the entries. -/
theorem loss_bridge (hr hc ea : FVec Ideal ⟨2, ![320000, 128]⟩ .f32) (stde : FVec Ideal ⟨1, ![320000]⟩ .f32) (z : FVec Ideal ⟨2, ![320000, 1]⟩ .f32)
    (W1 : FVec Ideal ⟨2, ![256, 128]⟩ .f32) (b1 : FVec Ideal ⟨1, ![128]⟩ .f32) (W2 : FVec Ideal ⟨2, ![128, 64]⟩ .f32) (b2 : FVec Ideal ⟨1, ![64]⟩ .f32)
    (W3 : FVec Ideal ⟨2, ![64, 1]⟩ .f32) (b3 : FVec Ideal ⟨1, ![1]⟩ .f32)
    (hc320 : (⟨1, ![320000]⟩ : Shape).ShapeCasts ⟨2, ![320000, 1]⟩) (h128 : (⟨1, ![128]⟩ : Shape).ShapeCasts ⟨2, ![1, 128]⟩)
    (h64 : (⟨1, ![64]⟩ : Shape).ShapeCasts ⟨2, ![1, 64]⟩) (h1 : (⟨1, ![1]⟩ : Shape).ShapeCasts ⟨2, ![1, 1]⟩)
    (hback : (⟨2, ![320000, 1]⟩ : Shape).ShapeCasts ⟨1, ![320000]⟩) :
    shapeCast ⟨1, ![320000]⟩ (Cert.Spec.lossG (Ideal.ofBits .f32 0x3F000000#32) 320000 hr hc ea (shapeCast ⟨2, ![320000, 1]⟩ stde hc320) z
        W1 (shapeCast ⟨2, ![1, 128]⟩ b1 h128) W2 (shapeCast ⟨2, ![1, 64]⟩ b2 h64) W3 (shapeCast ⟨2, ![1, 1]⟩ b3 h1)) hback
      = Cert.ReferenceIdeal.RefLoss.refLoss hr hc ea stde z W1 b1 W2 b2 W3 b3 := by
  rw [Cert.LibReshape.col_of_vec_fun (a := 320000), Cert.LibReshape.row_of_vec_fun (a := 128), Cert.LibReshape.row_of_vec_fun (a := 64),
    Cert.LibReshape.row_of_vec_fun (a := 1), ← Cert.ReferenceIdeal.RefLoss.refLoss_eq, Cert.LibReshape.vec_of_col_fun (a := 320000)]
  funext i
  exact congrArg (Cert.ReferenceIdeal.RefLoss.refLoss hr hc ea stde z W1 b1 W2 b2 W3 b3) (eq_ix1 i).symm

abbrev idxCol (h0 : (⟨0, ![]⟩ : Shape).BroadcastsInDim ⟨1, ![320000]⟩ (![] : Fin 0 → Fin 1))
    (h1 : (⟨1, ![320000]⟩ : Shape).BroadcastsInDim ⟨2, ![320000, 1]⟩ (![0] : Fin 1 → Fin 2)) (x : IVec ⟨1, ![320000]⟩ 32) : IVec ⟨2, ![320000, 1]⟩ 32 :=
  broadcastInDim ⟨2, ![320000, 1]⟩ ![0] h1
    (select (cmpi .slt x (broadcastInDim ⟨1, ![320000]⟩ ![] h0 (constantI ⟨0, ![]⟩ 32 0#32)))
      (addi x (broadcastInDim ⟨1, ![320000]⟩ ![] h0 (constantI ⟨0, ![]⟩ 32 20000#32))) x)

section Runs
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

theorem k_v191 :
    Cert.KernelIdeal.Gen.W25 m ρ c (Proc.devRef .tc Cert.KernelIdeal.main_v191)
      = Host.scatterAdd Cert.KernelIdeal.scatter_S64_S320000x1_S320000_n_0_0_1
          (broadcastInDim Cert.KernelIdeal.S64 ![] Cert.KernelIdeal.Facts₀.bcast_S_S64 (constant (F := Ideal) Cert.KernelIdeal.S_ .f32 0x00000000#32))
          (broadcastInDim Cert.KernelIdeal.S320000x1 ![0] Cert.KernelIdeal.Facts₀.bcast_S320000_S320000x1_0 (Cert.KernelIdeal.Gen.W24 m ρ c (Proc.devRef .tc Cert.KernelIdeal.main_v10)))
          (shapeCast Cert.KernelIdeal.S320000 (Cert.KernelIdeal.Gen.W24 m ρ c (Proc.devRef .tc Cert.KernelIdeal.main_v187)) Cert.KernelIdeal.Facts₀.shapeCasts_S320000x1_S320000) := by
  show after Cert.KernelIdeal.Gen.hostOps11 (Cert.KernelIdeal.Gen.W24 m ρ c) (Proc.devRef .tc Cert.KernelIdeal.main_v191) = _
  after_results_simp <;> rfl

theorem k_v175 :
    Cert.KernelIdeal.Gen.W23 m ρ c (Proc.devRef .tc Cert.KernelIdeal.main_v175)
      = Host.gather Cert.KernelIdeal.gather_S20000x128_S320000x1_S320000x128_1_0_n_n_0_1_1128 (Cert.KernelIdeal.Gen.W22 m ρ c (Proc.devRef .tc Cert.KernelIdeal.main_v168)) (idxCol Cert.KernelIdeal.Facts₀.bcast_S_S320000 Cert.KernelIdeal.Facts₀.bcast_S320000_S320000x1_0 (Cert.KernelIdeal.Gen.W22 m ρ c (Proc.devRef .tc Cert.KernelIdeal.main_v1))) := by
  show after Cert.KernelIdeal.Gen.hostOps10 (Cert.KernelIdeal.Gen.W22 m ρ c) (Proc.devRef .tc Cert.KernelIdeal.main_v175) = _
  after_results_simp <;> rfl

theorem k_v186 :
    Cert.KernelIdeal.Gen.W23 m ρ c (Proc.devRef .tc Cert.KernelIdeal.main_v186)
      = shapeCast Cert.KernelIdeal.S320000x1 (Cert.KernelIdeal.Gen.W22 m ρ c (Proc.devRef .tc Cert.KernelIdeal.main_v46)) Cert.KernelIdeal.Facts₀.shapeCasts_S320000_S320000x1 := by
  show after Cert.KernelIdeal.Gen.hostOps10 (Cert.KernelIdeal.Gen.W22 m ρ c) (Proc.devRef .tc Cert.KernelIdeal.main_v186) = _
  after_results_simp <;> rfl

theorem k_v182 :
    Cert.KernelIdeal.Gen.W23 m ρ c (Proc.devRef .tc Cert.KernelIdeal.main_v182)
      = Host.gather Cert.KernelIdeal.gather_S20000x128_S320000x1_S320000x128_1_0_n_n_0_1_1128 (Cert.KernelIdeal.Gen.W22 m ρ c (Proc.devRef .tc Cert.KernelIdeal.main_v168)) (idxCol Cert.KernelIdeal.Facts₀.bcast_S_S320000 Cert.KernelIdeal.Facts₀.bcast_S320000_S320000x1_0 (Cert.KernelIdeal.Gen.W22 m ρ c (Proc.devRef .tc Cert.KernelIdeal.main_v3))) := by
  show after Cert.KernelIdeal.Gen.hostOps10 (Cert.KernelIdeal.Gen.W22 m ρ c) (Proc.devRef .tc Cert.KernelIdeal.main_v182) = _
  after_results_simp <;> rfl

theorem k_v183 :
    Cert.KernelIdeal.Gen.W23 m ρ c (Proc.devRef .tc Cert.KernelIdeal.main_v183)
      = shapeCast Cert.KernelIdeal.S1x128 (Cert.KernelIdeal.Gen.W22 m ρ c (Proc.devRef .tc Cert.KernelIdeal.main_arg23)) Cert.KernelIdeal.Facts₀.shapeCasts_S128_S1x128 := by
  show after Cert.KernelIdeal.Gen.hostOps10 (Cert.KernelIdeal.Gen.W22 m ρ c) (Proc.devRef .tc Cert.KernelIdeal.main_v183) = _
  after_results_simp <;> rfl

theorem k_v184 :
    Cert.KernelIdeal.Gen.W23 m ρ c (Proc.devRef .tc Cert.KernelIdeal.main_v184)
      = shapeCast Cert.KernelIdeal.S1x64 (Cert.KernelIdeal.Gen.W22 m ρ c (Proc.devRef .tc Cert.KernelIdeal.main_arg25)) Cert.KernelIdeal.Facts₀.shapeCasts_S64_S1x64 := by
  show after Cert.KernelIdeal.Gen.hostOps10 (Cert.KernelIdeal.Gen.W22 m ρ c) (Proc.devRef .tc Cert.KernelIdeal.main_v184) = _
  after_results_simp <;> rfl

theorem k_v185 :
    Cert.KernelIdeal.Gen.W23 m ρ c (Proc.devRef .tc Cert.KernelIdeal.main_v185)
      = shapeCast Cert.KernelIdeal.S1x1 (Cert.KernelIdeal.Gen.W22 m ρ c (Proc.devRef .tc Cert.KernelIdeal.main_arg27)) Cert.KernelIdeal.Facts₀.shapeCasts_S1_S1x1 := by
  show after Cert.KernelIdeal.Gen.hostOps10 (Cert.KernelIdeal.Gen.W22 m ρ c) (Proc.devRef .tc Cert.KernelIdeal.main_v185) = _
  after_results_simp <;> rfl

theorem k_v187 :
    Cert.KernelIdeal.Gen.W24 m ρ c (Proc.devRef .tc Cert.KernelIdeal.main_v187)
      = Cert.Spec.lossG (Ideal.ofBits .f32 0x3F000000#32) 320000 (Cert.KernelIdeal.Gen.W23 m ρ c (Proc.devRef .tc Cert.KernelIdeal.main_v175)) (Cert.KernelIdeal.Gen.W23 m ρ c (Proc.devRef .tc Cert.KernelIdeal.main_v182)) (Cert.KernelIdeal.Gen.W23 m ρ c (Proc.devRef .tc Cert.KernelIdeal.main_v78))
          (Cert.KernelIdeal.Gen.W23 m ρ c (Proc.devRef .tc Cert.KernelIdeal.main_v186)) (Cert.KernelIdeal.Gen.W23 m ρ c (Proc.devRef .tc Cert.KernelIdeal.main_arg6)) (Cert.KernelIdeal.Gen.W23 m ρ c (Proc.devRef .tc Cert.KernelIdeal.main_arg22)) (Cert.KernelIdeal.Gen.W23 m ρ c (Proc.devRef .tc Cert.KernelIdeal.main_v183)) (Cert.KernelIdeal.Gen.W23 m ρ c (Proc.devRef .tc Cert.KernelIdeal.main_arg24))
          (Cert.KernelIdeal.Gen.W23 m ρ c (Proc.devRef .tc Cert.KernelIdeal.main_v184)) (Cert.KernelIdeal.Gen.W23 m ρ c (Proc.devRef .tc Cert.KernelIdeal.main_arg26)) (Cert.KernelIdeal.Gen.W23 m ρ c (Proc.devRef .tc Cert.KernelIdeal.main_v185)) :=
  (Cert.KernelIdeal.Gen.W24_arr m ρ c 11).trans (Cert.KernelIdeal.Reg10.arr (Cert.KernelIdeal.Gen.V23 m ρ) c)

end Runs

abbrev byGraph (g : IVec Cert.ReferenceIdeal.S320000 32) (v : FVec Ideal Cert.ReferenceIdeal.S320000 .f32) : FVec Ideal Cert.ReferenceIdeal.S64 .f32 :=
  Host.scatterAdd Cert.ReferenceIdeal.scatter_S64_S320000x1_S320000_n_0_0_1
    (broadcastInDim Cert.ReferenceIdeal.S64 ![] Cert.ReferenceIdeal.Gen.bcast_S_S64 (constant (F := Ideal) Cert.ReferenceIdeal.S_ .f32 0x00000000#32))
    (broadcastInDim Cert.ReferenceIdeal.S320000x1 ![0] Cert.ReferenceIdeal.Gen.bcast_S320000_S320000x1_0 g) v

abbrev halfSq (p : FVec Ideal Cert.ReferenceIdeal.S320000 .f32) : FVec Ideal Cert.ReferenceIdeal.S320000 .f32 :=
  mulf (broadcastInDim Cert.ReferenceIdeal.S320000 ![] Cert.ReferenceIdeal.Gen.bcast_S_S320000 (constant (F := Ideal) Cert.ReferenceIdeal.S_ .f32 0x3F000000#32)) (mulf p p)

section RefWindows
variable (V : Valuation Cert.ReferenceIdeal.τ Cert.ReferenceIdeal.sig (Elt Ideal))

set_option maxHeartbeats 4000000 in
theorem r_v262_at :
    after Cert.ReferenceIdeal.RefOps.ops4 V (Proc.devRef .tc Cert.ReferenceIdeal.main_v262)
      = Cert.ReferenceIdeal.RefLoss.refPre (Host.gather Cert.ReferenceIdeal.gather_S20000x128_S320000x1_S320000x128_1_0_n_n_0_1_1128 (after Cert.ReferenceIdeal.RefOps.ops4 V (Proc.devRef .tc Cert.ReferenceIdeal.main_v227)) (idxCol Cert.ReferenceIdeal.Facts₀.bcast_S_S320000 Cert.ReferenceIdeal.Facts₀.bcast_S320000_S320000x1_0 (V (Proc.devRef .tc Cert.ReferenceIdeal.main_v1))))
          (Host.gather Cert.ReferenceIdeal.gather_S20000x128_S320000x1_S320000x128_1_0_n_n_0_1_1128 (after Cert.ReferenceIdeal.RefOps.ops4 V (Proc.devRef .tc Cert.ReferenceIdeal.main_v227)) (idxCol Cert.ReferenceIdeal.Facts₀.bcast_S_S320000 Cert.ReferenceIdeal.Facts₀.bcast_S320000_S320000x1_0 (V (Proc.devRef .tc Cert.ReferenceIdeal.main_v3))))
          (V (Proc.devRef .tc Cert.ReferenceIdeal.main_v100)) (V (Proc.devRef .tc Cert.ReferenceIdeal.main_v46)) (V (Proc.devRef .tc Cert.ReferenceIdeal.main_arg6)) (V (Proc.devRef .tc Cert.ReferenceIdeal.main_arg22)) (V (Proc.devRef .tc Cert.ReferenceIdeal.main_arg23)) (V (Proc.devRef .tc Cert.ReferenceIdeal.main_arg24))
          (V (Proc.devRef .tc Cert.ReferenceIdeal.main_arg25)) (V (Proc.devRef .tc Cert.ReferenceIdeal.main_arg26)) (V (Proc.devRef .tc Cert.ReferenceIdeal.main_arg27)) := by
  after_results_simp <;> rfl

theorem r_v268_at :
    after Cert.ReferenceIdeal.RefOps.ops5 V (Proc.devRef .tc Cert.ReferenceIdeal.main_v268)
      = byGraph (V (Proc.devRef .tc Cert.ReferenceIdeal.main_v10)) (halfSq (V (Proc.devRef .tc Cert.ReferenceIdeal.main_v262))) := by
  after_results_simp <;> rfl

end RefWindows

section Runs2
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

section
open Cert.KernelIdeal Cert.KernelIdeal.Gen Cert.KernelIdeal.KStep Cert.KernelIdeal.KCarry

/-- Regions 2, 4, 6 and 8 have the edge attributes among their inputs, which a region leaves as it found them. -/
theorem kk_v78 : W23 m ρ c (Proc.devRef .tc main_v78) = W4 m ρ c (Proc.devRef .tc main_v78) :=
  ((keepH10 m ρ c main_v78 (by decide)).trans ((W22_of_ne m ρ c main_v78 (by decide)).trans ((keepH9 m ρ c main_v78 (by decide)).trans (((W20_arr m ρ c 1).trans (((dat8 (V19 m ρ) c).arrAt_in 1 rfl _).trans (A_eq8 (V19 m ρ) c 1))).trans ((keepH8 m ρ c main_v78 (by decide)).trans ((W18_of_ne m ρ c main_v78 (by decide)).trans ((keepH7 m ρ c main_v78 (by decide)).trans (((W16_arr m ρ c 1).trans (((dat6 (V15 m ρ) c).arrAt_in 1 rfl _).trans (A_eq6 (V15 m ρ) c 1))).trans ((keepH6 m ρ c main_v78 (by decide)).trans ((W14_of_ne m ρ c main_v78 (by decide)).trans ((keepH5 m ρ c main_v78 (by decide)).trans (((W12_arr m ρ c 1).trans (((dat4 (V11 m ρ) c).arrAt_in 1 rfl _).trans (A_eq4 (V11 m ρ) c 1))).trans ((keepH4 m ρ c main_v78 (by decide)).trans ((W10_of_ne m ρ c main_v78 (by decide)).trans ((keepH3 m ρ c main_v78 (by decide)).trans (((W8_arr m ρ c 1).trans (((dat2 (V7 m ρ) c).arrAt_in 1 rfl _).trans (A_eq2 (V7 m ρ) c 1))).trans ((keepH2 m ρ c main_v78 (by decide)).trans ((W6_of_ne m ρ c main_v78 (by decide)).trans (keepH1 m ρ c main_v78 (by decide))))))))))))))))))))

/-- No region from 0 to 9 has `r` among its arrays and no host stretch between them writes it. -/
abbrev Idle (r : Ref sig .tc) : Prop :=
  (∀ w, Pipeline.arrRef spec0 w ≠ r) ∧ r ∉ wrH1 ∧ (∀ w, Pipeline.arrRef spec1 w ≠ r) ∧ r ∉ wrH2 ∧ (∀ w, Pipeline.arrRef spec2 w ≠ r) ∧ r ∉ wrH3 ∧ (∀ w, Pipeline.arrRef spec3 w ≠ r) ∧ r ∉ wrH4 ∧ (∀ w, Pipeline.arrRef spec4 w ≠ r) ∧ r ∉ wrH5 ∧ (∀ w, Pipeline.arrRef spec5 w ≠ r) ∧ r ∉ wrH6 ∧ (∀ w, Pipeline.arrRef spec6 w ≠ r) ∧ r ∉ wrH7 ∧ (∀ w, Pipeline.arrRef spec7 w ≠ r) ∧ r ∉ wrH8 ∧ (∀ w, Pipeline.arrRef spec8 w ≠ r) ∧ r ∉ wrH9 ∧ (∀ w, Pipeline.arrRef spec9 w ≠ r)

/-- Each of those nineteen segments leaves `r` as it found it. -/
theorem mid (r : Ref sig .tc) (h : Idle r) : W22 m ρ c (Proc.devRef .tc r) = W3 m ρ c (Proc.devRef .tc r) := by
  obtain ⟨a0, h1, a1, h2, a2, h3, a3, h4, a4, h5, a5, h6, a6, h7, a7, h8, a8, h9, a9⟩ := h
  exact ((W22_of_ne m ρ c r a9).trans ((keepH9 m ρ c r h9).trans ((W20_of_ne m ρ c r a8).trans ((keepH8 m ρ c r h8).trans ((W18_of_ne m ρ c r a7).trans ((keepH7 m ρ c r h7).trans ((W16_of_ne m ρ c r a6).trans ((keepH6 m ρ c r h6).trans ((W14_of_ne m ρ c r a5).trans ((keepH5 m ρ c r h5).trans ((W12_of_ne m ρ c r a4).trans ((keepH4 m ρ c r h4).trans ((W10_of_ne m ρ c r a3).trans ((keepH3 m ρ c r h3).trans ((W8_of_ne m ρ c r a2).trans ((keepH2 m ρ c r h2).trans ((W6_of_ne m ρ c r a1).trans ((keepH1 m ρ c r h1).trans (W4_of_ne m ρ c r a0)))))))))))))))))))

/-- A buffer nothing writes before the last region's stretch holds the launch contents there. -/
theorem to22 (r : Ref sig .tc) (h : Quiet22 r ∧ r ∉ wrH0) : W22 m ρ c (Proc.devRef .tc r) = m ((c.tc : Thread nD τ).loc r) :=
  toArg r (carry22 r h.1) h.2

/-- The same one stretch later. -/
theorem to23 (r : Ref sig .tc) (h : (Quiet22 r ∧ r ∉ wrH0) ∧ r ∉ wrH10) : W23 m ρ c (Proc.devRef .tc r) = m ((c.tc : Thread nD τ).loc r) :=
  toArg r ((keepH10 m ρ c r h.2).trans (carry22 r h.1.1)) h.1.2

end

/-- Windows 1 to 3 leave a buffer they do not write as window 0 left it. -/
theorem r41 (r : Ref Cert.ReferenceIdeal.sig .tc) (h : r ∉ Cert.ReferenceIdeal.RStep.wr1 ∧ r ∉ Cert.ReferenceIdeal.RStep.wr2 ∧ r ∉ Cert.ReferenceIdeal.RStep.wr3) :
    Cert.ReferenceIdeal.RefRun.R4 m' c (Proc.devRef .tc r) = Cert.ReferenceIdeal.RefRun.R1 m' c (Proc.devRef .tc r) :=
  (Cert.ReferenceIdeal.RStep.keep3 m' c r h.2.2).trans ((Cert.ReferenceIdeal.RStep.keep2 m' c r h.2.1).trans (Cert.ReferenceIdeal.RStep.keep1 m' c r h.1))

/-- The same from the launch. -/
theorem r40 (r : Ref Cert.ReferenceIdeal.sig .tc) (h : r ∉ Cert.ReferenceIdeal.RStep.wr0 ∧ r ∉ Cert.ReferenceIdeal.RStep.wr1 ∧ r ∉ Cert.ReferenceIdeal.RStep.wr2 ∧ r ∉ Cert.ReferenceIdeal.RStep.wr3) :
    Cert.ReferenceIdeal.RefRun.R4 m' c (Proc.devRef .tc r) = m' ((c.tc : Thread Cert.ReferenceIdeal.nD Cert.ReferenceIdeal.τ).loc r) :=
  (r41 m' c r h.2).trans (Cert.ReferenceIdeal.RStep.keep0 m' c r h.1)

theorem out
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (h25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (h26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (h27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27))
    (hx : Cert.ReferenceIdeal.RefRun.R5 m' c (Proc.devRef .tc Cert.ReferenceIdeal.main_v227) = Cert.KernelIdeal.Gen.W22 m ρ c (Proc.devRef .tc Cert.KernelIdeal.main_v168))
    (hv1 : Cert.ReferenceIdeal.RefRun.R1 m' c (Proc.devRef .tc Cert.ReferenceIdeal.main_v1) = Cert.KernelIdeal.Gen.W1 m ρ c (Proc.devRef .tc Cert.KernelIdeal.main_v1))
    (hv3 : Cert.ReferenceIdeal.RefRun.R1 m' c (Proc.devRef .tc Cert.ReferenceIdeal.main_v3) = Cert.KernelIdeal.Gen.W1 m ρ c (Proc.devRef .tc Cert.KernelIdeal.main_v3))
    (hv10 : Cert.ReferenceIdeal.RefRun.R1 m' c (Proc.devRef .tc Cert.ReferenceIdeal.main_v10) = Cert.KernelIdeal.Gen.W1 m ρ c (Proc.devRef .tc Cert.KernelIdeal.main_v10))
    (hstde : Cert.ReferenceIdeal.RefRun.R2 m' c (Proc.devRef .tc Cert.ReferenceIdeal.main_v46) = Cert.KernelIdeal.Gen.W3 m ρ c (Proc.devRef .tc Cert.KernelIdeal.main_v46))
    (hea : Cert.ReferenceIdeal.RefRun.R3 m' c (Proc.devRef .tc Cert.ReferenceIdeal.main_v100) = Cert.KernelIdeal.Gen.W4 m ρ c (Proc.devRef .tc Cert.KernelIdeal.main_v78)) :
    Cert.ReferenceIdeal.RefRun.R6 m' c (Proc.devRef .tc Cert.ReferenceIdeal.main_v268) = Cert.KernelIdeal.Gen.W25 m ρ c (Proc.devRef .tc Cert.KernelIdeal.main_v191) := by
  have hx' : after Cert.ReferenceIdeal.RefOps.ops4 (Cert.ReferenceIdeal.RefRun.R4 m' c) (Proc.devRef .tc Cert.ReferenceIdeal.main_v227) = _ := hx
  rw [show Cert.ReferenceIdeal.RefRun.R6 m' c (Proc.devRef .tc Cert.ReferenceIdeal.main_v268) = _ from r_v268_at (Cert.ReferenceIdeal.RefRun.R5 m' c),
    show Cert.ReferenceIdeal.RefRun.R5 m' c (Proc.devRef .tc Cert.ReferenceIdeal.main_v262) = _ from r_v262_at (Cert.ReferenceIdeal.RefRun.R4 m' c),
    (Cert.ReferenceIdeal.RStep.keep4 m' c Cert.ReferenceIdeal.main_v10 (by decide)).trans (r41 m' c Cert.ReferenceIdeal.main_v10 (by decide)), r41 m' c Cert.ReferenceIdeal.main_v1 (by decide), r41 m' c Cert.ReferenceIdeal.main_v3 (by decide),
    Cert.ReferenceIdeal.RStep.keep3 m' c Cert.ReferenceIdeal.main_v100 (by decide), (Cert.ReferenceIdeal.RStep.keep3 m' c Cert.ReferenceIdeal.main_v46 (by decide)).trans (Cert.ReferenceIdeal.RStep.keep2 m' c Cert.ReferenceIdeal.main_v46 (by decide)),
    r40 m' c Cert.ReferenceIdeal.main_arg6 (by decide), r40 m' c Cert.ReferenceIdeal.main_arg22 (by decide), r40 m' c Cert.ReferenceIdeal.main_arg23 (by decide), r40 m' c Cert.ReferenceIdeal.main_arg24 (by decide), r40 m' c Cert.ReferenceIdeal.main_arg25 (by decide), r40 m' c Cert.ReferenceIdeal.main_arg26 (by decide), r40 m' c Cert.ReferenceIdeal.main_arg27 (by decide), hx', hv1, hv3, hv10, hstde, hea, h6, h22, h23, h24, h25, h26, h27]
  rw [k_v191, k_v187, k_v175, k_v182, k_v183, k_v184, k_v185, k_v186,
    (Cert.KernelIdeal.Gen.W24_of_ne m ρ c Cert.KernelIdeal.main_v10 (by decide)).trans ((Cert.KernelIdeal.KStep.keepH10 m ρ c Cert.KernelIdeal.main_v10 (by decide)).trans (Cert.KernelIdeal.KCarry.carry22 Cert.KernelIdeal.main_v10 (by decide))),
    Cert.KernelIdeal.KCarry.carry22 Cert.KernelIdeal.main_v1 (by decide), Cert.KernelIdeal.KCarry.carry22 Cert.KernelIdeal.main_v3 (by decide), mid m ρ c Cert.KernelIdeal.main_v46 (by decide), kk_v78,
    to23 m ρ c Cert.KernelIdeal.main_arg6 (by decide), to23 m ρ c Cert.KernelIdeal.main_arg22 (by decide), to22 m ρ c Cert.KernelIdeal.main_arg23 (by decide), to23 m ρ c Cert.KernelIdeal.main_arg24 (by decide), to22 m ρ c Cert.KernelIdeal.main_arg25 (by decide), to23 m ρ c Cert.KernelIdeal.main_arg26 (by decide), to22 m ρ c Cert.KernelIdeal.main_arg27 (by decide)]
  rw [loss_bridge]
  rfl

end Runs2

end Cert.SimOut

end
-- ==== Proof.Sim.lean ====
import proofs.«404108_j19344532701343_1_alg».proof.Proof.PreFacts
import proofs.«404108_j19344532701343_1_alg».proof.Proof.SimPreA
import proofs.«404108_j19344532701343_1_alg».proof.Proof.SimPreB
import proofs.«404108_j19344532701343_1_alg».proof.Proof.SimNode
import proofs.«404108_j19344532701343_1_alg».proof.Proof.SimEdge
import proofs.«404108_j19344532701343_1_alg».proof.Proof.SimLayer0
import proofs.«404108_j19344532701343_1_alg».proof.Proof.SimLayer1
import proofs.«404108_j19344532701343_1_alg».proof.Proof.SimLayer2
import proofs.«404108_j19344532701343_1_alg».proof.Proof.SimLayer3
import proofs.«404108_j19344532701343_1_alg».proof.Proof.SimOut
import proofs.«404108_j19344532701343_1_alg».proof.Proof.Gen.Pre_finite_inputs
import proofs.«404108_j19344532701343_1_alg».proof.Proof.KRun
import proofs.«404108_j19344532701343_1_alg».proof.Proof.RefArgs

set_option maxRecDepth 16384

noncomputable section

namespace Cert.Sim

open Idealize.ShloMosaic Idealize.ShloMosaic.TcCoe Idealize.SL.Sem

/-- From memories that agree on the arguments, the two results are one array: the shared host prefix, the node and edge
    attributes, the four graph layers and the output stage each map equal inputs to equal outputs. -/
theorem algebraic : Cert.algebraic_KernelIdeal_ReferenceIdeal := fun m ρ m' g' hpre hagree =>
  ⟨fun c => Cert.KernelIdeal.Gen.W25 m ρ c (Proc.devRef .tc Cert.KernelIdeal.main_v191),
   Cert.KernelIdeal.KRun.run_value m ρ,
   (θ_run (Cert.ReferenceIdeal.defs (F := Ideal)) _ _).mono (fun r h c =>
     ⟨(h c Cert.ReferenceIdeal.main_v268).trans (by
        obtain ⟨h0, h1, h2, h3, h4, h5, h6, h7, h8, h9, h10, h11, h12, h13, h14, h15, h16, h17, h18, h19, h20, h21, h22, h23, h24, h25, h26, h27⟩ := hagree c
        obtain ⟨hr1, hr3⟩ := Cert.PreFacts.ranges m hpre c
        have v1 := Cert.SimPreA.sim_v1 m ρ m' c h2
        have v3 := Cert.SimPreA.sim_v3 m ρ m' c h2
        have v10 := Cert.SimPreA.sim_v10 m ρ m' c h2 h4
        have v26 := Cert.SimPreA.sim_v26 m ρ m' c h0 h2
        have stde := Cert.SimPreB.sim_stde m ρ m' c h5 v10
        have pd := Cert.SimPreB.sim_pd m ρ m' c h5 h6 v10 v26
        have tve := Cert.SimPreB.sim_tve m ρ m' c h5 h13 h14 h15 h16 h17 v10
        have x0 := Cert.SimNode.node m ρ m' c h1 h7 hr1
        have ea := Cert.SimEdge.edge m ρ m' c h3 h8 h9 h10 h11 h12 hr3 pd tve (Cert.SimPreA.k_v75 m ρ c) (Cert.SimPreA.k_v76 m ρ c) (Cert.SimPreA.k_v77 m ρ c)
        have x1 := Cert.SimLayer0.layer0 m ρ m' c h18 h19 h20 h21 x0 v1 v3 ea
        have x2 := Cert.SimLayer1.layer1 m ρ m' c h18 h19 h20 h21 x1 v1 v3 ea
        have x3 := Cert.SimLayer2.layer2 m ρ m' c h18 h19 h20 h21 x2 v1 v3 ea
        have x4 := Cert.SimLayer3.layer3 m ρ m' c h18 h19 h20 h21 x3 v1 v3 ea
        exact Cert.SimOut.out m ρ m' c h6 h22 h23 h24 h25 h26 h27 x4 v1 v3 v10 stde ea),
      Cert.ReferenceIdeal.RefArgs.keptAll m' c r.2.mem (h c)⟩)
    (Cert.ReferenceIdeal.RefRun.run_fold m' g')⟩

end Cert.Sim

end
-- ==== Proof.lean ====
import proofs.«404108_j19344532701343_1_alg».proof.Defs
import proofs.«404108_j19344532701343_1_alg».proof.Proof.Gen.Kernel
import proofs.«404108_j19344532701343_1_alg».proof.Proof.Gen.Kernel.Skeleton
import proofs.«404108_j19344532701343_1_alg».proof.Proof.Gen.Kernel.Launch
import proofs.«404108_j19344532701343_1_alg».proof.Proof.Gen.Kernel.Points
import proofs.«404108_j19344532701343_1_alg».proof.Proof.Gen.Kernel.Frame
import proofs.«404108_j19344532701343_1_alg».proof.Proof.Gen.KernelIdeal
import proofs.«404108_j19344532701343_1_alg».proof.Proof.Gen.KernelIdeal.Skeleton
import proofs.«404108_j19344532701343_1_alg».proof.Proof.Gen.KernelIdeal.Launch
import proofs.«404108_j19344532701343_1_alg».proof.Proof.Gen.KernelIdeal.Points
import proofs.«404108_j19344532701343_1_alg».proof.Proof.Gen.KernelIdeal.Frame
import proofs.«404108_j19344532701343_1_alg».proof.Proof.Gen.ReferenceIdeal
import proofs.«404108_j19344532701343_1_alg».proof.Proof.Gen.Pre_finite_inputs
import proofs.«404108_j19344532701343_1_alg».proof.Proof.RefArgs
import proofs.«404108_j19344532701343_1_alg».proof.Proof.Sim
import Idealize.ShloMosaic.Adequacy
import Idealize.ShloMosaic.Init

set_option maxRecDepth 16384

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m g _ => (θ_run (Cert.ReferenceIdeal.defs (F := Ideal)) _ _).mono
    (fun r h c => Cert.ReferenceIdeal.RefArgs.keptAll m c r.2.mem (h c)) (Cert.ReferenceIdeal.RefRun.run_fold m g),
  trivial,
  Cert.Sim.algebraic⟩

end Cert.Proof

end
